-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x320000 : Shape := ⟨2, ![2, 320000]⟩
abbrev S320000x256 : Shape := ⟨2, ![320000, 256]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x320000 : S_.BroadcastsInDim S2x320000 (![] : Fin 0 → Fin S2x320000.rank)
  reducesTo_S2x320000_S_d0_1 : S2x320000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg1 : IVec S2x320000 32) (main_arg15 : FVec F S256 .f32) (main_arg16 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_c_30 : IVec S_ 32 := constantI S_ 32 0#32
  let main_v79 : IVec S2x320000 32 := broadcastInDim S2x320000 ![] bcast_S_S2x320000 main_c_30
  let main_v80 : IVec S2x320000 1 := cmpi .sge main_arg1 main_v79
  let main_c_31 : IVec S_ 32 := constantI S_ 32 50000#32
  let main_v81 : IVec S2x320000 32 := broadcastInDim S2x320000 ![] bcast_S_S2x320000 main_c_31
  let main_v82 : IVec S2x320000 1 := cmpi .slt main_arg1 main_v81
  let main_v83 : IVec S2x320000 1 := andi main_v80 main_v82
  let main_c_32 : IVec S_ 1 := constantI S_ 1 1#1
  let main_v84 : IVec S_ 1 := (fun x v => Host.reduce IntOp.andi x v reducesTo_S2x320000_S_d0_1 h_S_) main_v83 main_c_32
  fn_part5 (F := F) main_v78 main_v84

def fn_part3 {F : FTy → Type} [FloatOps F] (main_arg1 : IVec S2x320000 32) (main_arg12 : FVec F S256 .f32) (main_arg13 : FVec F S256 .f32) (main_arg14 : FVec F S256 .f32) (main_arg15 : FVec F S256 .f32) (main_arg16 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_arg15 main_arg16 main_v63 main_v67

def fn_part2 {F : FTy → Type} [FloatOps F] (main_arg1 : IVec S2x320000 32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg1 main_arg12 main_arg13 main_arg14 main_arg15 main_arg16 main_v48 main_v49 main_v50

def fn_part1 {F : FTy → Type} [FloatOps F] (main_arg1 : IVec S2x320000 32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S50000x256 .f32) (main_arg1 : IVec S2x320000 32) (main_arg2 : FVec F S320000x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S320000x256 .f32 := Host.absf main_arg2
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S50000x256 : Shape := ⟨2, ![50000, 256]⟩
abbrev S2x320000 : Shape := ⟨2, ![2, 320000]⟩
abbrev S320000x256 : Shape := ⟨2, ![320000, 256]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S256x1024 : Shape := ⟨2, ![256, 1024]⟩
abbrev S1024 : Shape := ⟨1, ![1024]⟩
abbrev S1x1024 : Shape := ⟨2, ![1, 1024]⟩
abbrev S1000x256 : Shape := ⟨2, ![1000, 256]⟩
abbrev S1000x1024 : Shape := ⟨2, ![1000, 1024]⟩
abbrev S1x256 : Shape := ⟨2, ![1, 256]⟩
abbrev S2000x256 : Shape := ⟨2, ![2000, 256]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S50000 : Shape := ⟨1, ![50000]⟩
abbrev S50000x1 : Shape := ⟨2, ![50000, 1]⟩

abbrev nBuf : Space → Nat
  | .hbm => 150
  | .vmem => 62
  | .smem => 0
  | _ => 0

abbrev hbmTy0_0 (i : Nat) : BufTy := match i % 128 with
  | 0 => ⟨S50000x256, .f32⟩
  | 1 => ⟨S2x320000, .i32⟩
  | 2 => ⟨S320000x256, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256, .f32⟩
  | 14 => ⟨S256, .f32⟩
  | 15 => ⟨S256, .f32⟩
  | 16 => ⟨S256, .f32⟩
  | 17 => ⟨S1x320000, .i32⟩
  | 18 => ⟨S320000, .i32⟩
  | 19 => ⟨S1x320000, .i32⟩
  | 20 => ⟨S320000, .i32⟩
  | 21 => ⟨S256x256, .f32⟩
  | 22 => ⟨S256x256, .f32⟩
  | 23 => ⟨S256x256, .f32⟩
  | 24 => ⟨S256x256, .f32⟩
  | 25 => ⟨S256x1024, .f32⟩
  | 26 => ⟨S1024, .f32⟩
  | 27 => ⟨S1x1024, .f32⟩
  | 28 => ⟨S50000x256, .f32⟩
  | 29 => ⟨S50000x256, .f32⟩
  | 30 => ⟨S50000x256, .f32⟩
  | 31 => ⟨S50000x256, .f32⟩
  | 32 => ⟨S256x256, .f32⟩
  | 33 => ⟨S1x256, .f32⟩
  | 34 => ⟨S320000x256, .f32⟩
  | 35 => ⟨S320000x256, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S1, .i32⟩
  | 45 => ⟨S_, .i32⟩
  | 46 => ⟨S320000x1, .i32⟩
  | 47 => ⟨S320000x1, .i1⟩
  | 48 => ⟨S1x1, .i32⟩
  | 49 => ⟨S320000x1, .i32⟩
  | 50 => ⟨S320000x1, .i1⟩
  | 51 => ⟨S320000x1, .i1⟩
  | 52 => ⟨S_, .i1⟩
  | 53 => ⟨S320000, .i1⟩
  | 54 => ⟨S320000x256, .f32⟩
  | 55 => ⟨S320000x256, .i1⟩
  | 56 => ⟨S_, .f32⟩
  | 57 => ⟨S320000x256, .f32⟩
  | 58 => ⟨S320000x256, .f32⟩
  | 59 => ⟨S320000x256, .f32⟩
  | 60 => ⟨S_, .f32⟩
  | 61 => ⟨S50000x256, .f32⟩
  | 62 => ⟨S320000x1, .i32⟩
  | 63 => ⟨S50000x256, .f32⟩
  | 64 => ⟨S_, .f32⟩
  | 65 => ⟨S320000, .f32⟩
  | 66 => ⟨S_, .f32⟩
  | 67 => ⟨S50000, .f32⟩
  | 68 => ⟨S320000x1, .i32⟩
  | 69 => ⟨S50000, .f32⟩
  | 70 => ⟨S_, .f32⟩
  | 71 => ⟨S50000, .f32⟩
  | 72 => ⟨S50000, .f32⟩
  | 73 => ⟨S50000x1, .f32⟩
  | 74 => ⟨S50000x256, .f32⟩
  | 75 => ⟨S50000x256, .f32⟩
  | 76 => ⟨S50000x256, .f32⟩
  | 77 => ⟨S1x256, .f32⟩
  | 78 => ⟨S1x256, .f32⟩
  | 79 => ⟨S_, .f32⟩
  | 80 => ⟨S1x256, .f32⟩
  | 81 => ⟨S1x256, .f32⟩
  | 82 => ⟨S_, .f32⟩
  | 83 => ⟨S1x256, .f32⟩
  | 84 => ⟨S1x256, .f32⟩
  | 85 => ⟨S1x256, .f32⟩
  | 86 => ⟨S1x256, .f32⟩
  | 87 => ⟨S1x256, .f32⟩
  | 88 => ⟨S1x256, .f32⟩
  | 89 => ⟨S50000x256, .f32⟩
  | 90 => ⟨S_, .i32⟩
  | 91 => ⟨S320000, .i32⟩
  | 92 => ⟨S320000, .i1⟩
  | 93 => ⟨S_, .i32⟩
  | 94 => ⟨S320000, .i32⟩
  | 95 => ⟨S320000, .i32⟩
  | 96 => ⟨S320000, .i32⟩
  | 97 => ⟨S320000x1, .i32⟩
  | 98 => ⟨S1, .i32⟩
  | 99 => ⟨S_, .i32⟩
  | 100 => ⟨S320000x1, .i32⟩
  | 101 => ⟨S320000x1, .i1⟩
  | 102 => ⟨S1x1, .i32⟩
  | 103 => ⟨S320000x1, .i32⟩
  | 104 => ⟨S320000x1, .i1⟩
  | 105 => ⟨S320000x1, .i1⟩
  | 106 => ⟨S_, .i1⟩
  | 107 => ⟨S320000, .i1⟩
  | 108 => ⟨S320000x256, .f32⟩
  | 109 => ⟨S320000x256, .i1⟩
  | 110 => ⟨S_, .f32⟩
  | 111 => ⟨S320000x256, .f32⟩
  | 112 => ⟨S320000x256, .f32⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S1, .i32⟩
  | 122 => ⟨S_, .i32⟩
  | 123 => ⟨S320000x1, .i32⟩
  | 124 => ⟨S320000x1, .i1⟩
  | 125 => ⟨S1x1, .i32⟩
  | 126 => ⟨S320000x1, .i32⟩
  | 127 => ⟨S320000x1, .i1⟩
  | _ => ⟨S50000x256, .f32⟩

abbrev hbmTy0_1 (i : Nat) : BufTy := match i % 128 with
  | 0 => ⟨S320000x1, .i1⟩
  | 1 => ⟨S_, .i1⟩
  | 2 => ⟨S320000, .i1⟩
  | 3 => ⟨S320000x256, .f32⟩
  | 4 => ⟨S320000x256, .i1⟩
  | 5 => ⟨S_, .f32⟩
  | 6 => ⟨S320000x256, .f32⟩
  | 7 => ⟨S320000x256, .f32⟩
  | 8 => ⟨S320000x256, .f32⟩
  | 9 => ⟨S1x256, .f32⟩
  | 10 => ⟨S1x256, .f32⟩
  | 11 => ⟨S_, .f32⟩
  | 12 => ⟨S1x256, .f32⟩
  | 13 => ⟨S1x256, .f32⟩
  | 14 => ⟨S_, .f32⟩
  | 15 => ⟨S1x256, .f32⟩
  | 16 => ⟨S1x256, .f32⟩
  | 17 => ⟨S1x256, .f32⟩
  | 18 => ⟨S1x256, .f32⟩
  | 19 => ⟨S1x256, .f32⟩
  | 20 => ⟨S1x256, .f32⟩
  | 21 => ⟨S320000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x1024, .f32⟩
  | .local _ .vmem, ⟨3, _⟩ => ⟨S1x1024, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S1x256, .f32⟩
  | .local _ .vmem, ⟨49, _⟩ => ⟨S1x256, .f32⟩
  | .local _ .vmem, ⟨50, _⟩ => ⟨S1x256, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | .local _ .vmem, ⟨54, _⟩ => ⟨S2000x256, .f32⟩
  | .local _ .vmem, ⟨55, _⟩ => ⟨S2000x256, .f32⟩
  | .local _ .vmem, ⟨56, _⟩ => ⟨S1x256, .f32⟩
  | .local _ .vmem, ⟨57, _⟩ => ⟨S1x256, .f32⟩
  | .local _ .vmem, ⟨58, _⟩ => ⟨S1x256, .f32⟩
  | .local _ .vmem, ⟨59, _⟩ => ⟨S1x256, .f32⟩
  | .local _ .vmem, ⟨60, _⟩ => ⟨S2000x256, .f32⟩
  | .local _ .vmem, ⟨61, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v11_2 : Ref sig .tc := ⟨.hbm, 30, rfl⟩
abbrev main_v11_3 : Ref sig .tc := ⟨.hbm, 31, rfl⟩
abbrev main_v12 : Ref sig .tc := ⟨.hbm, 32, rfl⟩
abbrev main_v13 : Ref sig .tc := ⟨.hbm, 33, rfl⟩
abbrev main_v14_0 : Ref sig .tc := ⟨.hbm, 34, rfl⟩
abbrev main_v14_1 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_call0_cst : Ref sig .tc := ⟨.hbm, 56, rfl⟩
abbrev main_call0_v15 : Ref sig .tc := ⟨.hbm, 57, rfl⟩
abbrev main_v15 : Ref sig .tc := ⟨.hbm, 58, rfl⟩
abbrev main_v16 : Ref sig .tc := ⟨.hbm, 59, rfl⟩
abbrev main_cst : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_cst_0 : Ref sig .tc := ⟨.hbm, 64, rfl⟩
abbrev main_v20 : Ref sig .tc := ⟨.hbm, 65, rfl⟩
abbrev main_cst_1 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_cst_2 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29_0 : Ref sig .tc := ⟨.hbm, 76, rfl⟩
abbrev main_v29_1 : Ref sig .tc := ⟨.hbm, 77, rfl⟩
abbrev main_v29_2 : Ref sig .tc := ⟨.hbm, 78, rfl⟩
abbrev main_cst_3 : Ref sig .tc := ⟨.hbm, 79, rfl⟩
abbrev main_v30 : Ref sig .tc := ⟨.hbm, 80, rfl⟩
abbrev main_v31 : Ref sig .tc := ⟨.hbm, 81, rfl⟩
abbrev main_cst_4 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_call1_c : Ref sig .tc := ⟨.hbm, 90, rfl⟩
abbrev main_call1_v0 : Ref sig .tc := ⟨.hbm, 91, rfl⟩
abbrev main_call1_v1 : Ref sig .tc := ⟨.hbm, 92, rfl⟩
abbrev main_call1_c_0 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_c_1 : Ref sig .tc := ⟨.hbm, 98, rfl⟩
abbrev main_call1_c_2 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_c_3 : Ref sig .tc := ⟨.hbm, 106, rfl⟩
abbrev main_call1_v12 : Ref sig .tc := ⟨.hbm, 107, rfl⟩
abbrev main_call1_v13 : Ref sig .tc := ⟨.hbm, 108, rfl⟩
abbrev main_call1_v14 : Ref sig .tc := ⟨.hbm, 109, rfl⟩
abbrev main_call1_cst : Ref sig .tc := ⟨.hbm, 110, rfl⟩
abbrev main_call1_v15 : Ref sig .tc := ⟨.hbm, 111, rfl⟩
abbrev main_v39 : Ref sig .tc := ⟨.hbm, 112, rfl⟩
abbrev main_call2_c : Ref sig .tc := ⟨.hbm, 113, rfl⟩
abbrev main_call2_v0 : Ref sig .tc := ⟨.hbm, 114, rfl⟩
abbrev main_call2_v1 : Ref sig .tc := ⟨.hbm, 115, rfl⟩
abbrev main_call2_c_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_c_1 : Ref sig .tc := ⟨.hbm, 121, rfl⟩
abbrev main_call2_c_2 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_c_3 : Ref sig .tc := ⟨.hbm, 129, rfl⟩
abbrev main_call2_v12 : Ref sig .tc := ⟨.hbm, 130, rfl⟩
abbrev main_call2_v13 : Ref sig .tc := ⟨.hbm, 131, rfl⟩
abbrev main_call2_v14 : Ref sig .tc := ⟨.hbm, 132, rfl⟩
abbrev main_call2_cst : Ref sig .tc := ⟨.hbm, 133, rfl⟩
abbrev main_call2_v15 : Ref sig .tc := ⟨.hbm, 134, rfl⟩
abbrev main_v40 : Ref sig .tc := ⟨.hbm, 135, rfl⟩
abbrev main_v41_0 : Ref sig .tc := ⟨.hbm, 136, rfl⟩
abbrev main_v41_1 : Ref sig .tc := ⟨.hbm, 137, rfl⟩
abbrev main_v41_2 : Ref sig .tc := ⟨.hbm, 138, rfl⟩
abbrev main_cst_5 : Ref sig .tc := ⟨.hbm, 139, rfl⟩
abbrev main_v42 : Ref sig .tc := ⟨.hbm, 140, rfl⟩
abbrev main_v43 : Ref sig .tc := ⟨.hbm, 141, rfl⟩
abbrev main_cst_6 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_v49 : Ref sig .tc := ⟨.hbm, 148, rfl⟩
abbrev main_v50 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg5_0 : Ref sig .tc := ⟨.vmem, 49, rfl⟩
abbrev cc4_scratch0 : Ref sig .tc := ⟨.vmem, 50, rfl⟩
abbrev cc4_scratch1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg6_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem3_1 : DmaSem sig := 45
abbrev cc4_sem4_0 : DmaSem sig := 46
abbrev cc4_sem5_0 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem6_0 : DmaSem sig := 56
abbrev cc5_sem6_1 : DmaSem sig := 57

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_15 : BitVec 32 := 0#32
  let v26 : BitVec 1 := Scalar.cmpi .ne v25 c0_i32_15
  v26

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![160], ![false]⟩

def k4_cond2 (i : grid4.Coords) : BitVec 1 :=
  let arg0 : BitVec 32 := BitVec.ofNat 32 (i 0).val
  let c159_i32 : BitVec 32 := 159#32
  let v27 : BitVec 1 := Scalar.cmpi .eq arg0 c159_i32
  let v28 : BitVec 32 := Scalar.extui v27
  let c0_i32_17 : BitVec 32 := 0#32
  let v29 : BitVec 1 := Scalar.cmpi .ne v28 c0_i32_17
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![160], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  transposes_S256x256_S256x256_1_0 : S256x256.Transposes [1, 0] S256x256
  concatenates_S256x256_S256x256_S256x256_S256x256_S256x1024_d1 : Shape.Concatenates [S256x256, S256x256, S256x256, S256x256] S256x1024 1
  concatenates_S256_S256_S256_S256_S1024_d0 : Shape.Concatenates [S256, S256, S256, S256] S1024 0
  shapeCasts_S1024_S1x1024 : S1024.ShapeCasts S1x1024
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  slices_S1000x1024_o0_0_S1000x256 : S1000x1024.Slices ![0, 0] S1000x256
  slices_S1000x1024_o0_256_S1000x256 : S1000x1024.Slices ![0, 256] S1000x256
  slices_S1000x1024_o0_512_S1000x256 : S1000x1024.Slices ![0, 512] S1000x256
  slices_S1000x1024_o0_768_S1000x256 : S1000x1024.Slices ![0, 768] S1000x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  shapeCasts_S2000x256_S2000x256 : S2000x256.ShapeCasts S2000x256
  reduces_S2000x256_S256 : S2000x256.Reduces [0] S256
  bcast_S_S1x256 : S_.BroadcastsInDim S1x256 (![] : Fin 0 → Fin S1x256.rank)
  dot_S1000x256_S256x1024_S1000x1024_1_0_0_1_n_n_wf : DotDims.WF S1000x256 S256x1024 S1000x1024 [1] [0] [0] [1] [] []
  dot_S2000x256_S256x256_S2000x256_1_0_0_1_n_n_wf : DotDims.WF S2000x256 S256x256 S2000x256 [1] [0] [0] [1] [] []
  gather_S50000x256_S320000x1_S320000x256_1_0_n_n_0_1_1256_wf : GatherDims.WF S50000x256 S320000x1 S320000x256 [1] [0] [] [0] [] 1 ![1, 256]
  scatter_S50000x256_S320000x1_S320000x256_1_0_0_1_wf : ScatterDims.WF S50000x256 S320000x1 S320000x256 [1] [0] [0] 1
  scatter_S50000_S320000x1_S320000_n_0_0_1_wf : ScatterDims.WF S50000 S320000x1 S320000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S50000x256.size a
  hwx0_3 : ∀ i : grid0.Coords, EltTy.bits .f32 = 32 ∨ (Rect.block (s := S50000x256) S1000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S50000x256.size a
  hwx0_4 : ∀ i : grid0.Coords, EltTy.bits .f32 = 32 ∨ (Rect.block (s := S50000x256) S1000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S50000x256.size a
  hwx0_5 : ∀ i : grid0.Coords, EltTy.bits .f32 = 32 ∨ (Rect.block (s := S50000x256) S1000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x256.size a ≤ S50000x256.size a
  hwx0_6 : ∀ i : grid0.Coords, EltTy.bits .f32 = 32 ∨ (Rect.block (s := S50000x256) S1000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S320000x256.size a
  hwx1_0 : ∀ i : grid1.Coords, EltTy.bits .f32 = 32 ∨ (Rect.block (s := S320000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S320000x256.size a
  hwx1_3 : ∀ i : grid1.Coords, EltTy.bits .f32 = 32 ∨ (Rect.block (s := S320000x256) S2000x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S320000x256.size a
  hwx1_4 : ∀ i : grid1.Coords, EltTy.bits .f32 = 32 ∨ (Rect.block (s := S320000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S50000x256.size a
  hwx3_6 : ∀ i : grid3.Coords, EltTy.bits .f32 = 32 ∨ (Rect.block (s := S50000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S320000x256.size a
  hwx4_0 : ∀ i : grid4.Coords, EltTy.bits .f32 = 32 ∨ (Rect.block (s := S320000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S320000x256.size a
  hwx4_1 : ∀ i : grid4.Coords, EltTy.bits .f32 = 32 ∨ (Rect.block (s := S320000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S320000x256.size a
  hwx4_2 : ∀ i : grid4.Coords, EltTy.bits .f32 = 32 ∨ (Rect.block (s := S320000x256) S2000x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S320000x256.size a
  hwx4_3 : ∀ i : grid4.Coords, EltTy.bits .f32 = 32 ∨ (Rect.block (s := S320000x256) S2000x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S320000x256.size a
  hwx5_0 : ∀ i : grid5.Coords, EltTy.bits .f32 = 32 ∨ (Rect.block (s := S320000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S320000x256.size a
  hwx5_1 : ∀ i : grid5.Coords, EltTy.bits .f32 = 32 ∨ (Rect.block (s := S320000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x256.size a ≤ S320000x256.size a
  hwx5_6 : ∀ i : grid5.Coords, EltTy.bits .f32 = 32 ∨ (Rect.block (s := S320000x256) S2000x256.size (cc5_transform_6 i) (hinb5_6 i)).WholeWords (EltTy.packing .f32)

variable [Facts₀]

def dot_S1000x256_S256x1024_S1000x1024_1_0_0_1_n_n : DotDims S1000x256 S256x1024 S1000x1024 where
  lhsContracting := [1]
  rhsContracting := [0]
  lhsNonContracting := [0]
  rhsNonContracting := [1]
  lhsBatch := []
  rhsBatch := []
  wf := dot_S1000x256_S256x1024_S1000x1024_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S320000x1_S320000x256_1_0_n_n_0_1_1256 : GatherDims S50000x256 S320000x1 S320000x256 where
  offsetDims := [1]
  collapsedSliceDims := [0]
  operandBatchingDims := []
  startIndicesBatchingDims := []
  startIndexMap := [0]
  indexVectorDim := 1
  sliceSizes := ![1, 256]
  wf := gather_S50000x256_S320000x1_S320000x256_1_0_n_n_0_1_1256_wf
def scatter_S50000x256_S320000x1_S320000x256_1_0_0_1 : ScatterDims S50000x256 S320000x1 S320000x256 where
  updateWindowDims := [1]
  insertedWindowDims := [0]
  scatterDimsToOperandDims := [0]
  indexVectorDim := 1
  wf := scatter_S50000x256_S320000x1_S320000x256_1_0_0_1_wf
def scatter_S50000_S320000x1_S320000_n_0_0_1 : ScatterDims S50000 S320000x1 S320000 where
  updateWindowDims := []
  insertedWindowDims := [0]
  scatterDimsToOperandDims := [0]
  indexVectorDim := 1
  wf := scatter_S50000_S320000x1_S320000_n_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S1000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S1000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_2) S1000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_3) S1000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14_0) S2000x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14_1) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v11_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29_0) S2000x256.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29_1) S1x256.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29_2) S1x256.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_arg0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29_0) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v38) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v14_0) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v40) S2000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v41_0) S2000x256.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v41_1) S1x256.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v41_2) S1x256.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun i => !(k4_cond2 i == 1#1) | 5 => fun i => !(k4_cond2 i == 1#1) | ⟨_ + 6, h⟩ => absurd h (Nat.not_lt.2 (Nat.le_add_left _ _))

abbrev win5_0 : Pipeline.Window sig grid5 :=
  Pipeline.Window.ofSpec (Memref.whole main_arg2) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41_0) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v43) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v47) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v48) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v49) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v50) S2000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x320000 : Shape := ⟨2, ![2, 320000]⟩
abbrev S320000x256 : Shape := ⟨2, ![320000, 256]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S1x256 : Shape := ⟨2, ![1, 256]⟩
abbrev S_ : Shape := ⟨0, ![]⟩
abbrev S320000x1 : Shape := ⟨2, ![320000, 1]⟩
abbrev S50000 : Shape := ⟨1, ![50000]⟩
abbrev S50000x1 : Shape := ⟨2, ![50000, 1]⟩

abbrev nBuf : Space → Nat
  | .hbm => 181
  | .vmem => 0
  | .smem => 0
  | _ => 0

abbrev hbmTy0_0 (i : Nat) : BufTy := match i % 128 with
  | 0 => ⟨S50000x256, .f32⟩
  | 1 => ⟨S2x320000, .i32⟩
  | 2 => ⟨S320000x256, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256, .f32⟩
  | 14 => ⟨S256, .f32⟩
  | 15 => ⟨S256, .f32⟩
  | 16 => ⟨S256, .f32⟩
  | 17 => ⟨S1x320000, .i32⟩
  | 18 => ⟨S320000, .i32⟩
  | 19 => ⟨S1x320000, .i32⟩
  | 20 => ⟨S320000, .i32⟩
  | 21 => ⟨S256x256, .f32⟩
  | 22 => ⟨S50000x256, .f32⟩
  | 23 => ⟨S1x256, .f32⟩
  | 24 => ⟨S50000x256, .f32⟩
  | 25 => ⟨S50000x256, .f32⟩
  | 26 => ⟨S256x256, .f32⟩
  | 27 => ⟨S50000x256, .f32⟩
  | 28 => ⟨S1x256, .f32⟩
  | 29 => ⟨S50000x256, .f32⟩
  | 30 => ⟨S50000x256, .f32⟩
  | 31 => ⟨S256x256, .f32⟩
  | 32 => ⟨S50000x256, .f32⟩
  | 33 => ⟨S1x256, .f32⟩
  | 34 => ⟨S50000x256, .f32⟩
  | 35 => ⟨S50000x256, .f32⟩
  | 36 => ⟨S256x256, .f32⟩
  | 37 => ⟨S50000x256, .f32⟩
  | 38 => ⟨S1x256, .f32⟩
  | 39 => ⟨S50000x256, .f32⟩
  | 40 => ⟨S50000x256, .f32⟩
  | 41 => ⟨S320000x256, .f32⟩
  | 42 => ⟨S320000x256, .f32⟩
  | 43 => ⟨S_, .f32⟩
  | 44 => ⟨S320000x256, .f32⟩
  | 45 => ⟨S320000x256, .f32⟩
  | 46 => ⟨S_, .f32⟩
  | 47 => ⟨S320000x256, .f32⟩
  | 48 => ⟨S320000x256, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x256, .f32⟩
  | 58 => ⟨S320000x256, .f32⟩
  | 59 => ⟨S_, .f32⟩
  | 60 => ⟨S50000x256, .f32⟩
  | 61 => ⟨S320000x1, .i32⟩
  | 62 => ⟨S50000x256, .f32⟩
  | 63 => ⟨S_, .f32⟩
  | 64 => ⟨S320000, .f32⟩
  | 65 => ⟨S_, .f32⟩
  | 66 => ⟨S50000, .f32⟩
  | 67 => ⟨S320000x1, .i32⟩
  | 68 => ⟨S50000, .f32⟩
  | 69 => ⟨S_, .f32⟩
  | 70 => ⟨S50000, .f32⟩
  | 71 => ⟨S50000, .f32⟩
  | 72 => ⟨S50000x1, .f32⟩
  | 73 => ⟨S50000x256, .f32⟩
  | 74 => ⟨S50000x256, .f32⟩
  | 75 => ⟨S50000x256, .f32⟩
  | 76 => ⟨S_, .f32⟩
  | 77 => ⟨S256, .f32⟩
  | 78 => ⟨S_, .f32⟩
  | 79 => ⟨S256, .f32⟩
  | 80 => ⟨S256, .f32⟩
  | 81 => ⟨S1x256, .f32⟩
  | 82 => ⟨S50000x256, .f32⟩
  | 83 => ⟨S50000x256, .f32⟩
  | 84 => ⟨S50000x256, .f32⟩
  | 85 => ⟨S_, .f32⟩
  | 86 => ⟨S256, .f32⟩
  | 87 => ⟨S_, .f32⟩
  | 88 => ⟨S256, .f32⟩
  | 89 => ⟨S256, .f32⟩
  | 90 => ⟨S1x256, .f32⟩
  | 91 => ⟨S50000x256, .f32⟩
  | 92 => ⟨S50000x256, .f32⟩
  | 93 => ⟨S1x256, .f32⟩
  | 94 => ⟨S50000x256, .f32⟩
  | 95 => ⟨S50000x256, .f32⟩
  | 96 => ⟨S_, .f32⟩
  | 97 => ⟨S256, .f32⟩
  | 98 => ⟨S256, .f32⟩
  | 99 => ⟨S256, .f32⟩
  | 100 => ⟨S1x256, .f32⟩
  | 101 => ⟨S50000x256, .f32⟩
  | 102 => ⟨S50000x256, .f32⟩
  | 103 => ⟨S1x256, .f32⟩
  | 104 => ⟨S50000x256, .f32⟩
  | 105 => ⟨S50000x256, .f32⟩
  | 106 => ⟨S50000x256, .f32⟩
  | 107 => ⟨S50000x256, .f32⟩
  | 108 => ⟨S_, .f32⟩
  | 109 => ⟨S50000x256, .f32⟩
  | 110 => ⟨S50000x256, .f32⟩
  | 111 => ⟨S_, .f32⟩
  | 112 => ⟨S50000x256, .f32⟩
  | 113 => ⟨S50000x256, .f32⟩
  | 114 => ⟨S50000x256, .f32⟩
  | 115 => ⟨S50000x256, .f32⟩
  | 116 => ⟨S256x256, .f32⟩
  | 117 => ⟨S320000x256, .f32⟩
  | 118 => ⟨S1x256, .f32⟩
  | 119 => ⟨S320000x256, .f32⟩
  | 120 => ⟨S320000x256, .f32⟩
  | 121 => ⟨S_, .i32⟩
  | 122 => ⟨S320000, .i32⟩
  | 123 => ⟨S320000, .i1⟩
  | 124 => ⟨S_, .i32⟩
  | 125 => ⟨S320000, .i32⟩
  | 126 => ⟨S320000, .i32⟩
  | 127 => ⟨S320000, .i32⟩
  | _ => ⟨S50000x256, .f32⟩

abbrev hbmTy0_1 (i : Nat) : BufTy := match i % 128 with
  | 0 => ⟨S320000x1, .i32⟩
  | 1 => ⟨S320000x256, .f32⟩
  | 2 => ⟨S320000x256, .f32⟩
  | 3 => ⟨S_, .i32⟩
  | 4 => ⟨S320000, .i32⟩
  | 5 => ⟨S320000, .i1⟩
  | 6 => ⟨S_, .i32⟩
  | 7 => ⟨S320000, .i32⟩
  | 8 => ⟨S320000, .i32⟩
  | 9 => ⟨S320000, .i32⟩
  | 10 => ⟨S320000x1, .i32⟩
  | 11 => ⟨S320000x256, .f32⟩
  | 12 => ⟨S320000x256, .f32⟩
  | 13 => ⟨S_, .f32⟩
  | 14 => ⟨S256, .f32⟩
  | 15 => ⟨S_, .f32⟩
  | 16 => ⟨S256, .f32⟩
  | 17 => ⟨S256, .f32⟩
  | 18 => ⟨S1x256, .f32⟩
  | 19 => ⟨S320000x256, .f32⟩
  | 20 => ⟨S320000x256, .f32⟩
  | 21 => ⟨S320000x256, .f32⟩
  | 22 => ⟨S_, .f32⟩
  | 23 => ⟨S256, .f32⟩
  | 24 => ⟨S_, .f32⟩
  | 25 => ⟨S256, .f32⟩
  | 26 => ⟨S256, .f32⟩
  | 27 => ⟨S1x256, .f32⟩
  | 28 => ⟨S320000x256, .f32⟩
  | 29 => ⟨S320000x256, .f32⟩
  | 30 => ⟨S1x256, .f32⟩
  | 31 => ⟨S320000x256, .f32⟩
  | 32 => ⟨S320000x256, .f32⟩
  | 33 => ⟨S_, .f32⟩
  | 34 => ⟨S256, .f32⟩
  | 35 => ⟨S256, .f32⟩
  | 36 => ⟨S256, .f32⟩
  | 37 => ⟨S1x256, .f32⟩
  | 38 => ⟨S320000x256, .f32⟩
  | 39 => ⟨S320000x256, .f32⟩
  | 40 => ⟨S1x256, .f32⟩
  | 41 => ⟨S320000x256, .f32⟩
  | 42 => ⟨S320000x256, .f32⟩
  | 43 => ⟨S320000x256, .f32⟩
  | 44 => ⟨S320000x256, .f32⟩
  | 45 => ⟨S_, .f32⟩
  | 46 => ⟨S320000x256, .f32⟩
  | 47 => ⟨S320000x256, .f32⟩
  | 48 => ⟨S_, .f32⟩
  | 49 => ⟨S320000x256, .f32⟩
  | 50 => ⟨S320000x256, .f32⟩
  | 51 => ⟨S320000x256, .f32⟩
  | 52 => ⟨S320000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst : Ref sig .tc := ⟨.hbm, 43, rfl⟩
abbrev main_v26 : Ref sig .tc := ⟨.hbm, 44, rfl⟩
abbrev main_v27 : Ref sig .tc := ⟨.hbm, 45, rfl⟩
abbrev main_cst_0 : Ref sig .tc := ⟨.hbm, 46, rfl⟩
abbrev main_v28 : Ref sig .tc := ⟨.hbm, 47, rfl⟩
abbrev main_v29 : Ref sig .tc := ⟨.hbm, 48, rfl⟩
abbrev main_c : Ref sig .tc := ⟨.hbm, 49, rfl⟩
abbrev main_v30 : Ref sig .tc := ⟨.hbm, 50, rfl⟩
abbrev main_v31 : Ref sig .tc := ⟨.hbm, 51, rfl⟩
abbrev main_c_1 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_cst_4 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_call0_v0 : Ref sig .tc := ⟨.hbm, 106, rfl⟩
abbrev main_call0_v1 : Ref sig .tc := ⟨.hbm, 107, rfl⟩
abbrev main_call0_cst : Ref sig .tc := ⟨.hbm, 108, rfl⟩
abbrev main_call0_v2 : Ref sig .tc := ⟨.hbm, 109, rfl⟩
abbrev main_call0_v3 : Ref sig .tc := ⟨.hbm, 110, rfl⟩
abbrev main_call0_cst_0 : Ref sig .tc := ⟨.hbm, 111, rfl⟩
abbrev main_call0_v4 : Ref sig .tc := ⟨.hbm, 112, rfl⟩
abbrev main_call0_v5 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_11 : Ref sig .tc := ⟨.hbm, 121, rfl⟩
abbrev main_v83 : Ref sig .tc := ⟨.hbm, 122, rfl⟩
abbrev main_v84 : Ref sig .tc := ⟨.hbm, 123, rfl⟩
abbrev main_c_12 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_13 : Ref sig .tc := ⟨.hbm, 131, rfl⟩
abbrev main_v91 : Ref sig .tc := ⟨.hbm, 132, rfl⟩
abbrev main_v92 : Ref sig .tc := ⟨.hbm, 133, rfl⟩
abbrev main_c_14 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_15 : Ref sig .tc := ⟨.hbm, 141, rfl⟩
abbrev main_v99 : Ref sig .tc := ⟨.hbm, 142, rfl⟩
abbrev main_cst_16 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_17 : Ref sig .tc := ⟨.hbm, 150, rfl⟩
abbrev main_v106 : Ref sig .tc := ⟨.hbm, 151, rfl⟩
abbrev main_cst_18 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_19 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_call1_v0 : Ref sig .tc := ⟨.hbm, 171, rfl⟩
abbrev main_call1_v1 : Ref sig .tc := ⟨.hbm, 172, rfl⟩
abbrev main_call1_cst : Ref sig .tc := ⟨.hbm, 173, rfl⟩
abbrev main_call1_v2 : Ref sig .tc := ⟨.hbm, 174, rfl⟩
abbrev main_call1_v3 : Ref sig .tc := ⟨.hbm, 175, rfl⟩
abbrev main_call1_cst_0 : Ref sig .tc := ⟨.hbm, 176, rfl⟩
abbrev main_call1_v4 : Ref sig .tc := ⟨.hbm, 177, rfl⟩
abbrev main_call1_v5 : Ref sig .tc := ⟨.hbm, 178, rfl⟩
abbrev main_v124 : Ref sig .tc := ⟨.hbm, 179, rfl⟩
abbrev main_v125 : Ref sig .tc := ⟨.hbm, 180, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S320000x256 : S_.BroadcastsInDim S320000x256 (![] : Fin 0 → Fin S320000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S1x256_S320000x256_0_1 : S1x256.BroadcastsInDim S320000x256 (![0, 1] : Fin 2 → Fin S320000x256.rank)
  reducesTo_S320000x256_S256_d0 : S320000x256.ReducesTo [0] S256
  dot_S50000x256_S256x256_S50000x256_1_0_0_1_n_n_wf : DotDims.WF S50000x256 S256x256 S50000x256 [1] [0] [0] [1] [] []
  gather_S50000x256_S320000x1_S320000x256_1_0_n_n_0_1_1256_wf : GatherDims.WF S50000x256 S320000x1 S320000x256 [1] [0] [] [0] [] 1 ![1, 256]
  scatter_S50000x256_S320000x1_S320000x256_1_0_0_1_wf : ScatterDims.WF S50000x256 S320000x1 S320000x256 [1] [0] [0] 1
  scatter_S50000_S320000x1_S320000_n_0_0_1_wf : ScatterDims.WF S50000 S320000x1 S320000 [] [0] [0] 1
  dot_S320000x256_S256x256_S320000x256_1_0_0_1_n_n_wf : DotDims.WF S320000x256 S256x256 S320000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S320000x1_S320000x256_1_0_n_n_0_1_1256 : GatherDims S50000x256 S320000x1 S320000x256 where
  offsetDims := [1]
  collapsedSliceDims := [0]
  operandBatchingDims := []
  startIndicesBatchingDims := []
  startIndexMap := [0]
  indexVectorDim := 1
  sliceSizes := ![1, 256]
  wf := gather_S50000x256_S320000x1_S320000x256_1_0_n_n_0_1_1256_wf
def scatter_S50000x256_S320000x1_S320000x256_1_0_0_1 : ScatterDims S50000x256 S320000x1 S320000x256 where
  updateWindowDims := [1]
  insertedWindowDims := [0]
  scatterDimsToOperandDims := [0]
  indexVectorDim := 1
  wf := scatter_S50000x256_S320000x1_S320000x256_1_0_0_1_wf
def scatter_S50000_S320000x1_S320000_n_0_0_1 : ScatterDims S50000 S320000x1 S320000 where
  updateWindowDims := []
  insertedWindowDims := [0]
  scatterDimsToOperandDims := [0]
  indexVectorDim := 1
  wf := scatter_S50000_S320000x1_S320000_n_0_0_1_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf

class Facts : Prop extends Facts₀ where

variable [Facts]
-- ==== Proof.K.R0.lean ====
import proofs.«413128_j44495861187321_1_alg».proof.Proof.Gen.Kernel.Launch
import proofs.«413128_j44495861187321_1_alg».proof.Proof.Gen.Kernel.Skeleton
import proofs.«413128_j44495861187321_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S1000x256 := Rect.unit (s := S1000x256) ![0, 0] S1000x256.size inb_S1000x256_S1000x256_0_0
abbrev r0_w : Rect S256x1024 := Rect.unit (s := S256x1024) ![0, 0] S256x1024.size inb_S256x1024_S256x1024_0_0
abbrev r0_b : Rect S1x1024 := Rect.unit (s := S1x1024) ![0, 0] S1x1024.size inb_S1x1024_S1x1024_0_0

section
variable (x0 : Vec F S1000x256 .f32) (x1 : Vec F S256x1024 .f32) (x2 : Vec F S1x1024 .f32)

def out0_3 : Vec F S1000x256 .f32 := View.canon [⟨r0_x, k0_pay2 (View.ld x0 r0_x) (View.ld x1 r0_w) (View.ld x2 r0_b)⟩]
def out0_4 : Vec F S1000x256 .f32 := View.canon [⟨r0_x, k0_pay3 (View.ld x0 r0_x) (View.ld x1 r0_w) (View.ld x2 r0_b)⟩]
def out0_5 : Vec F S1000x256 .f32 := View.canon [⟨r0_x, k0_pay4 (View.ld x0 r0_x) (View.ld x1 r0_w) (View.ld x2 r0_b)⟩]
def out0_6 : Vec F S1000x256 .f32 := View.canon [⟨r0_x, k0_pay5 (View.ld x0 r0_x) (View.ld x1 r0_w) (View.ld x2 r0_b)⟩]
end

theorem cover0_o (p0 : Vec F S1000x256 .f32) (y : S1000x256.Idx) :
    ∃ pc ∈ ([⟨r0_x, p0⟩] : List (View.Piece (Elt F) S1000x256 .f32)), y ∈ pc.1.set :=
  View.cover_of_tiled [⟨r0_x, p0⟩] S1000x256.size (by rfl) y

set_option maxHeartbeats 4000000 in
/-- Run on whole memrefs, the body keeps its three inputs and leaves each output at its quarter of the product. -/
theorem sound_kernel0 (c : Dev nD) (E : Set ℕ) (i : grid0.Coords) (arg1 : Memref sig .tc .vmem S1000x256 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1000x256 .f32) (harg4 : arg4.IsWhole) (arg5 : Memref sig .tc .vmem S1000x256 .f32) (harg5 : arg5.IsWhole) (arg6 : Memref sig .tc .vmem S1000x256 .f32) (harg6 : arg6.IsWhole) (arg7 : Memref sig .tc .vmem S1000x256 .f32) (harg7 : arg7.IsWhole)
    (x0 : Vec F S1000x256 .f32) (x1 : Vec F S256x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2) ∗ owns (c : Thread nD τ) arg7 fullShare (out0_6 x0 x1 x2)) -∗ K ⟨⟩))
      ⊢ wp frame (wpE (defs₀ (F := F)) Variants.none c none) E (cc0__lin4_kernel i arg1 harg1 arg2 harg2 arg3 harg3 arg4 harg4 arg5 harg5 arg6 harg6 arg7 harg7) K := by
  simp only [cc0__lin4_kernel_eq_skeleton]; unfold cc0__lin4_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  isplitl [H5]
  · iexists _; isplitr
    swap; · iexact H5
    ipureintro
    exact View.read_writes_eq_canon _ _ _ (cover0_o _)
  iexists _; isplitr
  swap; · iexact H6
  ipureintro
  exact View.read_writes_eq_canon _ _ _ (cover0_o _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
  Φ _ := Pipeline.ΦA spec0 c
  q _ := fullShare
  owed _ := 0

section
variable (c : Dev nD) (t : Fin cfg0.N)

theorem A_eq0 (w : Fin cfg0.W) : (dat0 V c).A w = V c (Pipeline.arrRef spec0 w) := by dsimp only [dat0]
theorem q_eq0 (w : Fin cfg0.W) : (dat0 V c).q w = fullShare := by dsimp only [dat0]
theorem owed_eq0 (t : Fin (cfg0.N + 1)) : (dat0 V c).owed t = 0 := by dsimp only [dat0]

theorem after0_0 : (dat0 V c).after 0 t = iblk0 V c 0 t := by dsimp only [dat0]
theorem after0_1 : (dat0 V c).after 1 t = iblk0 V c 1 t := by dsimp only [dat0]
theorem after0_2 : (dat0 V c).after 2 t = iblk0 V c 2 t := by dsimp only [dat0]
theorem after0_3 : (dat0 V c).after 3 t = out0_3 (iblk0 V c 0 t) (iblk0 V c 1 t) (iblk0 V c 2 t) := by dsimp only [dat0]
theorem after0_4 : (dat0 V c).after 4 t = out0_4 (iblk0 V c 0 t) (iblk0 V c 1 t) (iblk0 V c 2 t) := by dsimp only [dat0]
theorem after0_5 : (dat0 V c).after 5 t = out0_5 (iblk0 V c 0 t) (iblk0 V c 1 t) (iblk0 V c 2 t) := by dsimp only [dat0]
theorem after0_6 : (dat0 V c).after 6 t = out0_6 (iblk0 V c 0 t) (iblk0 V c 1 t) (iblk0 V c 2 t) := by dsimp only [dat0]

theorem before0_0 (d) : (dat0 V c).before 0 t d = iblk0 V c 0 t :=
  ((dat0 V c).before_in_eq_fetched 0 rfl (fun _ => rfl) (fun _ _ _ => rfl) (fun t => by rw [after0_0]; rfl) t d).trans rfl
theorem before0_1 (d) : (dat0 V c).before 1 t d = iblk0 V c 1 t :=
  ((dat0 V c).before_in_eq_fetched 1 rfl (fun _ => rfl) (fun _ _ _ => rfl) (fun t => by rw [after0_1]; rfl) t d).trans rfl
theorem before0_2 (d) : (dat0 V c).before 2 t d = iblk0 V c 2 t :=
  ((dat0 V c).before_in_eq_fetched 2 rfl (fun _ => rfl) (fun _ _ _ => rfl) (fun t => by rw [after0_2]; rfl) t d).trans rfl

end

theorem body_obligation0 (c : Dev nD) : BodyObligation (dat0 (F := F) V c) (defs₀ (F := F)) Variants.none () Set.univ := fun t => by
  rw [bigSep_W0, bigSep_W0]
  simp only [before0_0, before0_1, before0_2, after0_0, after0_1, after0_2, after0_3, after0_4, after0_5, after0_6]
  rw [show (dat0 V c).Φ t.succ = (dat0 V c).Φ t.castSucc from rfl,
    show (dat0 V c).owesAt () t.succ = (dat0 V c).owesAt () t.castSucc from rfl]
  show _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) _)
  iframe H0 H1 H2
  isplitl [H3]; · iexists _; iexact H3
  isplitl [H4]; · iexists _; iexact H4
  isplitl [H5]; · iexists _; iexact H5
  isplitl [H6]; · iexists _; iexact H6
  iintro ⟨H0, H1, H2, H3, H4, H5, H6⟩
  iframe

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.Kernel.Hand

end
-- ==== Proof.K.R1.lean ====
import proofs.«413128_j44495861187321_1_alg».proof.Proof.Gen.Kernel.Launch
import proofs.«413128_j44495861187321_1_alg».proof.Proof.Gen.Kernel.Skeleton
import proofs.«413128_j44495861187321_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_e : Rect S2000x256 := Rect.unit (s := S2000x256) ![0, 0] S2000x256.size inb_S2000x256_S2000x256_0_0
abbrev r1_w : Rect S256x256 := Rect.unit (s := S256x256) ![0, 0] S256x256.size inb_S256x256_S256x256_0_0
abbrev r1_b : Rect S1x256 := Rect.unit (s := S1x256) ![0, 0] S1x256.size inb_S1x256_S1x256_0_0

def out1_3 (x0 : Vec F S2000x256 .f32) (x1 : Vec F S256x256 .f32) (x2 : Vec F S1x256 .f32) : Vec F S2000x256 .f32 :=
  View.canon [⟨r1_e, k1_pay1 (View.ld x0 r1_e) (View.ld x1 r1_w) (View.ld x2 r1_b)⟩]

def out1_4 (x0 : Vec F S2000x256 .f32) : Vec F S2000x256 .f32 :=
  View.canon [⟨r1_e, k1_pay2 (View.ld x0 r1_e)⟩]

theorem cover1_e (p0 : Vec F S2000x256 .f32) (y : S2000x256.Idx) :
    ∃ pc ∈ ([⟨r1_e, p0⟩] : List (View.Piece (Elt F) S2000x256 .f32)), y ∈ pc.1.set :=
  View.cover_of_tiled [⟨r1_e, p0⟩] S2000x256.size (by rfl) y

set_option maxHeartbeats 4000000 in
/-- Run on whole memrefs, the body keeps its three inputs and leaves the product plus bias and the gate in the outputs. -/
theorem sound_kernel1 (c : Dev nD) (E : Set ℕ) (i : grid1.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2000x256 .f32) (harg4 : arg4.IsWhole)
    (arg5 : Memref sig .tc .vmem S2000x256 .f32) (harg5 : arg5.IsWhole)
    (x0 : Vec F S2000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0)) -∗ K ⟨⟩))
      ⊢ wp frame (wpE (defs₀ (F := F)) Variants.none c none) E (cc1__edge_lin_kernel i arg1 harg1 arg2 harg2 arg3 harg3 arg4 harg4 arg5 harg5) K := by
  simp only [cc1__edge_lin_kernel_eq_skeleton]; unfold cc1__edge_lin_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_e _)
  iexists _; isplitr
  swap; · iexact H4
  ipureintro
  exact View.read_writes_eq_canon _ _ _ (cover1_e _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t)
  Φ _ := Pipeline.ΦA spec1 c
  q _ := fullShare
  owed _ := 0

section
variable (c : Dev nD) (t : Fin cfg1.N)

theorem A_eq1 (w : Fin cfg1.W) : (dat1 V c).A w = V c (Pipeline.arrRef spec1 w) := by dsimp only [dat1]
theorem q_eq1 (w : Fin cfg1.W) : (dat1 V c).q w = fullShare := by dsimp only [dat1]
theorem owed_eq1 (t : Fin (cfg1.N + 1)) : (dat1 V c).owed t = 0 := by dsimp only [dat1]

theorem after1_0 : (dat1 V c).after 0 t = iblk1 V c 0 t := by dsimp only [dat1]
theorem after1_1 : (dat1 V c).after 1 t = iblk1 V c 1 t := by dsimp only [dat1]
theorem after1_2 : (dat1 V c).after 2 t = iblk1 V c 2 t := by dsimp only [dat1]
theorem after1_3 : (dat1 V c).after 3 t = out1_3 (iblk1 V c 0 t) (iblk1 V c 1 t) (iblk1 V c 2 t) := by dsimp only [dat1]
theorem after1_4 : (dat1 V c).after 4 t = out1_4 (iblk1 V c 0 t) := by dsimp only [dat1]

theorem before1_0 (d) : (dat1 V c).before 0 t d = iblk1 V c 0 t :=
  ((dat1 V c).before_in_eq_fetched 0 rfl (fun _ => rfl) (fun _ _ _ => rfl) (fun t => by rw [after1_0]; rfl) t d).trans rfl
theorem before1_1 (d) : (dat1 V c).before 1 t d = iblk1 V c 1 t :=
  ((dat1 V c).before_in_eq_fetched 1 rfl (fun _ => rfl) (fun _ _ _ => rfl) (fun t => by rw [after1_1]; rfl) t d).trans rfl
theorem before1_2 (d) : (dat1 V c).before 2 t d = iblk1 V c 2 t :=
  ((dat1 V c).before_in_eq_fetched 2 rfl (fun _ => rfl) (fun _ _ _ => rfl) (fun t => by rw [after1_2]; rfl) t d).trans rfl

end

theorem body_obligation1 (c : Dev nD) : BodyObligation (dat1 (F := F) V c) (defs₀ (F := F)) Variants.none () Set.univ := fun t => by
  rw [bigSep_W1, bigSep_W1]
  simp only [before1_0, before1_1, before1_2, after1_0, after1_1, after1_2, after1_3, after1_4]
  rw [show (dat1 V c).Φ t.succ = (dat1 V c).Φ t.castSucc from rfl,
    show (dat1 V c).owesAt () t.succ = (dat1 V c).owesAt () t.castSucc from rfl]
  show _ ⊢ wp _ _ _ (bodyAt1 t) _
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  iframe H0 H1 H2
  isplitl [H3]; · iexists _; iexact H3
  isplitl [H4]; · iexists _; iexact H4
  iintro ⟨H0, H1, H2, H3, H4⟩
  iframe

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := .rfl

end Cert.Kernel.Hand

end
-- ==== Proof.K.R2.lean ====
import proofs.«413128_j44495861187321_1_alg».proof.Proof.Gen.Kernel.Launch
import proofs.«413128_j44495861187321_1_alg».proof.Proof.Gen.Kernel.Skeleton
import proofs.«413128_j44495861187321_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1
/-- The accumulators are zeroed at the first point only. -/
theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1
/-- The accumulators are copied out at the last point only. -/
theorem hcond2_1 : ∀ t : Fin cfg2.N, cond2_1 (grid2.coords t) ↔ t.val = 24 :=
  (by decide +kernel : ∀ t : Fin grid2.N, cond2_1 (grid2.coords t) ↔ t.val = 24)

theorem live2 : ∀ t : Fin cfg2.N, cfg2.idle 0 (grid2.coords t) = false ∧ cfg2.idle 1 (grid2.coords t) = false ∧ cfg2.idle 2 (grid2.coords t) = false := by
  decide +kernel
theorem stat2 : ∀ t : Fin cfg2.N, (t.val = 24 → cfg2.idle 3 (grid2.coords t) = false ∧ cfg2.idle 4 (grid2.coords t) = false)
    ∧ (t.val ≠ 24 → (cfg2.idle 3 (grid2.coords t) = true ∧ (cfg2.win 3).flush t = false) ∧ cfg2.idle 4 (grid2.coords t) = true ∧ (cfg2.win 4).flush t = false) := by
  decide +kernel

abbrev ms2_0 (t : Fin cfg2.N) : Memref sig .tc .vmem S2000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev scM2_0 : Memref sig .tc .vmem S1x256 .f32 := Memref.whole cc2_scratch0
abbrev scM2_1 : Memref sig .tc .vmem S1x256 .f32 := Memref.whole cc2_scratch1

abbrev Phi2 (c : Dev nD) (A : sProp 𝕄) : sProp 𝕄 :=
  iprop(iprop(A ∗ Pipeline.scopedRestBut (Ix := Unit) (Name := ℕ) (U := UR sig nD τ) (Lvl := ℕ) (Val := Elt F) spec2 c [cc2_scratch0, cc2_scratch1]) ∗ (∃ r, prngReg c r))

theorem PhiA2_eq (c : Dev nD) : (Pipeline.ΦA spec2 c : sProp 𝕄)
    = Phi2 c iprop((∃ d, owns (c : Thread nD τ) scM2_0 fullShare d) ∗ (∃ d, owns (c : Thread nD τ) scM2_1 fullShare d)) := by
  unfold Pipeline.ΦA; rw [scopedRest2_split]; simp only [scM2_0, scM2_1, owns_whole]; try rfl

theorem hz2 : (![0, 0] : Fin 2 → Nat) = fun _ => 0 := funext fun a => by fin_cases a <;> rfl

theorem read_pieces {S : Shape} (v : View sig .tc .vmem S .f32) (f : v.ty.Contents (Elt F)) (L : List (View.Piece (Elt F) S .f32))
    (hT : View.Piece.tiledL L S.size = true) {X : Vec F S .f32} (hX : View.canon L = X) : v.read (Elt F) (v.writes (Elt F) f L) = X :=
  (View.read_writes_eq_canon v f L (View.cover_of_tiledL L S.size hT)).trans hX

section Body

variable (c : Dev nD) (i : grid2.Coords)
  {a1 a2 a3 : Memref sig .tc .vmem S2000x256 .f32} {a4 a5 a6 a7 : Memref sig .tc .vmem S1x256 .f32}
  (h1 : a1.IsWhole) (h2 : a2.IsWhole) (h3 : a3.IsWhole) (h4 : a4.IsWhole) (h5 : a5.IsWhole) (h6 : a6.IsWhole) (h7 : a7.IsWhole)
  (x0 x1 : Vec F S2000x256 .f32)

set_option maxHeartbeats 4000000 in
/-- A point before the last: the block's sum stored, its column statistics added onto the accumulators, which the first point zeroes first. -/
theorem run2_AB (hc1 : ¬cond2_1 i) (xs0 xs1 s0 s1 xi3 xi4 : Vec F S1x256 .f32)
    (hs : if cond2_0 i then s0 = k2_pay1 ∧ s1 = k2_pay2 else s0 = xs0 ∧ s1 = xs1) (E : Set ℕ) (K : PUnit → sProp 𝕄) :
    iprop(owns (c : Thread nD τ) a1 fullShare x0 ∗ owns (c : Thread nD τ) a2 fullShare x1 ∗ (∃ d, owns (c : Thread nD τ) a3 fullShare d) ∗ owns (c : Thread nD τ) a4 fullShare xi3 ∗ owns (c : Thread nD τ) a5 fullShare xi4 ∗ owns (c : Thread nD τ) a6 fullShare xs0 ∗ owns (c : Thread nD τ) a7 fullShare xs1
        ∗ (iprop(owns (c : Thread nD τ) a1 fullShare x0 ∗ owns (c : Thread nD τ) a2 fullShare x1 ∗ owns (c : Thread nD τ) a3 fullShare (k2_pay3 x0 x1) ∗ owns (c : Thread nD τ) a4 fullShare xi3 ∗ owns (c : Thread nD τ) a5 fullShare xi4 ∗ owns (c : Thread nD τ) a6 fullShare (k2_pay4 x0 x1 s0) ∗ owns (c : Thread nD τ) a7 fullShare (k2_pay5 x0 x1 s1)) -∗ K ⟨⟩))
      ⊢ wp frame (wpE (defs₀ (F := F)) Variants.none c none) E (cc2__stats2_kernel i a1 h1 a2 h2 a3 h3 a4 h4 a5 h5 a6 h6 a7 h7) K := by
  simp only [cc2__stats2_kernel_eq_skeleton]; unfold cc2__stats2_kernel_skel
  unfold owns
  iintro ⟨⟨%f0, %hf0, H0⟩, ⟨%f1, %hf1, H1⟩, ⟨%d2, %f2, -, H2⟩, ⟨%f3, %hf3, H3⟩, ⟨%f4, %hf4, H4⟩, ⟨%fs0, %hfs0, HS0⟩, ⟨%fs1, %hfs1, HS1⟩, Hk⟩
  obtain rfl := h1.eq_unread hf0; obtain rfl := h2.eq_unread hf1
  obtain rfl := h6.eq_unread hfs0; obtain rfl := h7.eq_unread hfs1
  by_cases hc0 : cond2_0 i
  all_goals
    first | rw [if_pos hc0] at hs | rw [if_neg hc0] at hs
    obtain ⟨rfl, rfl⟩ := hs
    sl_exec (disch := first | exact hc0 | exact hc1)
    sl_step
    iapply Hk
    isplitl [H0]
    · iexists _; isplitr; · ipureintro; exact hf0
      iexact H0
    isplitl [H1]
    · iexists _; isplitr; · ipureintro; exact hf1
      iexact H1
    isplitl [H2]
    on_goal 1 => iexists _; isplitr; swap; iexact H2; ipureintro
    rotate_left
    isplitl [H3]
    · iexists _; isplitr; · ipureintro; exact hf3
      iexact H3
    isplitl [H4]
    · iexists _; isplitr; · ipureintro; exact hf4
      iexact H4
    isplitl [HS0]
    on_goal 1 => iexists _; isplitr; swap; iexact HS0; ipureintro
    rotate_left
    iexists _; isplitr; swap; iexact HS1; ipureintro
    all_goals
      refine read_pieces _ _ _ (by sl_kernel_rfl) ?_
      try sl_unfold_words
      first | rw [View.canon_unit_zero hz2] | rw [View.canon_cons_unit_zero (S := S1x256) hz2]
      simp only [View.readAt_eq_ld, h1.read_unread, h2.read_unread, h6.read_unread, h7.read_unread, View.ld_unit_zero (S := S2000x256) hz2, View.ld_unit_zero (S := S1x256) hz2, View.readCov_unit_zero (S := S1x256) _ hz2]

/-- The last point: as a middle point, and then the two accumulators copied into the statistics windows. -/
theorem run2_C (hc0 : ¬cond2_0 i) (hc1 : cond2_1 i) (xs0 xs1 : Vec F S1x256 .f32) (E : Set ℕ) (K : PUnit → sProp 𝕄) :
    iprop(owns (c : Thread nD τ) a1 fullShare x0 ∗ owns (c : Thread nD τ) a2 fullShare x1 ∗ (∃ d, owns (c : Thread nD τ) a3 fullShare d) ∗ (∃ d, owns (c : Thread nD τ) a4 fullShare d) ∗ (∃ d, owns (c : Thread nD τ) a5 fullShare d) ∗ owns (c : Thread nD τ) a6 fullShare xs0 ∗ owns (c : Thread nD τ) a7 fullShare xs1
        ∗ (iprop(owns (c : Thread nD τ) a1 fullShare x0 ∗ owns (c : Thread nD τ) a2 fullShare x1 ∗ owns (c : Thread nD τ) a3 fullShare (k2_pay3 x0 x1) ∗ owns (c : Thread nD τ) a4 fullShare (k2_pay4 x0 x1 xs0) ∗ owns (c : Thread nD τ) a5 fullShare (k2_pay5 x0 x1 xs1) ∗ owns (c : Thread nD τ) a6 fullShare (k2_pay4 x0 x1 xs0) ∗ owns (c : Thread nD τ) a7 fullShare (k2_pay5 x0 x1 xs1)) -∗ K ⟨⟩))
      ⊢ wp frame (wpE (defs₀ (F := F)) Variants.none c none) E (cc2__stats2_kernel i a1 h1 a2 h2 a3 h3 a4 h4 a5 h5 a6 h6 a7 h7) K := by
  simp only [cc2__stats2_kernel_eq_skeleton]; unfold cc2__stats2_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
  obtain rfl := h1.eq_unread hf0; obtain rfl := h2.eq_unread hf1
  obtain rfl := h6.eq_unread hfs0; obtain rfl := h7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  on_goal 1 => iexists _; isplitr; swap; iexact H2; ipureintro
  rotate_left
  isplitl [H3]
  on_goal 1 => iexists _; isplitr; swap; iexact H3; ipureintro
  rotate_left
  isplitl [H4]
  on_goal 1 => iexists _; isplitr; swap; iexact H4; ipureintro
  rotate_left
  isplitl [HS0]
  on_goal 1 => iexists _; isplitr; swap; iexact HS0; ipureintro
  rotate_left
  iexists _; isplitr; swap; iexact HS1; ipureintro
  all_goals
    refine read_pieces _ _ _ (by sl_kernel_rfl) ?_
    try sl_unfold_words
    first | rw [View.canon_unit_zero hz2] | rw [View.canon_cons_unit_zero (S := S1x256) hz2]
    simp only [View.readAt_eq_ld, h1.read_unread, h2.read_unread, h6.read_unread, h7.read_unread, View.ld_unit_zero (S := S2000x256) hz2, View.ld_unit_zero (S := S1x256) hz2, View.readCov_unit_zero (S := S1x256) _ hz2]

end Body

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulators after `n` points: the zero rows, then each point's column statistics added. -/
def acc2 (c : Dev nD) : ℕ → Vec F S1x256 .f32 × Vec F S1x256 .f32
  | 0 => (k2_pay1, k2_pay2)
  | n + 1 => if h : n < cfg2.N then
      (k2_pay4 (iblk2 V c 0 ⟨n, h⟩) (iblk2 V c 1 ⟨n, h⟩) (acc2 c n).1, k2_pay5 (iblk2 V c 0 ⟨n, h⟩) (iblk2 V c 1 ⟨n, h⟩) (acc2 c n).2)
    else acc2 c n

theorem acc2_succ (c : Dev nD) (t : Fin cfg2.N) : acc2 V c (t.val + 1)
    = (k2_pay4 (iblk2 V c 0 t) (iblk2 V c 1 t) (acc2 V c t.val).1, k2_pay5 (iblk2 V c 0 t) (iblk2 V c 1 t) (acc2 V c t.val).2) :=
  dif_pos t.isLt

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (iblk2 V c 0 t) (iblk2 V c 1 t)
    | ⟨3, _⟩ => (acc2 V c (t.val + 1)).1
    | ⟨4, _⟩ => (acc2 V c (t.val + 1)).2
  Φ t := if t.val = 0 then Pipeline.ΦA spec2 c else
    Phi2 c iprop(owns (c : Thread nD τ) scM2_0 fullShare (acc2 V c t.val).1 ∗ owns (c : Thread nD τ) scM2_1 fullShare (acc2 V c t.val).2)
  q _ := fullShare
  owed _ := 0

theorem A_eq2 (c : Dev nD) (w : Fin cfg2.W) : (dat2 V c).A w = V c (Pipeline.arrRef spec2 w) := rfl

theorem q_eq2 (c : Dev nD) (w : Fin cfg2.W) : (dat2 V c).q w = fullShare := rfl

theorem owed_eq2 (c : Dev nD) (t : Fin (cfg2.N + 1)) : (dat2 V c).owed t = 0 := rfl

theorem Phi2_zero (c : Dev nD) (t : Fin (cfg2.N + 1)) (h : t.val = 0) : (dat2 V c).Φ t = Pipeline.ΦA spec2 c := if_pos h

theorem Phi2_pos (c : Dev nD) (t : Fin (cfg2.N + 1)) (h : t.val ≠ 0) : (dat2 V c).Φ t
    = Phi2 c iprop(owns (c : Thread nD τ) scM2_0 fullShare (acc2 V c t.val).1 ∗ owns (c : Thread nD τ) scM2_1 fullShare (acc2 V c t.val).2) :=
  if_neg h

theorem after2 (c : Dev nD) (t : Fin cfg2.N) : (dat2 V c).after 0 t = iblk2 V c 0 t ∧ (dat2 V c).after 1 t = iblk2 V c 1 t
    ∧ (dat2 V c).after 2 t = k2_pay3 (iblk2 V c 0 t) (iblk2 V c 1 t)
    ∧ (dat2 V c).after 3 t = (acc2 V c (t.val + 1)).1 ∧ (dat2 V c).after 4 t = (acc2 V c (t.val + 1)).2 :=
  ⟨rfl, rfl, rfl, rfl, rfl⟩

theorem before2 (c : Dev nD) (t : Fin cfg2.N) :
    (∀ d, (dat2 V c).before 0 t d = iblk2 V c 0 t) ∧ ∀ d, (dat2 V c).before 1 t d = iblk2 V c 1 t :=
  ⟨fun d => ((dat2 V c).before_fetched 0 t (fetch2_0 t) d).trans rfl, fun d => ((dat2 V c).before_fetched 1 t (fetch2_1 t) d).trans rfl⟩

theorem leaves_live {c : Dev nD} (dat : Dat τ (Elt F) Unit ℕ (UR sig nD τ) ℕ cfg2 c) (w : Fin cfg2.W) (t : Fin cfg2.N)
    (h : cfg2.idle w (cfg2.grid.coords t) = false) :
    dat.leavesExact w t = owns (c : Thread nD τ) ((cfg2.win w).stage (cfg2.slots t w)) fullShare (dat.after w t) := by
  unfold Dat.leavesExact; rw [h]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨e0, e1, e2, e3, e4⟩ := after2 V c t
  obtain ⟨l0, l1, l2⟩ := live2 t
  have hN : t.val < 25 := lt_of_lt_of_eq t.isLt (show cfg2.N = 25 from N_2)
  simp only [(before2 V c t).1, (before2 V c t).2]
  rw [show (dat2 V c).owesAt () t.succ = (dat2 V c).owesAt () t.castSucc from rfl,
    leaves_live _ 0 t l0, leaves_live _ 1 t l1, leaves_live _ 2 t l2, e0, e1, e2,
    Phi2_pos V c t.succ (Nat.succ_ne_zero _), show t.succ.val = t.val + 1 from rfl, acc2_succ]
  by_cases hl : t.val = 24
  on_goal 1 =>
    obtain ⟨l3, l4⟩ := (stat2 t).1 hl
    have hz : t.val ≠ 0 := by omega
    rw [leaves_live _ 3 t l3, leaves_live _ 4 t l4, e3, e4, acc2_succ, Phi2_pos V c t.castSucc hz]
  on_goal 2 =>
    obtain ⟨⟨i3, f3⟩, i4, f4⟩ := (stat2 t).2 hl
    rw [Dat.leavesExact_idle _ 3 t i3 f3, Dat.leavesExact_idle _ 4 t i4 f4]
    by_cases hz : t.val = 0
    on_goal 1 =>
      rw [Phi2_zero V c t.castSucc hz, PhiA2_eq,
        show acc2 V c t.val = (k2_pay1, k2_pay2) from by rw [hz]; rfl]
    on_goal 2 => rw [Phi2_pos V c t.castSucc hz]
  on_goal 2 => iintro ⟨⟨⟨⟨⟨%xs0, HS0⟩, %xs1, HS1⟩, Hrest⟩, Hg⟩, Ho, ⟨%d0, H0⟩, ⟨%d1, H1⟩, ⟨%d2, H2⟩, ⟨%d3, H3⟩, ⟨%d4, H4⟩⟩
  on_goal 1 => iintro ⟨⟨⟨⟨HS0, HS1⟩, Hrest⟩, Hg⟩, Ho, ⟨%d0, H0⟩, ⟨%d1, H1⟩, ⟨%d2, H2⟩, ⟨%d3, H3⟩, ⟨%d4, H4⟩⟩
  on_goal 3 => iintro ⟨⟨⟨⟨HS0, HS1⟩, Hrest⟩, Hg⟩, Ho, ⟨%d0, H0⟩, ⟨%d1, H1⟩, ⟨%d2, H2⟩, ⟨%d3, H3⟩, ⟨%d4, H4⟩⟩
  on_goal 1 => iapply (run2_C c (grid2.coords t) (hs2_0 t) (hs2_1 t) (hs2_2 t) (hs2_3 t) (hs2_4 t) (Memref.isWhole_whole _) (Memref.isWhole_whole _)
    (iblk2 V c 0 t) (iblk2 V c 1 t) (fun h => hz ((hcond2_0 t).mp h)) ((hcond2_1 t).mpr hl) (acc2 V c t.val).1 (acc2 V c t.val).2 Set.univ _)
  on_goal 2 => iapply (run2_AB c (grid2.coords t) (hs2_0 t) (hs2_1 t) (hs2_2 t) (hs2_3 t) (hs2_4 t) (Memref.isWhole_whole _) (Memref.isWhole_whole _)
    (iblk2 V c 0 t) (iblk2 V c 1 t) (fun h => hl ((hcond2_1 t).mp h)) xs0 xs1 k2_pay1 k2_pay2 ((dat2 V c).before 3 t d3) ((dat2 V c).before 4 t d4)
    (by rw [if_pos ((hcond2_0 t).mpr hz)]; exact ⟨rfl, rfl⟩) Set.univ _)
  on_goal 3 => iapply (run2_AB c (grid2.coords t) (hs2_0 t) (hs2_1 t) (hs2_2 t) (hs2_3 t) (hs2_4 t) (Memref.isWhole_whole _) (Memref.isWhole_whole _)
    (iblk2 V c 0 t) (iblk2 V c 1 t) (fun h => hl ((hcond2_1 t).mp h)) _ _ (acc2 V c t.val).1 (acc2 V c t.val).2 ((dat2 V c).before 3 t d3) ((dat2 V c).before 4 t d4)
    (by rw [if_neg fun h => hz ((hcond2_0 t).mp h)]; exact ⟨rfl, rfl⟩) Set.univ _)
  all_goals
    isplitl [H0]; · iexact H0
    isplitl [H1]; · iexact H1
    isplitl [H2]; · iexists _; iexact H2
    isplitl [H3]; · first | iexact H3 | (iexists _; iexact H3)
    isplitl [H4]; · first | iexact H4 | (iexists _; iexact H4)
    isplitl [HS0]; · iexact HS0
    isplitl [HS1]; · iexact HS1
    iintro ⟨H0, H1, H2, H3, H4, HS0, HS1⟩
    isplitl [HS0 HS1 Hrest Hg]
    · isplitl [HS0 HS1 Hrest]
      · isplitl [HS0 HS1]
        · isplitl [HS0]
          · iexact HS0
          · iexact HS1
        · iexact Hrest
      · iexact Hg
    isplitl [Ho]; · iexact Ho
    isplitl [H0]; · iexact H0
    isplitl [H1]; · iexact H1
    isplitl [H2]; · iexact H2
    isplitl [H3]; · first | iexact H3 | (iexists _; iexact H3)
    first | iexact H4 | (iexists _; iexact H4)

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [Phi2_zero V c 0 rfl]
  try exact Idealize.SL.BI.Entails.refl _

theorem hout2 (c : Dev nD) : (dat2 V c).Φ (Fin.last cfg2.N) ⊢ (Pipeline.ΦA spec2 c : sProp 𝕄) := by
  rw [Phi2_pos V c _ (by rw [Fin.val_last]; have : cfg2.N = 25 := N_2; omega), PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.Kernel.Hand

end
-- ==== Proof.K.R3.lean ====
import proofs.«413128_j44495861187321_1_alg».proof.Proof.Gen.Kernel.Launch
import proofs.«413128_j44495861187321_1_alg».proof.Proof.Gen.Kernel.Skeleton
import proofs.«413128_j44495861187321_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_big : Rect S2000x256 := Rect.unit (s := S2000x256) ![0, 0] S2000x256.size inb_S2000x256_S2000x256_0_0
abbrev r3_row : Rect S1x256 := Rect.unit (s := S1x256) ![0, 0] S1x256.size inb_S1x256_S1x256_0_0

def out3_6 (x0 x1 : Vec F S2000x256 .f32) (x2 x3 x4 x5 : Vec F S1x256 .f32) : Vec F S2000x256 .f32 :=
  View.canon [⟨r3_big, k3_pay1 (View.ld x1 r3_big) (View.ld x3 r3_row) (View.ld x4 r3_row) (View.ld x2 r3_row) (View.ld x5 r3_row) (View.ld x0 r3_big)⟩]

theorem sound_kernel3 (E : Set ℕ) (i : grid3.Coords) {a0 a1 a6 : Memref sig .tc .vmem S2000x256 .f32} {a2 a3 a4 a5 : Memref sig .tc .vmem S1x256 .f32}
    (h0 : a0.IsWhole) (h1 : a1.IsWhole) (h2 : a2.IsWhole) (h3 : a3.IsWhole) (h4 : a4.IsWhole) (h5 : a5.IsWhole) (h6 : a6.IsWhole)
    (x0 x1 : Vec F S2000x256 .f32) (x2 x3 x4 x5 : Vec F S1x256 .f32) (K : PUnit → sProp 𝕄) :
    iprop(owns c a0 fullShare x0 ∗ owns c a1 fullShare x1 ∗ owns c a2 fullShare x2 ∗ owns c a3 fullShare x3 ∗ owns c a4 fullShare x4 ∗ owns c a5 fullShare x5
        ∗ (∃ d, owns c a6 fullShare d)
        ∗ (iprop(owns c a0 fullShare x0 ∗ owns c a1 fullShare x1 ∗ owns c a2 fullShare x2 ∗ owns c a3 fullShare x3 ∗ owns c a4 fullShare x4 ∗ owns c a5 fullShare x5
            ∗ owns c a6 fullShare (out3_6 x0 x1 x2 x3 x4 x5)) -∗ K ⟨⟩))
      ⊢ wp frame (wpE (defs₀ (F := F)) Variants.none c none) E (cc3__bn_silu_residual_kernel i a0 h0 a1 h1 a2 h2 a3 h3 a4 h4 a5 h5 a6 h6) K := by
  simp only [cc3__bn_silu_residual_kernel_eq_skeleton]; unfold cc3__bn_silu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  iexists _; isplitr; swap; · iexact H6
  ipureintro; exact View.read_writes_eq_canon _ _ _ (View.cover_of_tiled _ S2000x256.size (by rfl))

def dat3 : Dat τ (Elt F) Unit ℕ (UR sig nD τ) ℕ cfg3 c where
  A w := V c (Pipeline.arrRef spec3 w)
  after w t := match w with
    | ⟨6, _⟩ => out3_6 (iblk3 V c 0 t) (iblk3 V c 1 t) (iblk3 V c 2 t) (iblk3 V c 3 t) (iblk3 V c 4 t) (iblk3 V c 5 t)
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
  Φ _ := Pipeline.ΦA spec3 c
  q _ := fullShare
  owed _ := 0

theorem A_eq3 (w : Fin cfg3.W) : (dat3 V c).A w = V c (Pipeline.arrRef spec3 w) := rfl

theorem q_eq3 (w : Fin cfg3.W) : (dat3 V c).q w = fullShare := rfl

theorem owed_eq3 (t : Fin (cfg3.N + 1)) : (dat3 V c).owed t = 0 := rfl

theorem after3_6 (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3 (t : Fin cfg3.N) :
    (∀ d, (dat3 V c).before 0 t d = iblk3 V c 0 t) ∧ (∀ d, (dat3 V c).before 1 t d = iblk3 V c 1 t) ∧ (∀ d, (dat3 V c).before 2 t d = iblk3 V c 2 t)
    ∧ (∀ d, (dat3 V c).before 3 t d = iblk3 V c 3 t) ∧ (∀ d, (dat3 V c).before 4 t d = iblk3 V c 4 t) ∧ (∀ d, (dat3 V c).before 5 t d = iblk3 V c 5 t) := by
  refine ⟨?_, ?_, ?_, ?_, ?_, ?_⟩ <;> exact (dat3 V c).before_in_eq_fetched _ rfl (fun _ => rfl) (fun _ _ _ => rfl) (fun _ => rfl) t

theorem body_obligation3 : BodyObligation (dat3 (F := F) V c) (defs₀ (F := F)) Variants.none () Set.univ := fun t => by
  rw [bigSep_W3, bigSep_W3]
  show iprop(_ ∗ _ ∗ _) ⊢ wp frame _ _ (bodyAt3 t) _
  dsimp only
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _)
  iframe H0 H1 H2 H3 H4 H5
  isplitl [H6]; · iexists _; iexact H6
  iintro ⟨H0, H1, H2, H3, H4, H5, H6⟩
  obtain ⟨b0, b1, b2, b3, b4, b5⟩ := before3 V c t
  rw [b0, b1, b2, b3, b4, b5, show (dat3 V c).owesAt () t.succ = (dat3 V c).owesAt () t.castSucc from rfl]
  simp only [dat3]
  iframe

theorem hin3 : (Pipeline.ΦA spec3 c : sProp 𝕄) ⊢ (dat3 V c).Φ 0 := BIBase.Entails.rfl

theorem hout3 : (dat3 V c).Φ (Fin.last cfg3.N) ⊢ (Pipeline.ΦA spec3 c : sProp 𝕄) := BIBase.Entails.rfl

end Cert.Kernel.Hand

end
-- ==== Proof.K.R4.lean ====
import proofs.«413128_j44495861187321_1_alg».proof.Proof.Gen.Kernel.Launch
import proofs.«413128_j44495861187321_1_alg».proof.Proof.Gen.Kernel.Skeleton
import proofs.«413128_j44495861187321_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1
theorem hcond4_1 : ∀ t : Fin cfg4.N, cond4_1 (grid4.coords t) ↔ t.val = 159 :=
  (by decide +kernel : ∀ t : Fin grid4.N, cond4_1 (grid4.coords t) ↔ t.val = 159)

theorem liveAt4 : ∀ (w : Fin cfg4.W) (t : Fin cfg4.N), w.val < 4 ∨ cond4_1 (grid4.coords t) → cfg4.idle w (grid4.coords t) = false := by decide +kernel
theorem idleAt4 : ∀ (w : Fin cfg4.W) (t : Fin cfg4.N), 4 ≤ w.val → ¬cond4_1 (grid4.coords t) →
    cfg4.idle w (grid4.coords t) = true ∧ (cfg4.win w).flush t = false := by decide +kernel

abbrev scM4_0 : Memref sig .tc .vmem S1x256 .f32 := Memref.whole cc4_scratch0
abbrev scM4_1 : Memref sig .tc .vmem S1x256 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

theorem hz4 : (![0, 0] : Fin 2 → Nat) = fun _ => 0 := funext fun a => by fin_cases a <;> rfl

abbrev rB4 : Rect S2000x256 := Rect.unit (s := S2000x256) ![0, 0] S2000x256.size inb_S2000x256_S2000x256_0_0
abbrev rS4 : Rect S1x256 := Rect.unit (s := S1x256) ![0, 0] S1x256.size inb_S1x256_S1x256_0_0

theorem owns_unread {S : Shape} {e : EltTy} {m : Memref sig .tc .vmem S e} (h : m.IsWhole) (c : Dev nD) (x : S.Idx → Elt F e) :
    (owns (c : Thread nD τ) m fullShare x : sProp 𝕄) = (m.view.loc (c : Thread nD τ) ↦[m.view.set]{fullShare} h.unread x) := by
  have h₁ : (owns (c : Thread nD τ) m fullShare x : sProp 𝕄) ⊢ (m.view.loc (c : Thread nD τ) ↦[m.view.set]{fullShare} h.unread x) := by
    unfold owns; iintro ⟨%f, %hf, H⟩; obtain rfl := h.eq_unread hf; iexact H
  have h₂ : (m.view.loc (c : Thread nD τ) ↦[m.view.set]{fullShare} h.unread x : sProp 𝕄) ⊢ owns (c : Thread nD τ) m fullShare x := by
    unfold owns; iintro H; iexists _; isplitr; · ipureintro; exact h.read_unread x
    iexact H
  exact BI.equiv_iff.mp ⟨h₁, h₂⟩

def wrote (c : Dev nD) {S : Shape} {e : EltTy} (m : Memref sig .tc .vmem S e) (L : List (View.Piece (Elt F) S e)) : sProp 𝕄 :=
  iprop(∃ f, m.view.loc (c : Thread nD τ) ↦[m.view.set]{fullShare} m.view.writes (Elt F) f L)

-- The piece stored last covers the whole shape, so the contents read back are its payload.
theorem owns_of_wrote (c : Dev nD) {S : Shape} {e : EltTy} (m : Memref sig .tc .vmem S e) {off : Fin S.rank → Nat} (h : off = fun _ => 0)
    (inb : ∀ a, off a + S.size a ≤ S.size a) (w : S.Idx → Elt F e) (L : List (View.Piece (Elt F) S e)) :
    wrote c m (⟨Rect.unit off S.size inb, w⟩ :: L) ⊢ owns (c : Thread nD τ) m fullShare w := by
  unfold wrote owns
  iintro ⟨%f, H⟩
  iexists _; isplitr
  swap; · iexact H
  ipureintro
  rw [View.read_writes_eq_canon _ _ _ (fun y => ⟨_, List.mem_cons_self, View.mem_set_unit_zero h inb y⟩), View.canon_cons_unit_zero h inb]

section Body

variable (c : Dev nD) (i : grid4.Coords)
  (arg1 : Memref sig .tc .vmem S2000x256 .f32) (harg1 : arg1.IsWhole) (arg2 : Memref sig .tc .vmem S2000x256 .f32) (harg2 : arg2.IsWhole)
  (arg3 : Memref sig .tc .vmem S2000x256 .f32) (harg3 : arg3.IsWhole) (arg4 : Memref sig .tc .vmem S2000x256 .f32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S1x256 .f32) (harg7 : arg7.IsWhole) (arg8 : Memref sig .tc .vmem S1x256 .f32) (harg8 : arg8.IsWhole)
  (x0 x1 x2 d3 : Vec F S2000x256 .f32) (xs0 xs1 d4 d5 : Vec F S1x256 .f32)

-- The three inputs at their blocks; the sum buffer and the two accumulators at given contents.
def held4 (y3 : Vec F S2000x256 .f32) (y0 y1 : Vec F S1x256 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare y3 ∗ owns (c : Thread nD τ) arg7 fullShare y0 ∗ owns (c : Thread nD τ) arg8 fullShare y1)

-- The same with the last three after the listed stores.
def ran4 (L3 : List (View.Piece (Elt F) S2000x256 .f32)) (LS0 LS1 : List (View.Piece (Elt F) S1x256 .f32)) : sProp 𝕄 :=
  iprop(owns (c : Thread nD τ) arg1 fullShare x0 ∗ owns (c : Thread nD τ) arg2 fullShare x1 ∗ owns (c : Thread nD τ) arg3 fullShare x2
    ∗ wrote c arg4 L3 ∗ wrote c arg7 LS0 ∗ wrote c arg8 LS1)

set_option maxHeartbeats 4000000 in
noncomputable def kernelRun4 (b0 b1 : Bool) (hc0 : decide (cond4_0 i) = b0) (hc1 : decide (cond4_1 i) = b1) (hb : (b0 && b1) = false) :
    { L : (List (View.Piece (Elt F) S2000x256 .f32) × List (View.Piece (Elt F) S1x256 .f32) × List (View.Piece (Elt F) S1x256 .f32)) × List (View.Piece (Elt F) S1x256 .f32) × List (View.Piece (Elt F) S1x256 .f32) // ∀ (E : Set ℕ) (K : PUnit → sProp 𝕄),
      iprop(held4 c arg1 arg2 arg3 arg4 arg7 arg8 x0 x1 x2 d3 xs0 xs1 ∗ owns (c : Thread nD τ) arg5 fullShare d4 ∗ owns (c : Thread nD τ) arg6 fullShare d5
        ∗ (ran4 c arg1 arg2 arg3 arg4 arg7 arg8 x0 x1 x2 L.1.1 L.1.2.1 L.1.2.2 ∗ (match b1 with
            | true => iprop(wrote c arg5 L.2.1 ∗ wrote c arg6 L.2.2)
            | false => iprop(owns (c : Thread nD τ) arg5 fullShare d4 ∗ owns (c : Thread nD τ) arg6 fullShare d5)) -∗ K ⟨⟩)) ⊢ wp frame (wpE (defs₀ (F := F)) Variants.none c none) E (cc4__stats3_kernel i arg1 harg1 arg2 harg2 arg3 harg3 arg4 harg4 arg5 harg5 arg6 harg6 arg7 harg7 arg8 harg8) K } := by
  cases b0 <;> cases b1 <;> first | exact absurd hb (by decide) | skip
  all_goals
    refine ⟨((?_, ?_, ?_), ?_, ?_), fun E K => ?run⟩
    case run =>
      unfold held4 ran4 wrote; dsimp only
      rw [owns_unread harg1, owns_unread harg2, owns_unread harg3, owns_unread harg4, owns_unread harg7, owns_unread harg8, owns_unread harg5, owns_unread harg6]
      simp only [cc4__stats3_kernel_eq_skeleton]; unfold cc4__stats3_kernel_skel
      iintro ⟨⟨H0, H1, H2, H3, HS0, HS1⟩, H4, H5, Hk⟩
      first | have h0 := of_decide_eq_true hc0 | have h0 := of_decide_eq_false hc0
      first | have h1 := of_decide_eq_true hc1 | have h1 := of_decide_eq_false hc1
      sl_exec (disch := first | exact h0 | exact h1)
      sl_step
      iapply Hk
      isplitl [H0 H1 H2 H3 HS0 HS1]
      · iframe H0 H1 H2
        isplitl [H3]; · iexists _; iexact H3
        isplitl [HS0]; · iexists _; iexact HS0
        iexists _; iexact HS1
      first
        | iframe H4 H5
        | (isplitl [H4]; · iexists _; iexact H4
           iexists _; iexact H5)
  all_goals exact []

theorem run4_eq (b0 b1 : Bool) (hc0 : decide (cond4_0 i) = b0) (hc1 : decide (cond4_1 i) = b1) (hb : (b0 && b1) = false) :
    (kernelRun4 c i arg1 harg1 arg2 harg2 arg3 harg3 arg4 harg4 arg5 harg5 arg6 harg6 arg7 harg7 arg8 harg8 x0 x1 x2 d3 xs0 xs1 d4 d5 b0 b1 hc0 hc1 hb).1 = (([⟨rB4, k4_pay3 x0 x1 x2⟩],
      (match b0 with | true => [⟨rS4, k4_pay4 x0 x1 x2 k4_pay1⟩, ⟨rS4, k4_pay1⟩] | false => [⟨rS4, k4_pay4 x0 x1 x2 xs0⟩]),
      (match b0 with | true => [⟨rS4, k4_pay5 x0 x1 x2 k4_pay2⟩, ⟨rS4, k4_pay2⟩] | false => [⟨rS4, k4_pay5 x0 x1 x2 xs1⟩])),
      (match b1 with | true => [⟨rS4, k4_pay4 x0 x1 x2 xs0⟩] | false => []), (match b1 with | true => [⟨rS4, k4_pay5 x0 x1 x2 xs1⟩] | false => [])) := by
  cases b0 <;> cases b1 <;> first | exact absurd hb (by decide) | skip
  all_goals (unfold kernelRun4; dsimp only; try sl_unfold_words)
  all_goals simp only [View.readAt_eq_ld, harg1.read_unread, harg2.read_unread, harg3.read_unread, harg7.read_unread, harg8.read_unread, View.ld_unit_zero (S := S2000x256) hz4, View.ld_unit_zero (S := S1x256) hz4, View.readCov_unit_zero (S := S1x256) _ hz4]

-- What each case leaves, named: the block sum, each accumulator at its column statistic, and at the last point the statistics buffers at the same.
theorem sound_kernel4 (b0 b1 : Bool) (hc0 : decide (cond4_0 i) = b0) (hc1 : decide (cond4_1 i) = b1) (hb : (b0 && b1) = false) (E : Set ℕ) (K : PUnit → sProp 𝕄) :
    iprop(held4 c arg1 arg2 arg3 arg4 arg7 arg8 x0 x1 x2 d3 xs0 xs1 ∗ owns (c : Thread nD τ) arg5 fullShare d4 ∗ owns (c : Thread nD τ) arg6 fullShare d5
      ∗ (held4 c arg1 arg2 arg3 arg4 arg7 arg8 x0 x1 x2 (k4_pay3 x0 x1 x2) (k4_pay4 x0 x1 x2 (bif b0 then k4_pay1 else xs0)) (k4_pay5 x0 x1 x2 (bif b0 then k4_pay2 else xs1)) ∗ (match b1 with
          | true => iprop(owns (c : Thread nD τ) arg5 fullShare (k4_pay4 x0 x1 x2 xs0) ∗ owns (c : Thread nD τ) arg6 fullShare (k4_pay5 x0 x1 x2 xs1))
          | false => iprop(owns (c : Thread nD τ) arg5 fullShare d4 ∗ owns (c : Thread nD τ) arg6 fullShare d5)) -∗ K ⟨⟩)) ⊢ wp frame (wpE (defs₀ (F := F)) Variants.none c none) E (cc4__stats3_kernel i arg1 harg1 arg2 harg2 arg3 harg3 arg4 harg4 arg5 harg5 arg6 harg6 arg7 harg7 arg8 harg8) K := by
  have R := (kernelRun4 c i arg1 harg1 arg2 harg2 arg3 harg3 arg4 harg4 arg5 harg5 arg6 harg6 arg7 harg7 arg8 harg8 x0 x1 x2 d3 xs0 xs1 d4 d5 b0 b1 hc0 hc1 hb).2 E K
  rw [run4_eq] at R
  iintro ⟨H, H4, H5, Hk⟩
  iapply R
  iframe H H4 H5
  unfold ran4 held4
  iintro ⟨⟨H0, H1, H2, H3, HS0, HS1⟩, H45⟩
  iapply Hk
  iframe H0 H1 H2
  cases b0 <;> cases b1 <;> first | exact absurd hb (by decide) | skip
  all_goals
    isplitl [H3 HS0 HS1]
    · isplitl [H3]; · iapply owns_of_wrote c arg4 hz4; iexact H3
      isplitl [HS0]; · iapply owns_of_wrote c arg7 hz4; iexact HS0
      iapply owns_of_wrote c arg8 hz4; iexact HS1
    first
      | iexact H45
      | (icases H45 with ⟨H4, H5⟩
         isplitl [H4]; · iapply owns_of_wrote c arg5 hz4; iexact H4
         iapply owns_of_wrote c arg6 hz4; iexact H5)

end Body

def accAt4 (c : Dev nD) : (n : ℕ) → n < cfg4.N → Vec F S1x256 .f32 × Vec F S1x256 .f32
  | 0, hn => (k4_pay4 (iblk4 V c 0 ⟨0, hn⟩ : Vec F S2000x256 .f32) (iblk4 V c 1 ⟨0, hn⟩ : Vec F S2000x256 .f32) (iblk4 V c 2 ⟨0, hn⟩ : Vec F S2000x256 .f32) k4_pay1,
      k4_pay5 (iblk4 V c 0 ⟨0, hn⟩ : Vec F S2000x256 .f32) (iblk4 V c 1 ⟨0, hn⟩ : Vec F S2000x256 .f32) (iblk4 V c 2 ⟨0, hn⟩ : Vec F S2000x256 .f32) k4_pay2)
  | n + 1, hn => (k4_pay4 (iblk4 V c 0 ⟨n + 1, hn⟩ : Vec F S2000x256 .f32) (iblk4 V c 1 ⟨n + 1, hn⟩ : Vec F S2000x256 .f32) (iblk4 V c 2 ⟨n + 1, hn⟩ : Vec F S2000x256 .f32) (accAt4 c n (Nat.lt_of_succ_lt hn)).1,
      k4_pay5 (iblk4 V c 0 ⟨n + 1, hn⟩ : Vec F S2000x256 .f32) (iblk4 V c 1 ⟨n + 1, hn⟩ : Vec F S2000x256 .f32) (iblk4 V c 2 ⟨n + 1, hn⟩ : Vec F S2000x256 .f32) (accAt4 c n (Nat.lt_of_succ_lt hn)).2)

def PhiS4 (c : Dev nD) : (n : ℕ) → n ≤ cfg4.N → sProp 𝕄
  | 0, _ => Pipeline.ΦA spec4 c
  | n + 1, hn => iprop(iprop(iprop(owns (c : Thread nD τ) scM4_0 fullShare (accAt4 V c n hn).1 ∗ owns (c : Thread nD τ) scM4_1 fullShare (accAt4 V c n hn).2) ∗ Pipeline.scopedRestBut (Ix := Unit) (Name := ℕ) (U := UR sig nD τ) (Lvl := ℕ) (Val := Elt F) spec4 c [cc4_scratch0, cc4_scratch1]) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (iblk4 V c 0 t : Vec F S2000x256 .f32) (iblk4 V c 1 t : Vec F S2000x256 .f32) (iblk4 V c 2 t : Vec F S2000x256 .f32)
    | ⟨4, _⟩ => (accAt4 V c t.val t.isLt).1
    | ⟨5, _⟩ => (accAt4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem q_eq4 (c : Dev nD) (w : Fin cfg4.W) : (dat4 V c).q w = fullShare := rfl

theorem owed_eq4 (c : Dev nD) (t : Fin (cfg4.N + 1)) : (dat4 V c).owed t = 0 := rfl

theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = iblk4 V c 2 t := rfl
theorem after4_3 (c : Dev nD) (t : Fin cfg4.N) : (dat4 V c).after 3 t = k4_pay3 (iblk4 V c 0 t : Vec F S2000x256 .f32) (iblk4 V c 1 t : Vec F S2000x256 .f32) (iblk4 V c 2 t : Vec F S2000x256 .f32) := rfl
theorem after4_4 (c : Dev nD) (t : Fin cfg4.N) : (dat4 V c).after 4 t = (accAt4 V c t.val t.isLt).1 := rfl
theorem after4_5 (c : Dev nD) (t : Fin cfg4.N) : (dat4 V c).after 5 t = (accAt4 V c t.val t.isLt).2 := rfl

theorem before4 (c : Dev nD) (t : Fin cfg4.N) : (∀ d, (dat4 V c).before 0 t d = iblk4 V c 0 t) ∧ (∀ d, (dat4 V c).before 1 t d = iblk4 V c 1 t)
    ∧ ∀ d, (dat4 V c).before 2 t d = iblk4 V c 2 t := by
  refine ⟨fun d => ?_, fun d => ?_, fun d => ?_⟩ <;>
    exact ((dat4 V c).before_in_eq_fetched _ rfl (fun _ => rfl) (fun _ _ _ => rfl) (fun _ => rfl) t d).trans rfl

theorem leaves4 (c : Dev nD) (w : Fin cfg4.W) (t : Fin cfg4.N) (h : cfg4.idle w (grid4.coords t) = false) :
    (dat4 V c).leavesExact w t = owns (c : Thread nD τ) ((cfg4.win w).stage (cfg4.slots t w)) fullShare ((dat4 V c).after w t) := by
  unfold Dat.leavesExact; rw [h]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t
    ∗ (dat4 V c).leavesExact 3 t ∗ (dat4 V c).leavesExact 4 t ∗ (dat4 V c).leavesExact 5 t)

set_option maxHeartbeats 4800000 in
-- The point's position picks the case; the invariant lends the accumulators and takes them back at this point's contents.
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [(before4 V c t).1, (before4 V c t).2.1, (before4 V c t).2.2]
  rw [show (dat4 V c).owesAt () t.succ = (dat4 V c).owesAt () t.castSucc from rfl,
    show (dat4 V c).Φ t.succ = PhiS4 V c (t.val + 1) t.isLt from rfl,
    show (dat4 V c).Φ t.castSucc = PhiS4 V c t.val (Nat.le_of_lt t.isLt) from rfl,
    leaves4 V c 0 t (liveAt4 0 t (.inl (by decide))), leaves4 V c 1 t (liveAt4 1 t (.inl (by decide))),
    leaves4 V c 2 t (liveAt4 2 t (.inl (by decide))), leaves4 V c 3 t (liveAt4 3 t (.inl (by decide))),
    after4_0, after4_1, after4_2, after4_3]
  obtain ⟨n, hn⟩ := t
  cases n with
  | zero =>
    have hc0 := (hcond4_0 ⟨0, hn⟩).mpr rfl
    have hc1 : ¬cond4_1 (grid4.coords ⟨0, hn⟩) := fun h => by have : (0 : ℕ) = 159 := (hcond4_1 ⟨0, hn⟩).mp h; omega
    rw [Dat.leavesExact_idle _ 4 _ (idleAt4 4 _ (by decide) hc1).1 (idleAt4 4 _ (by decide) hc1).2,
      Dat.leavesExact_idle _ 5 _ (idleAt4 5 _ (by decide) hc1).1 (idleAt4 5 _ (by decide) hc1).2]
    dsimp only [PhiS4, accAt4]
    rw [PhiA4_eq]
    iintro ⟨⟨⟨⟨⟨%s0, HS0⟩, ⟨%s1, HS1⟩⟩, HR⟩, Hg⟩, Ho, ⟨%d0, H0⟩, ⟨%d1, H1⟩, ⟨%d2, H2⟩, ⟨%d3, H3⟩, ⟨%d4, H4⟩, ⟨%d5, H5⟩⟩
    iapply (sound_kernel4 c (grid4.coords _) _ _ _ _ _ _ _ _ _ _ _ _ _ _ _ _ (iblk4 V c 0 _) (iblk4 V c 1 _) (iblk4 V c 2 _) _ _ _ _ _ true false (decide_eq_true hc0) (decide_eq_false hc1) rfl Set.univ _)
    unfold held4; simp only [cond_true]
    iframe H0 H1 H2 H3 HS0 HS1 H4 H5
    iintro ⟨⟨H0, H1, H2, H3, HS0, HS1⟩, H4, H5⟩
    iframe HS0 HS1 HR Hg Ho H0 H1 H2 H3
    isplitl [H4]; · iexists _; iexact H4
    iexists _; iexact H5
  | succ n =>
    have hc0 : ¬cond4_0 (grid4.coords ⟨n + 1, hn⟩) := fun h => by have : n + 1 = 0 := (hcond4_0 ⟨n + 1, hn⟩).mp h; omega
    dsimp only [PhiS4, accAt4]
    by_cases h1 : n + 1 = 159
    · have hc1 := (hcond4_1 ⟨n + 1, hn⟩).mpr h1
      rw [leaves4 V c 4 _ (liveAt4 4 _ (.inr hc1)), leaves4 V c 5 _ (liveAt4 5 _ (.inr hc1)), after4_4, after4_5]
      dsimp only [accAt4]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply (sound_kernel4 c (grid4.coords _) _ _ _ _ _ _ _ _ _ _ _ _ _ _ _ _ (iblk4 V c 0 _) (iblk4 V c 1 _) (iblk4 V c 2 _) _ _ _ _ _ false true (decide_eq_false hc0) (decide_eq_true hc1) rfl Set.univ _)
      unfold held4; simp only [cond_false]
      iframe H0 H1 H2 H3 HS0 HS1 H4 H5
      iintro ⟨⟨H0, H1, H2, H3, HS0, HS1⟩, H4, H5⟩
      iframe
    · have hc1 : ¬cond4_1 (grid4.coords ⟨n + 1, hn⟩) := fun h => h1 ((hcond4_1 ⟨n + 1, hn⟩).mp h)
      rw [Dat.leavesExact_idle _ 4 _ (idleAt4 4 _ (by decide) hc1).1 (idleAt4 4 _ (by decide) hc1).2,
      Dat.leavesExact_idle _ 5 _ (idleAt4 5 _ (by decide) hc1).1 (idleAt4 5 _ (by decide) hc1).2]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply (sound_kernel4 c (grid4.coords _) _ _ _ _ _ _ _ _ _ _ _ _ _ _ _ _ (iblk4 V c 0 _) (iblk4 V c 1 _) (iblk4 V c 2 _) _ _ _ _ _ false false (decide_eq_false hc0) (decide_eq_false hc1) rfl Set.univ _)
      unfold held4; simp only [cond_false]
      iframe H0 H1 H2 H3 HS0 HS1 H4 H5
      iintro ⟨⟨H0, H1, H2, H3, HS0, HS1⟩, H4, H5⟩
      iframe HS0 HS1 HR Hg Ho H0 H1 H2 H3
      isplitl [H4]; · iexists _; iexact H4
      iexists _; iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 :=
  Idealize.SL.BI.Entails.refl _

-- At any position the invariant entails its initial form: the accumulators' contents are forgotten.
theorem PhiS4_out (c : Dev nD) : ∀ n h, PhiS4 V c n h ⊢ (Pipeline.ΦA spec4 c : sProp 𝕄)
  | 0, _ => Idealize.SL.BI.Entails.refl _
  | n + 1, _ => by
    rw [PhiA4_eq]; dsimp only [PhiS4]
    iintro ⟨⟨⟨HS0, HS1⟩, HR⟩, Hg⟩
    iframe HR Hg
    isplitl [HS0]; · iexists _; iexact HS0
    iexists _; iexact HS1

theorem hout4 (c : Dev nD) : (dat4 V c).Φ (Fin.last cfg4.N) ⊢ (Pipeline.ΦA spec4 c : sProp 𝕄) :=
  PhiS4_out V c (Fin.last cfg4.N).val (Nat.le_of_lt_succ (Fin.last cfg4.N).isLt)

end Cert.Kernel.Hand

end
-- ==== Proof.K.R5.lean ====
import proofs.«413128_j44495861187321_1_alg».proof.Proof.Gen.Kernel.Launch
import proofs.«413128_j44495861187321_1_alg».proof.Proof.Gen.Kernel.Skeleton
import proofs.«413128_j44495861187321_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_big : Rect S2000x256 := Rect.unit (s := S2000x256) ![0, 0] S2000x256.size inb_S2000x256_S2000x256_0_0
abbrev r5_row : Rect S1x256 := Rect.unit (s := S1x256) ![0, 0] S1x256.size inb_S1x256_S1x256_0_0

def out5_6 (x0 x1 : Vec F S2000x256 .f32) (x2 x3 x4 x5 : Vec F S1x256 .f32) : Vec F S2000x256 .f32 :=
  View.canon [⟨r5_big, k5_pay1 (View.ld x1 r5_big) (View.ld x3 r5_row) (View.ld x4 r5_row) (View.ld x2 r5_row) (View.ld x5 r5_row) (View.ld x0 r5_big)⟩]

theorem sound_kernel5 (E : Set ℕ) (i : grid5.Coords) {a0 a1 a6 : Memref sig .tc .vmem S2000x256 .f32} {a2 a3 a4 a5 : Memref sig .tc .vmem S1x256 .f32}
    (h0 : a0.IsWhole) (h1 : a1.IsWhole) (h2 : a2.IsWhole) (h3 : a3.IsWhole) (h4 : a4.IsWhole) (h5 : a5.IsWhole) (h6 : a6.IsWhole)
    (x0 x1 : Vec F S2000x256 .f32) (x2 x3 x4 x5 : Vec F S1x256 .f32) (K : PUnit → sProp 𝕄) :
    iprop(owns c a0 fullShare x0 ∗ owns c a1 fullShare x1 ∗ owns c a2 fullShare x2 ∗ owns c a3 fullShare x3 ∗ owns c a4 fullShare x4 ∗ owns c a5 fullShare x5
        ∗ (∃ d, owns c a6 fullShare d)
        ∗ (iprop(owns c a0 fullShare x0 ∗ owns c a1 fullShare x1 ∗ owns c a2 fullShare x2 ∗ owns c a3 fullShare x3 ∗ owns c a4 fullShare x4 ∗ owns c a5 fullShare x5
            ∗ owns c a6 fullShare (out5_6 x0 x1 x2 x3 x4 x5)) -∗ K ⟨⟩))
      ⊢ wp frame (wpE (defs₀ (F := F)) Variants.none c none) E (cc5__bn_silu_residual_kernel i a0 h0 a1 h1 a2 h2 a3 h3 a4 h4 a5 h5 a6 h6) K := by
  simp only [cc5__bn_silu_residual_kernel_eq_skeleton]; unfold cc5__bn_silu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  iexists _; isplitr; swap; · iexact H6
  ipureintro; exact View.read_writes_eq_canon _ _ _ (View.cover_of_tiled _ S2000x256.size (by rfl))

def dat5 : Dat τ (Elt F) Unit ℕ (UR sig nD τ) ℕ cfg5 c where
  A w := V c (Pipeline.arrRef spec5 w)
  after w t := match w with
    | ⟨6, _⟩ => out5_6 (iblk5 V c 0 t) (iblk5 V c 1 t) (iblk5 V c 2 t) (iblk5 V c 3 t) (iblk5 V c 4 t) (iblk5 V c 5 t)
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
  Φ _ := Pipeline.ΦA spec5 c
  q _ := fullShare
  owed _ := 0

theorem A_eq5 (w : Fin cfg5.W) : (dat5 V c).A w = V c (Pipeline.arrRef spec5 w) := rfl

theorem q_eq5 (w : Fin cfg5.W) : (dat5 V c).q w = fullShare := rfl

theorem owed_eq5 (t : Fin (cfg5.N + 1)) : (dat5 V c).owed t = 0 := rfl

theorem after5_6 (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5 (t : Fin cfg5.N) :
    (∀ d, (dat5 V c).before 0 t d = iblk5 V c 0 t) ∧ (∀ d, (dat5 V c).before 1 t d = iblk5 V c 1 t) ∧ (∀ d, (dat5 V c).before 2 t d = iblk5 V c 2 t)
    ∧ (∀ d, (dat5 V c).before 3 t d = iblk5 V c 3 t) ∧ (∀ d, (dat5 V c).before 4 t d = iblk5 V c 4 t) ∧ (∀ d, (dat5 V c).before 5 t d = iblk5 V c 5 t) := by
  refine ⟨?_, ?_, ?_, ?_, ?_, ?_⟩ <;> exact (dat5 V c).before_in_eq_fetched _ rfl (fun _ => rfl) (fun _ _ _ => rfl) (fun _ => rfl) t

theorem body_obligation5 : BodyObligation (dat5 (F := F) V c) (defs₀ (F := F)) Variants.none () Set.univ := fun t => by
  rw [bigSep_W5, bigSep_W5]
  show iprop(_ ∗ _ ∗ _) ⊢ wp frame _ _ (bodyAt5 t) _
  dsimp only
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _)
  iframe H0 H1 H2 H3 H4 H5
  isplitl [H6]; · iexists _; iexact H6
  iintro ⟨H0, H1, H2, H3, H4, H5, H6⟩
  obtain ⟨b0, b1, b2, b3, b4, b5⟩ := before5 V c t
  rw [b0, b1, b2, b3, b4, b5, show (dat5 V c).owesAt () t.succ = (dat5 V c).owesAt () t.castSucc from rfl]
  simp only [dat5]
  iframe

theorem hin5 : (Pipeline.ΦA spec5 c : sProp 𝕄) ⊢ (dat5 V c).Φ 0 := BIBase.Entails.rfl

theorem hout5 : (dat5 V c).Φ (Fin.last cfg5.N) ⊢ (Pipeline.ΦA spec5 c : sProp 𝕄) := BIBase.Entails.rfl

end Cert.Kernel.Hand

end
-- ==== Proof.K.Fold.lean ====
import proofs.«413128_j44495861187321_1_alg».proof.Proof.K.R0
import proofs.«413128_j44495861187321_1_alg».proof.Proof.K.R1
import proofs.«413128_j44495861187321_1_alg».proof.Proof.K.R2
import proofs.«413128_j44495861187321_1_alg».proof.Proof.K.R3
import proofs.«413128_j44495861187321_1_alg».proof.Proof.K.R4
import proofs.«413128_j44495861187321_1_alg».proof.Proof.K.R5

noncomputable section

namespace Cert.Kernel.Hand

open Cert.Kernel Cert.Kernel.Gen
open Idealize.ShloMosaic Idealize.ShloMosaic.TcCoe
open Idealize.ShloMosaic.Pipeline (Dat)

variable {F : FTy → Type} [FloatOps F]
variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b
abbrev W0 : Dev nD → Valuation τ sig (Elt F) := fun c b => m (c, b)
abbrev W1 : Dev nD → Valuation τ sig (Elt F) := fun c => StableHlo.after hostOps0 (W0 m c)
def W2 (c : Dev nD) : Valuation τ sig (Elt F) :=
  Pipeline.withArrays spec0 c (W1 m c) fun w => (dat0 (atTc (W1 m)) c).arrAt w cfg0.N
abbrev W3 : Dev nD → Valuation τ sig (Elt F) := fun c => StableHlo.after hostOps1 (W2 m c)
def W4 (c : Dev nD) : Valuation τ sig (Elt F) :=
  Pipeline.withArrays spec1 c (W3 m c) fun w => (dat1 (atTc (W3 m)) c).arrAt w cfg1.N
abbrev W5 : Dev nD → Valuation τ sig (Elt F) := fun c => StableHlo.after hostOps2 (W4 m c)
abbrev W6 : Dev nD → Valuation τ sig (Elt F) := fun c => StableHlo.after hostOps2_1 (W5 m c)
def W7 (c : Dev nD) : Valuation τ sig (Elt F) :=
  Pipeline.withArrays spec2 c (W6 m c) fun w => (dat2 (atTc (W6 m)) c).arrAt w cfg2.N
abbrev W8 : Dev nD → Valuation τ sig (Elt F) := fun c => StableHlo.after hostOps3 (W7 m c)
def W9 (c : Dev nD) : Valuation τ sig (Elt F) :=
  Pipeline.withArrays spec3 c (W8 m c) fun w => (dat3 (atTc (W8 m)) c).arrAt w cfg3.N
abbrev W10 : Dev nD → Valuation τ sig (Elt F) := fun c => StableHlo.after hostOps4 (W9 m c)
abbrev W11 : Dev nD → Valuation τ sig (Elt F) := fun c => StableHlo.after hostOps4_1 (W10 m c)
def W12 (c : Dev nD) : Valuation τ sig (Elt F) :=
  Pipeline.withArrays spec4 c (W11 m c) fun w => (dat4 (atTc (W11 m)) c).arrAt w cfg4.N
abbrev W13 : Dev nD → Valuation τ sig (Elt F) := fun c => StableHlo.after hostOps5 (W12 m c)
def W14 (c : Dev nD) : Valuation τ sig (Elt F) :=
  Pipeline.withArrays spec5 c (W13 m c) fun w => (dat5 (atTc (W13 m)) c).arrAt w cfg5.N

theorem W2_arr (c : Dev nD) (w : Fin cfg0.W) :
    W2 m c (Proc.devRef .tc (Pipeline.arrRef spec0 w)) = (dat0 (atTc (W1 m)) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb
theorem W4_arr (c : Dev nD) (w : Fin cfg1.W) :
    W4 m c (Proc.devRef .tc (Pipeline.arrRef spec1 w)) = (dat1 (atTc (W3 m)) c).arrAt w cfg1.N :=
  Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) :=
  Pipeline.withArrays_of_ne spec1 c _ _ b hb
theorem W7_arr (c : Dev nD) (w : Fin cfg2.W) :
    W7 m c (Proc.devRef .tc (Pipeline.arrRef spec2 w)) = (dat2 (atTc (W6 m)) c).arrAt w cfg2.N :=
  Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) :=
  Pipeline.withArrays_of_ne spec2 c _ _ b hb
theorem W9_arr (c : Dev nD) (w : Fin cfg3.W) :
    W9 m c (Proc.devRef .tc (Pipeline.arrRef spec3 w)) = (dat3 (atTc (W8 m)) c).arrAt w cfg3.N :=
  Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) :=
  Pipeline.withArrays_of_ne spec3 c _ _ b hb
theorem W12_arr (c : Dev nD) (w : Fin cfg4.W) :
    W12 m c (Proc.devRef .tc (Pipeline.arrRef spec4 w)) = (dat4 (atTc (W11 m)) c).arrAt w cfg4.N :=
  Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) :=
  Pipeline.withArrays_of_ne spec4 c _ _ b hb
theorem W14_arr (c : Dev nD) (w : Fin cfg5.W) :
    W14 m c (Proc.devRef .tc (Pipeline.arrRef spec5 w)) = (dat5 (atTc (W13 m)) c).arrAt w cfg5.N :=
  Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) :=
  Pipeline.withArrays_of_ne spec5 c _ _ b hb

end Cert.Kernel.Hand

end
-- ==== Proof.K.Run.lean ====
import proofs.«413128_j44495861187321_1_alg».proof.Proof.K.Fold
import proofs.«413128_j44495861187321_1_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 6) → (c : Dev nD) → Dat τ (Elt F) Unit ℕ (UR sig nD τ) ℕ (Pipeline.pin (pcfgs (F := F)) adm p) c
  | ⟨0, _⟩ => dat0 (atTc (W1 m))
  | ⟨1, _⟩ => dat1 (atTc (W3 m))
  | ⟨2, _⟩ => dat2 (atTc (W6 m))
  | ⟨3, _⟩ => dat3 (atTc (W8 m))
  | ⟨4, _⟩ => dat4 (atTc (W11 m))
  | ⟨5, _⟩ => dat5 (atTc (W13 m))
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m c) ∗ ∃ r, prngReg c r)
abbrev St (V : Dev nD → Valuation τ sig (Elt F)) (c : Dev nD) : sProp 𝕄 :=
  iprop(StableHlo.held (c : Thread nD τ) (Pipeline.ucRefs τ sig) (V c) ∗ R c)

/-- One statement for all six calls: only the call's number `p` and its entry contents `V` vary. -/
def regOf (p : Fin 6) (la : Pipeline.LaunchFacts (nD := nD) (τ := τ) cfgs p) (V V' : Dev nD → Valuation τ sig (Elt F))
    (hV' : ∀ c, V' c = Pipeline.withArrays (cfgs p).spec c (V c) fun w => (pdats m p c).arrAt w (cfgs p).N)
    (hbody : ∀ c, BodyObligation (pdats m p c) defs₀ 𝒱₀ () Set.univ)
    (howed : ∀ c t, (pdats m p c).owed t = 0) (hrec : ∀ c x, x ∈ (pdats m p c).recorded 0) (hq : ∀ c w, (pdats m p c).q w = fullShare)
    (hA : ∀ c w, (pdats m p c).A w = atTc V c (Pipeline.arrRef (cfgs p).spec w))
    (hΦ₀ : ∀ c, (Pipeline.ΦA (cfgs p).spec c : sProp 𝕄) ⊢ (pdats m p c).Φ 0)
    (hΦₙ : ∀ c, (pdats m p c).Φ (Fin.last _) ⊢ (Pipeline.ΦA (cfgs p).spec c : sProp 𝕄)) :
    Pipeline.RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p howed
  pre := St V
  post := St V'
  X c := iprop(∃ r, prngReg c r)
  Y c := iprop(∃ r, prngReg c r)
  Z c := Pipeline.unscopedRest (cfgs p).spec c (atTc V c)
  hentry c := by
    rw [Pipeline.ownSems0_none]
    have hsplit := Pipeline.arrays_of_unscopedBufs (p := p) (pcfgs (F := F)) adm (pdats m) la.win la.arr_whole c
      ((pdats m p c).share_full (hq c)) (atTc V c) (hA c)
    rw [Pipeline.unscopedBufs_held] at hsplit
    iintro ⟨⟨Hub, Hp, %W, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun _ _ => Or.inl (hrec c _)
      rw [howed c 0]; iexact HO
    isplitl [Hp] <;> iassumption
  hin c := by
    refine .trans ?_ (hΦ₀ c)
    unfold Pipeline.ΦA
    iintro ⟨Hp, -, Hr⟩
    isplitl [Hr] <;> iassumption
  hout c := by
    rw [Pipeline.ownSems0_none]
    refine (hΦₙ c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm la.win la.arr_whole c (pdats m) ((pdats m p c).share_full (hq c))
      (atTc V c) (atTc V' c) ((pdats m p c).arrAt · (cfgs p).N)
      (fun w => ((congrFun (hV' c) _).trans (Pipeline.withArrays_arr _ la.win.arr_inj c _ _ w)).symm)
      (fun b hb => (congrFun (hV' c) _).trans (Pipeline.withArrays_of_ne _ c _ _ b fun w e => hb (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W
    rw [howed c _]; iexact HO

abbrev segs : List (Pipeline.Seg (pcfgs (F := F)) adm (pdats m) () defs₀ 𝒱₀ L lv) :=
  [ .host (hseg hostOps0 hostOps0_sub hostOps0_fresh (W0 m)),
    .region (regOf m 0 launch0 (W1 m) (W2 m) (fun _ => rfl) (body_obligation0 _) (owed_eq0 _) (fun _ _ => trivial) (q_eq0 _) (A_eq0 _) (hin0 _) (hout0 _)),
    .host (hseg hostOps1 hostOps1_sub hostOps1_fresh (W2 m)),
    .region (regOf m 1 launch1 (W3 m) (W4 m) (fun _ => rfl) (body_obligation1 _) (owed_eq1 _) (fun _ _ => trivial) (q_eq1 _) (A_eq1 _) (hin1 _) (hout1 _)),
    .host (hseg hostOps2 hostOps2_sub hostOps2_fresh (W4 m)),
    .host (hseg hostOps2_1 hostOps2_1_sub hostOps2_1_fresh (W5 m)),
    .region (regOf m 2 launch2 (W6 m) (W7 m) (fun _ => rfl) (body_obligation2 _) (owed_eq2 _) (fun _ _ => trivial) (q_eq2 _) (A_eq2 _) (hin2 _) (hout2 _)),
    .host (hseg hostOps3 hostOps3_sub hostOps3_fresh (W7 m)),
    .region (regOf m 3 launch3 (W8 m) (W9 m) (fun _ => rfl) (body_obligation3 _) (owed_eq3 _) (fun _ _ => trivial) (q_eq3 _) (A_eq3 _) (hin3 _) (hout3 _)),
    .host (hseg hostOps4 hostOps4_sub hostOps4_fresh (W9 m)),
    .host (hseg hostOps4_1 hostOps4_1_sub hostOps4_1_fresh (W10 m)),
    .region (regOf m 4 launch4 (W11 m) (W12 m) (fun _ => rfl) (body_obligation4 _) (owed_eq4 _) (fun _ _ => trivial) (q_eq4 _) (A_eq4 _) (hin4 _) (hout4 _)),
    .host (hseg hostOps5 hostOps5_sub hostOps5_fresh (W12 m)),
    .region (regOf m 5 launch5 (W13 m) (W14 m) (fun _ => rfl) (body_obligation5 _) (owed_eq5 _) (fun _ _ => trivial) (q_eq5 _) (A_eq5 _) (hin5 _) (hout5 _)) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by
      rewrite [main_chain c, Pipeline.Seg.run_eq_chain]
      exact .rfl)
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]; refine .trans ?_ fupd_intro; exact BI.sep_emp.2)
    (T₀ := St (W0 m)) (Tₙ := Tₙ m)
    (hch := by repeat' first | exact fun _ => .rfl | exact fun _ => BI.sep_assoc' | refine ⟨?_, ?_⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h => h)

end Cert.Kernel.Hand

end
-- ==== Proof.K.Frame.lean ====
import proofs.«413128_j44495861187321_1_alg».proof.Proof.K.Run

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem keep {cfg : Pipeline.Cfg sig Λ₀} {c : Dev nD} (dat : Pipeline.Dat τ (Elt F) Unit ℕ (UR sig nD τ) ℕ cfg c)
    {V V' : Valuation τ sig (Elt F)} (hA : ∀ w, dat.A w = V (Proc.devRef .tc (Pipeline.arrRef cfg.spec w)))
    (harr : ∀ w, V' (Proc.devRef .tc (Pipeline.arrRef cfg.spec w)) = dat.arrAt w cfg.N)
    (hne : ∀ b, (∀ w, Pipeline.arrRef cfg.spec w ≠ b) → V' (Proc.devRef .tc b) = V (Proc.devRef .tc b))
    {r : Ref sig .tc} (h : ∀ w, Pipeline.arrRef cfg.spec w = r → (cfg.win w).isOut = false) :
    V' (Proc.devRef .tc r) = V (Proc.devRef .tc r) := by
  by_cases e : ∃ w, Pipeline.arrRef cfg.spec w = r
  · obtain ⟨w, rfl⟩ := e
    exact (harr w).trans ((dat.arrAt_in w (h w rfl) _).trans (hA w))
  · exact hne r fun w e' => e ⟨w, e'⟩

abbrev Kept (r : Ref sig .tc) : Prop :=
  ¬ (Proc.devRef .tc r : DevRef τ sig).isScoped ∧
  (r ∉ hostOps0_W ∧ r ∉ hostOps1_W ∧ r ∉ hostOps2_W ∧ r ∉ hostOps2_1_W ∧ r ∉ hostOps3_W ∧ r ∉ hostOps4_W ∧ r ∉ hostOps4_1_W ∧ r ∉ hostOps5_W) ∧
  ∀ (p : Fin 6) w, Pipeline.arrRef (cfgs p).spec w = r → ((cfgs p).win w).isOut = false

-- Every step from one boundary to the next fixes the value at `r`, so each boundary's value there is the launch value.
theorem kept (c : Dev nD) {r : Ref sig .tc} (h : Kept r) :
    W7 m c (Proc.devRef .tc r) = m ((c : Thread nD τ).loc r) ∧ W12 m c (Proc.devRef .tc r) = m ((c : Thread nD τ).loc r)
      ∧ W14 m c (Proc.devRef .tc r) = m ((c : Thread nD τ).loc r) := by
  obtain ⟨-, ⟨a0, a1, a2, a3, a4, a5, a6, a7⟩, b⟩ := h
  have e7 := (keep (dat2 (atTc (W6 m)) c) (A_eq2 _ c) (W7_arr m c) (W7_of_ne m c) (b 2)).trans <| (StableHlo.after_of_writes_sub hostOps2_1 _ hostOps2_1_writes a3).trans <|
    (StableHlo.after_of_writes_sub hostOps2 _ hostOps2_writes a2).trans <| (keep (dat1 (atTc (W3 m)) c) (A_eq1 _ c) (W4_arr m c) (W4_of_ne m c) (b 1)).trans <|
    (StableHlo.after_of_writes_sub hostOps1 _ hostOps1_writes a1).trans <| (keep (dat0 (atTc (W1 m)) c) (A_eq0 _ c) (W2_arr m c) (W2_of_ne m c) (b 0)).trans <|
    StableHlo.after_of_writes_sub hostOps0 _ hostOps0_writes a0
  have e12 := (keep (dat4 (atTc (W11 m)) c) (A_eq4 _ c) (W12_arr m c) (W12_of_ne m c) (b 4)).trans <| (StableHlo.after_of_writes_sub hostOps4_1 _ hostOps4_1_writes a6).trans <|
    (StableHlo.after_of_writes_sub hostOps4 _ hostOps4_writes a5).trans <| (keep (dat3 (atTc (W8 m)) c) (A_eq3 _ c) (W9_arr m c) (W9_of_ne m c) (b 3)).trans <|
    (StableHlo.after_of_writes_sub hostOps3 _ hostOps3_writes a4).trans e7
  exact ⟨e7, e12, (keep (dat5 (atTc (W13 m)) c) (A_eq5 _ c) (W14_arr m c) (W14_of_ne m c) (b 5)).trans <| (StableHlo.after_of_writes_sub hostOps5 _ hostOps5_writes a7).trans e12⟩

theorem W7_main_arg0 (c : Dev nD) : W7 m c (Proc.devRef .tc main_arg0) = m ((c : Thread nD τ).loc main_arg0) := (kept m c (by decide)).1
theorem W7_main_arg13 (c : Dev nD) : W7 m c (Proc.devRef .tc main_arg13) = m ((c : Thread nD τ).loc main_arg13) := (kept m c (by decide)).1
theorem W7_main_arg14 (c : Dev nD) : W7 m c (Proc.devRef .tc main_arg14) = m ((c : Thread nD τ).loc main_arg14) := (kept m c (by decide)).1
theorem W12_main_arg2 (c : Dev nD) : W12 m c (Proc.devRef .tc main_arg2) = m ((c : Thread nD τ).loc main_arg2) := (kept m c (by decide)).2.1
theorem W12_main_arg15 (c : Dev nD) : W12 m c (Proc.devRef .tc main_arg15) = m ((c : Thread nD τ).loc main_arg15) := (kept m c (by decide)).2.1
theorem W12_main_arg16 (c : Dev nD) : W12 m c (Proc.devRef .tc main_arg16) = m ((c : Thread nD τ).loc main_arg16) := (kept m c (by decide)).2.1
theorem W14_main_arg0 (c : Dev nD) : W14 m c (Proc.devRef .tc main_arg0) = m ((c : Thread nD τ).loc main_arg0) := (kept m c (by decide)).2.2
theorem W14_main_arg1 (c : Dev nD) : W14 m c (Proc.devRef .tc main_arg1) = m ((c : Thread nD τ).loc main_arg1) := (kept m c (by decide)).2.2
theorem W14_main_arg2 (c : Dev nD) : W14 m c (Proc.devRef .tc main_arg2) = m ((c : Thread nD τ).loc main_arg2) := (kept m c (by decide)).2.2
theorem W14_main_arg3 (c : Dev nD) : W14 m c (Proc.devRef .tc main_arg3) = m ((c : Thread nD τ).loc main_arg3) := (kept m c (by decide)).2.2
theorem W14_main_arg4 (c : Dev nD) : W14 m c (Proc.devRef .tc main_arg4) = m ((c : Thread nD τ).loc main_arg4) := (kept m c (by decide)).2.2
theorem W14_main_arg5 (c : Dev nD) : W14 m c (Proc.devRef .tc main_arg5) = m ((c : Thread nD τ).loc main_arg5) := (kept m c (by decide)).2.2
theorem W14_main_arg6 (c : Dev nD) : W14 m c (Proc.devRef .tc main_arg6) = m ((c : Thread nD τ).loc main_arg6) := (kept m c (by decide)).2.2
theorem W14_main_arg7 (c : Dev nD) : W14 m c (Proc.devRef .tc main_arg7) = m ((c : Thread nD τ).loc main_arg7) := (kept m c (by decide)).2.2
theorem W14_main_arg8 (c : Dev nD) : W14 m c (Proc.devRef .tc main_arg8) = m ((c : Thread nD τ).loc main_arg8) := (kept m c (by decide)).2.2
theorem W14_main_arg9 (c : Dev nD) : W14 m c (Proc.devRef .tc main_arg9) = m ((c : Thread nD τ).loc main_arg9) := (kept m c (by decide)).2.2
theorem W14_main_arg10 (c : Dev nD) : W14 m c (Proc.devRef .tc main_arg10) = m ((c : Thread nD τ).loc main_arg10) := (kept m c (by decide)).2.2
theorem W14_main_arg11 (c : Dev nD) : W14 m c (Proc.devRef .tc main_arg11) = m ((c : Thread nD τ).loc main_arg11) := (kept m c (by decide)).2.2
theorem W14_main_arg12 (c : Dev nD) : W14 m c (Proc.devRef .tc main_arg12) = m ((c : Thread nD τ).loc main_arg12) := (kept m c (by decide)).2.2
theorem W14_main_arg13 (c : Dev nD) : W14 m c (Proc.devRef .tc main_arg13) = m ((c : Thread nD τ).loc main_arg13) := (kept m c (by decide)).2.2
theorem W14_main_arg14 (c : Dev nD) : W14 m c (Proc.devRef .tc main_arg14) = m ((c : Thread nD τ).loc main_arg14) := (kept m c (by decide)).2.2
theorem W14_main_arg15 (c : Dev nD) : W14 m c (Proc.devRef .tc main_arg15) = m ((c : Thread nD τ).loc main_arg15) := (kept m c (by decide)).2.2
theorem W14_main_arg16 (c : Dev nD) : W14 m c (Proc.devRef .tc main_arg16) = m ((c : Thread nD τ).loc main_arg16) := (kept m c (by decide)).2.2

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => by
    have k {b : Ref sig .tc} (hb : Kept b) := (h c _ (mem_uc b hb.1)).trans (kept m c hb).2.2
    constructorm* _ ∧ _ <;> exact k (by decide))
    (run_all m ρ)

end Cert.Kernel.Hand

end
-- ==== Proof.KI.R0.lean ====
import proofs.«413128_j44495861187321_1_alg».proof.Proof.Gen.KernelIdeal.Launch
import proofs.«413128_j44495861187321_1_alg».proof.Proof.Gen.KernelIdeal.Skeleton
import proofs.«413128_j44495861187321_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S1000x256 := Rect.unit (s := S1000x256) ![0, 0] S1000x256.size inb_S1000x256_S1000x256_0_0
abbrev r0_w : Rect S256x1024 := Rect.unit (s := S256x1024) ![0, 0] S256x1024.size inb_S256x1024_S256x1024_0_0
abbrev r0_b : Rect S1x1024 := Rect.unit (s := S1x1024) ![0, 0] S1x1024.size inb_S1x1024_S1x1024_0_0

section
variable (x0 : Vec F S1000x256 .f32) (x1 : Vec F S256x1024 .f32) (x2 : Vec F S1x1024 .f32)

def out0_3 : Vec F S1000x256 .f32 := View.canon [⟨r0_x, k0_pay2 (View.ld x0 r0_x) (View.ld x1 r0_w) (View.ld x2 r0_b)⟩]
def out0_4 : Vec F S1000x256 .f32 := View.canon [⟨r0_x, k0_pay3 (View.ld x0 r0_x) (View.ld x1 r0_w) (View.ld x2 r0_b)⟩]
def out0_5 : Vec F S1000x256 .f32 := View.canon [⟨r0_x, k0_pay4 (View.ld x0 r0_x) (View.ld x1 r0_w) (View.ld x2 r0_b)⟩]
def out0_6 : Vec F S1000x256 .f32 := View.canon [⟨r0_x, k0_pay5 (View.ld x0 r0_x) (View.ld x1 r0_w) (View.ld x2 r0_b)⟩]
end

theorem cover0_o (p0 : Vec F S1000x256 .f32) (y : S1000x256.Idx) :
    ∃ pc ∈ ([⟨r0_x, p0⟩] : List (View.Piece (Elt F) S1000x256 .f32)), y ∈ pc.1.set :=
  View.cover_of_tiled [⟨r0_x, p0⟩] S1000x256.size (by rfl) y

set_option maxHeartbeats 4000000 in
/-- Run on whole memrefs, the body keeps its three inputs and leaves each output at its quarter of the product. -/
theorem sound_kernel0 (c : Dev nD) (E : Set ℕ) (i : grid0.Coords) (arg1 : Memref sig .tc .vmem S1000x256 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1000x256 .f32) (harg4 : arg4.IsWhole) (arg5 : Memref sig .tc .vmem S1000x256 .f32) (harg5 : arg5.IsWhole) (arg6 : Memref sig .tc .vmem S1000x256 .f32) (harg6 : arg6.IsWhole) (arg7 : Memref sig .tc .vmem S1000x256 .f32) (harg7 : arg7.IsWhole)
    (x0 : Vec F S1000x256 .f32) (x1 : Vec F S256x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2) ∗ owns (c : Thread nD τ) arg7 fullShare (out0_6 x0 x1 x2)) -∗ K ⟨⟩))
      ⊢ wp frame (wpE (defs₀ (F := F)) Variants.none c none) E (cc0__lin4_kernel i arg1 harg1 arg2 harg2 arg3 harg3 arg4 harg4 arg5 harg5 arg6 harg6 arg7 harg7) K := by
  simp only [cc0__lin4_kernel_eq_skeleton]; unfold cc0__lin4_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  isplitl [H5]
  · iexists _; isplitr
    swap; · iexact H5
    ipureintro
    exact View.read_writes_eq_canon _ _ _ (cover0_o _)
  iexists _; isplitr
  swap; · iexact H6
  ipureintro
  exact View.read_writes_eq_canon _ _ _ (cover0_o _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
  Φ _ := Pipeline.ΦA spec0 c
  q _ := fullShare
  owed _ := 0

section
variable (c : Dev nD) (t : Fin cfg0.N)

theorem A_eq0 (w : Fin cfg0.W) : (dat0 V c).A w = V c (Pipeline.arrRef spec0 w) := by dsimp only [dat0]
theorem q_eq0 (w : Fin cfg0.W) : (dat0 V c).q w = fullShare := by dsimp only [dat0]
theorem owed_eq0 (t : Fin (cfg0.N + 1)) : (dat0 V c).owed t = 0 := by dsimp only [dat0]

theorem after0_0 : (dat0 V c).after 0 t = iblk0 V c 0 t := by dsimp only [dat0]
theorem after0_1 : (dat0 V c).after 1 t = iblk0 V c 1 t := by dsimp only [dat0]
theorem after0_2 : (dat0 V c).after 2 t = iblk0 V c 2 t := by dsimp only [dat0]
theorem after0_3 : (dat0 V c).after 3 t = out0_3 (iblk0 V c 0 t) (iblk0 V c 1 t) (iblk0 V c 2 t) := by dsimp only [dat0]
theorem after0_4 : (dat0 V c).after 4 t = out0_4 (iblk0 V c 0 t) (iblk0 V c 1 t) (iblk0 V c 2 t) := by dsimp only [dat0]
theorem after0_5 : (dat0 V c).after 5 t = out0_5 (iblk0 V c 0 t) (iblk0 V c 1 t) (iblk0 V c 2 t) := by dsimp only [dat0]
theorem after0_6 : (dat0 V c).after 6 t = out0_6 (iblk0 V c 0 t) (iblk0 V c 1 t) (iblk0 V c 2 t) := by dsimp only [dat0]

theorem before0_0 (d) : (dat0 V c).before 0 t d = iblk0 V c 0 t :=
  ((dat0 V c).before_in_eq_fetched 0 rfl (fun _ => rfl) (fun _ _ _ => rfl) (fun t => by rw [after0_0]; rfl) t d).trans rfl
theorem before0_1 (d) : (dat0 V c).before 1 t d = iblk0 V c 1 t :=
  ((dat0 V c).before_in_eq_fetched 1 rfl (fun _ => rfl) (fun _ _ _ => rfl) (fun t => by rw [after0_1]; rfl) t d).trans rfl
theorem before0_2 (d) : (dat0 V c).before 2 t d = iblk0 V c 2 t :=
  ((dat0 V c).before_in_eq_fetched 2 rfl (fun _ => rfl) (fun _ _ _ => rfl) (fun t => by rw [after0_2]; rfl) t d).trans rfl

end

theorem body_obligation0 (c : Dev nD) : BodyObligation (dat0 (F := F) V c) (defs₀ (F := F)) Variants.none () Set.univ := fun t => by
  rw [bigSep_W0, bigSep_W0]
  simp only [before0_0, before0_1, before0_2, after0_0, after0_1, after0_2, after0_3, after0_4, after0_5, after0_6]
  rw [show (dat0 V c).Φ t.succ = (dat0 V c).Φ t.castSucc from rfl,
    show (dat0 V c).owesAt () t.succ = (dat0 V c).owesAt () t.castSucc from rfl]
  show _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) _)
  iframe H0 H1 H2
  isplitl [H3]; · iexists _; iexact H3
  isplitl [H4]; · iexists _; iexact H4
  isplitl [H5]; · iexists _; iexact H5
  isplitl [H6]; · iexists _; iexact H6
  iintro ⟨H0, H1, H2, H3, H4, H5, H6⟩
  iframe

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.KernelIdeal.Hand

end
-- ==== Proof.KI.R1.lean ====
import proofs.«413128_j44495861187321_1_alg».proof.Proof.Gen.KernelIdeal.Launch
import proofs.«413128_j44495861187321_1_alg».proof.Proof.Gen.KernelIdeal.Skeleton
import proofs.«413128_j44495861187321_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_e : Rect S2000x256 := Rect.unit (s := S2000x256) ![0, 0] S2000x256.size inb_S2000x256_S2000x256_0_0
abbrev r1_w : Rect S256x256 := Rect.unit (s := S256x256) ![0, 0] S256x256.size inb_S256x256_S256x256_0_0
abbrev r1_b : Rect S1x256 := Rect.unit (s := S1x256) ![0, 0] S1x256.size inb_S1x256_S1x256_0_0

def out1_3 (x0 : Vec F S2000x256 .f32) (x1 : Vec F S256x256 .f32) (x2 : Vec F S1x256 .f32) : Vec F S2000x256 .f32 :=
  View.canon [⟨r1_e, k1_pay1 (View.ld x0 r1_e) (View.ld x1 r1_w) (View.ld x2 r1_b)⟩]

def out1_4 (x0 : Vec F S2000x256 .f32) : Vec F S2000x256 .f32 :=
  View.canon [⟨r1_e, k1_pay2 (View.ld x0 r1_e)⟩]

theorem cover1_e (p0 : Vec F S2000x256 .f32) (y : S2000x256.Idx) :
    ∃ pc ∈ ([⟨r1_e, p0⟩] : List (View.Piece (Elt F) S2000x256 .f32)), y ∈ pc.1.set :=
  View.cover_of_tiled [⟨r1_e, p0⟩] S2000x256.size (by rfl) y

set_option maxHeartbeats 4000000 in
/-- Run on whole memrefs, the body keeps its three inputs and leaves the product plus bias and the gate in the outputs. -/
theorem sound_kernel1 (c : Dev nD) (E : Set ℕ) (i : grid1.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2000x256 .f32) (harg4 : arg4.IsWhole)
    (arg5 : Memref sig .tc .vmem S2000x256 .f32) (harg5 : arg5.IsWhole)
    (x0 : Vec F S2000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0)) -∗ K ⟨⟩))
      ⊢ wp frame (wpE (defs₀ (F := F)) Variants.none c none) E (cc1__edge_lin_kernel i arg1 harg1 arg2 harg2 arg3 harg3 arg4 harg4 arg5 harg5) K := by
  simp only [cc1__edge_lin_kernel_eq_skeleton]; unfold cc1__edge_lin_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_e _)
  iexists _; isplitr
  swap; · iexact H4
  ipureintro
  exact View.read_writes_eq_canon _ _ _ (cover1_e _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t)
  Φ _ := Pipeline.ΦA spec1 c
  q _ := fullShare
  owed _ := 0

section
variable (c : Dev nD) (t : Fin cfg1.N)

theorem A_eq1 (w : Fin cfg1.W) : (dat1 V c).A w = V c (Pipeline.arrRef spec1 w) := by dsimp only [dat1]
theorem q_eq1 (w : Fin cfg1.W) : (dat1 V c).q w = fullShare := by dsimp only [dat1]
theorem owed_eq1 (t : Fin (cfg1.N + 1)) : (dat1 V c).owed t = 0 := by dsimp only [dat1]

theorem after1_0 : (dat1 V c).after 0 t = iblk1 V c 0 t := by dsimp only [dat1]
theorem after1_1 : (dat1 V c).after 1 t = iblk1 V c 1 t := by dsimp only [dat1]
theorem after1_2 : (dat1 V c).after 2 t = iblk1 V c 2 t := by dsimp only [dat1]
theorem after1_3 : (dat1 V c).after 3 t = out1_3 (iblk1 V c 0 t) (iblk1 V c 1 t) (iblk1 V c 2 t) := by dsimp only [dat1]
theorem after1_4 : (dat1 V c).after 4 t = out1_4 (iblk1 V c 0 t) := by dsimp only [dat1]

theorem before1_0 (d) : (dat1 V c).before 0 t d = iblk1 V c 0 t :=
  ((dat1 V c).before_in_eq_fetched 0 rfl (fun _ => rfl) (fun _ _ _ => rfl) (fun t => by rw [after1_0]; rfl) t d).trans rfl
theorem before1_1 (d) : (dat1 V c).before 1 t d = iblk1 V c 1 t :=
  ((dat1 V c).before_in_eq_fetched 1 rfl (fun _ => rfl) (fun _ _ _ => rfl) (fun t => by rw [after1_1]; rfl) t d).trans rfl
theorem before1_2 (d) : (dat1 V c).before 2 t d = iblk1 V c 2 t :=
  ((dat1 V c).before_in_eq_fetched 2 rfl (fun _ => rfl) (fun _ _ _ => rfl) (fun t => by rw [after1_2]; rfl) t d).trans rfl

end

theorem body_obligation1 (c : Dev nD) : BodyObligation (dat1 (F := F) V c) (defs₀ (F := F)) Variants.none () Set.univ := fun t => by
  rw [bigSep_W1, bigSep_W1]
  simp only [before1_0, before1_1, before1_2, after1_0, after1_1, after1_2, after1_3, after1_4]
  rw [show (dat1 V c).Φ t.succ = (dat1 V c).Φ t.castSucc from rfl,
    show (dat1 V c).owesAt () t.succ = (dat1 V c).owesAt () t.castSucc from rfl]
  show _ ⊢ wp _ _ _ (bodyAt1 t) _
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  iframe H0 H1 H2
  isplitl [H3]; · iexists _; iexact H3
  isplitl [H4]; · iexists _; iexact H4
  iintro ⟨H0, H1, H2, H3, H4⟩
  iframe

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := .rfl

end Cert.KernelIdeal.Hand

end
-- ==== Proof.KI.R2.lean ====
import proofs.«413128_j44495861187321_1_alg».proof.Proof.Gen.KernelIdeal.Launch
import proofs.«413128_j44495861187321_1_alg».proof.Proof.Gen.KernelIdeal.Skeleton
import proofs.«413128_j44495861187321_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1
/-- The accumulators are zeroed at the first point only. -/
theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1
/-- The accumulators are copied out at the last point only. -/
theorem hcond2_1 : ∀ t : Fin cfg2.N, cond2_1 (grid2.coords t) ↔ t.val = 24 :=
  (by decide +kernel : ∀ t : Fin grid2.N, cond2_1 (grid2.coords t) ↔ t.val = 24)

theorem live2 : ∀ t : Fin cfg2.N, cfg2.idle 0 (grid2.coords t) = false ∧ cfg2.idle 1 (grid2.coords t) = false ∧ cfg2.idle 2 (grid2.coords t) = false := by
  decide +kernel
theorem stat2 : ∀ t : Fin cfg2.N, (t.val = 24 → cfg2.idle 3 (grid2.coords t) = false ∧ cfg2.idle 4 (grid2.coords t) = false)
    ∧ (t.val ≠ 24 → (cfg2.idle 3 (grid2.coords t) = true ∧ (cfg2.win 3).flush t = false) ∧ cfg2.idle 4 (grid2.coords t) = true ∧ (cfg2.win 4).flush t = false) := by
  decide +kernel

abbrev ms2_0 (t : Fin cfg2.N) : Memref sig .tc .vmem S2000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev scM2_0 : Memref sig .tc .vmem S1x256 .f32 := Memref.whole cc2_scratch0
abbrev scM2_1 : Memref sig .tc .vmem S1x256 .f32 := Memref.whole cc2_scratch1

abbrev Phi2 (c : Dev nD) (A : sProp 𝕄) : sProp 𝕄 :=
  iprop(iprop(A ∗ Pipeline.scopedRestBut (Ix := Unit) (Name := ℕ) (U := UR sig nD τ) (Lvl := ℕ) (Val := Elt F) spec2 c [cc2_scratch0, cc2_scratch1]) ∗ (∃ r, prngReg c r))

theorem PhiA2_eq (c : Dev nD) : (Pipeline.ΦA spec2 c : sProp 𝕄)
    = Phi2 c iprop((∃ d, owns (c : Thread nD τ) scM2_0 fullShare d) ∗ (∃ d, owns (c : Thread nD τ) scM2_1 fullShare d)) := by
  unfold Pipeline.ΦA; rw [scopedRest2_split]; simp only [scM2_0, scM2_1, owns_whole]; try rfl

theorem hz2 : (![0, 0] : Fin 2 → Nat) = fun _ => 0 := funext fun a => by fin_cases a <;> rfl

theorem read_pieces {S : Shape} (v : View sig .tc .vmem S .f32) (f : v.ty.Contents (Elt F)) (L : List (View.Piece (Elt F) S .f32))
    (hT : View.Piece.tiledL L S.size = true) {X : Vec F S .f32} (hX : View.canon L = X) : v.read (Elt F) (v.writes (Elt F) f L) = X :=
  (View.read_writes_eq_canon v f L (View.cover_of_tiledL L S.size hT)).trans hX

section Body

variable (c : Dev nD) (i : grid2.Coords)
  {a1 a2 a3 : Memref sig .tc .vmem S2000x256 .f32} {a4 a5 a6 a7 : Memref sig .tc .vmem S1x256 .f32}
  (h1 : a1.IsWhole) (h2 : a2.IsWhole) (h3 : a3.IsWhole) (h4 : a4.IsWhole) (h5 : a5.IsWhole) (h6 : a6.IsWhole) (h7 : a7.IsWhole)
  (x0 x1 : Vec F S2000x256 .f32)

set_option maxHeartbeats 4000000 in
/-- A point before the last: the block's sum stored, its column statistics added onto the accumulators, which the first point zeroes first. -/
theorem run2_AB (hc1 : ¬cond2_1 i) (xs0 xs1 s0 s1 xi3 xi4 : Vec F S1x256 .f32)
    (hs : if cond2_0 i then s0 = k2_pay1 ∧ s1 = k2_pay2 else s0 = xs0 ∧ s1 = xs1) (E : Set ℕ) (K : PUnit → sProp 𝕄) :
    iprop(owns (c : Thread nD τ) a1 fullShare x0 ∗ owns (c : Thread nD τ) a2 fullShare x1 ∗ (∃ d, owns (c : Thread nD τ) a3 fullShare d) ∗ owns (c : Thread nD τ) a4 fullShare xi3 ∗ owns (c : Thread nD τ) a5 fullShare xi4 ∗ owns (c : Thread nD τ) a6 fullShare xs0 ∗ owns (c : Thread nD τ) a7 fullShare xs1
        ∗ (iprop(owns (c : Thread nD τ) a1 fullShare x0 ∗ owns (c : Thread nD τ) a2 fullShare x1 ∗ owns (c : Thread nD τ) a3 fullShare (k2_pay3 x0 x1) ∗ owns (c : Thread nD τ) a4 fullShare xi3 ∗ owns (c : Thread nD τ) a5 fullShare xi4 ∗ owns (c : Thread nD τ) a6 fullShare (k2_pay4 x0 x1 s0) ∗ owns (c : Thread nD τ) a7 fullShare (k2_pay5 x0 x1 s1)) -∗ K ⟨⟩))
      ⊢ wp frame (wpE (defs₀ (F := F)) Variants.none c none) E (cc2__stats2_kernel i a1 h1 a2 h2 a3 h3 a4 h4 a5 h5 a6 h6 a7 h7) K := by
  simp only [cc2__stats2_kernel_eq_skeleton]; unfold cc2__stats2_kernel_skel
  unfold owns
  iintro ⟨⟨%f0, %hf0, H0⟩, ⟨%f1, %hf1, H1⟩, ⟨%d2, %f2, -, H2⟩, ⟨%f3, %hf3, H3⟩, ⟨%f4, %hf4, H4⟩, ⟨%fs0, %hfs0, HS0⟩, ⟨%fs1, %hfs1, HS1⟩, Hk⟩
  obtain rfl := h1.eq_unread hf0; obtain rfl := h2.eq_unread hf1
  obtain rfl := h6.eq_unread hfs0; obtain rfl := h7.eq_unread hfs1
  by_cases hc0 : cond2_0 i
  all_goals
    first | rw [if_pos hc0] at hs | rw [if_neg hc0] at hs
    obtain ⟨rfl, rfl⟩ := hs
    sl_exec (disch := first | exact hc0 | exact hc1)
    sl_step
    iapply Hk
    isplitl [H0]
    · iexists _; isplitr; · ipureintro; exact hf0
      iexact H0
    isplitl [H1]
    · iexists _; isplitr; · ipureintro; exact hf1
      iexact H1
    isplitl [H2]
    on_goal 1 => iexists _; isplitr; swap; iexact H2; ipureintro
    rotate_left
    isplitl [H3]
    · iexists _; isplitr; · ipureintro; exact hf3
      iexact H3
    isplitl [H4]
    · iexists _; isplitr; · ipureintro; exact hf4
      iexact H4
    isplitl [HS0]
    on_goal 1 => iexists _; isplitr; swap; iexact HS0; ipureintro
    rotate_left
    iexists _; isplitr; swap; iexact HS1; ipureintro
    all_goals
      refine read_pieces _ _ _ (by sl_kernel_rfl) ?_
      try sl_unfold_words
      first | rw [View.canon_unit_zero hz2] | rw [View.canon_cons_unit_zero (S := S1x256) hz2]
      simp only [View.readAt_eq_ld, h1.read_unread, h2.read_unread, h6.read_unread, h7.read_unread, View.ld_unit_zero (S := S2000x256) hz2, View.ld_unit_zero (S := S1x256) hz2, View.readCov_unit_zero (S := S1x256) _ hz2]

/-- The last point: as a middle point, and then the two accumulators copied into the statistics windows. -/
theorem run2_C (hc0 : ¬cond2_0 i) (hc1 : cond2_1 i) (xs0 xs1 : Vec F S1x256 .f32) (E : Set ℕ) (K : PUnit → sProp 𝕄) :
    iprop(owns (c : Thread nD τ) a1 fullShare x0 ∗ owns (c : Thread nD τ) a2 fullShare x1 ∗ (∃ d, owns (c : Thread nD τ) a3 fullShare d) ∗ (∃ d, owns (c : Thread nD τ) a4 fullShare d) ∗ (∃ d, owns (c : Thread nD τ) a5 fullShare d) ∗ owns (c : Thread nD τ) a6 fullShare xs0 ∗ owns (c : Thread nD τ) a7 fullShare xs1
        ∗ (iprop(owns (c : Thread nD τ) a1 fullShare x0 ∗ owns (c : Thread nD τ) a2 fullShare x1 ∗ owns (c : Thread nD τ) a3 fullShare (k2_pay3 x0 x1) ∗ owns (c : Thread nD τ) a4 fullShare (k2_pay4 x0 x1 xs0) ∗ owns (c : Thread nD τ) a5 fullShare (k2_pay5 x0 x1 xs1) ∗ owns (c : Thread nD τ) a6 fullShare (k2_pay4 x0 x1 xs0) ∗ owns (c : Thread nD τ) a7 fullShare (k2_pay5 x0 x1 xs1)) -∗ K ⟨⟩))
      ⊢ wp frame (wpE (defs₀ (F := F)) Variants.none c none) E (cc2__stats2_kernel i a1 h1 a2 h2 a3 h3 a4 h4 a5 h5 a6 h6 a7 h7) K := by
  simp only [cc2__stats2_kernel_eq_skeleton]; unfold cc2__stats2_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
  obtain rfl := h1.eq_unread hf0; obtain rfl := h2.eq_unread hf1
  obtain rfl := h6.eq_unread hfs0; obtain rfl := h7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  on_goal 1 => iexists _; isplitr; swap; iexact H2; ipureintro
  rotate_left
  isplitl [H3]
  on_goal 1 => iexists _; isplitr; swap; iexact H3; ipureintro
  rotate_left
  isplitl [H4]
  on_goal 1 => iexists _; isplitr; swap; iexact H4; ipureintro
  rotate_left
  isplitl [HS0]
  on_goal 1 => iexists _; isplitr; swap; iexact HS0; ipureintro
  rotate_left
  iexists _; isplitr; swap; iexact HS1; ipureintro
  all_goals
    refine read_pieces _ _ _ (by sl_kernel_rfl) ?_
    try sl_unfold_words
    first | rw [View.canon_unit_zero hz2] | rw [View.canon_cons_unit_zero (S := S1x256) hz2]
    simp only [View.readAt_eq_ld, h1.read_unread, h2.read_unread, h6.read_unread, h7.read_unread, View.ld_unit_zero (S := S2000x256) hz2, View.ld_unit_zero (S := S1x256) hz2, View.readCov_unit_zero (S := S1x256) _ hz2]

end Body

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulators after `n` points: the zero rows, then each point's column statistics added. -/
def acc2 (c : Dev nD) : ℕ → Vec F S1x256 .f32 × Vec F S1x256 .f32
  | 0 => (k2_pay1, k2_pay2)
  | n + 1 => if h : n < cfg2.N then
      (k2_pay4 (iblk2 V c 0 ⟨n, h⟩) (iblk2 V c 1 ⟨n, h⟩) (acc2 c n).1, k2_pay5 (iblk2 V c 0 ⟨n, h⟩) (iblk2 V c 1 ⟨n, h⟩) (acc2 c n).2)
    else acc2 c n

theorem acc2_succ (c : Dev nD) (t : Fin cfg2.N) : acc2 V c (t.val + 1)
    = (k2_pay4 (iblk2 V c 0 t) (iblk2 V c 1 t) (acc2 V c t.val).1, k2_pay5 (iblk2 V c 0 t) (iblk2 V c 1 t) (acc2 V c t.val).2) :=
  dif_pos t.isLt

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (iblk2 V c 0 t) (iblk2 V c 1 t)
    | ⟨3, _⟩ => (acc2 V c (t.val + 1)).1
    | ⟨4, _⟩ => (acc2 V c (t.val + 1)).2
  Φ t := if t.val = 0 then Pipeline.ΦA spec2 c else
    Phi2 c iprop(owns (c : Thread nD τ) scM2_0 fullShare (acc2 V c t.val).1 ∗ owns (c : Thread nD τ) scM2_1 fullShare (acc2 V c t.val).2)
  q _ := fullShare
  owed _ := 0

theorem A_eq2 (c : Dev nD) (w : Fin cfg2.W) : (dat2 V c).A w = V c (Pipeline.arrRef spec2 w) := rfl

theorem q_eq2 (c : Dev nD) (w : Fin cfg2.W) : (dat2 V c).q w = fullShare := rfl

theorem owed_eq2 (c : Dev nD) (t : Fin (cfg2.N + 1)) : (dat2 V c).owed t = 0 := rfl

theorem Phi2_zero (c : Dev nD) (t : Fin (cfg2.N + 1)) (h : t.val = 0) : (dat2 V c).Φ t = Pipeline.ΦA spec2 c := if_pos h

theorem Phi2_pos (c : Dev nD) (t : Fin (cfg2.N + 1)) (h : t.val ≠ 0) : (dat2 V c).Φ t
    = Phi2 c iprop(owns (c : Thread nD τ) scM2_0 fullShare (acc2 V c t.val).1 ∗ owns (c : Thread nD τ) scM2_1 fullShare (acc2 V c t.val).2) :=
  if_neg h

theorem after2 (c : Dev nD) (t : Fin cfg2.N) : (dat2 V c).after 0 t = iblk2 V c 0 t ∧ (dat2 V c).after 1 t = iblk2 V c 1 t
    ∧ (dat2 V c).after 2 t = k2_pay3 (iblk2 V c 0 t) (iblk2 V c 1 t)
    ∧ (dat2 V c).after 3 t = (acc2 V c (t.val + 1)).1 ∧ (dat2 V c).after 4 t = (acc2 V c (t.val + 1)).2 :=
  ⟨rfl, rfl, rfl, rfl, rfl⟩

theorem before2 (c : Dev nD) (t : Fin cfg2.N) :
    (∀ d, (dat2 V c).before 0 t d = iblk2 V c 0 t) ∧ ∀ d, (dat2 V c).before 1 t d = iblk2 V c 1 t :=
  ⟨fun d => ((dat2 V c).before_fetched 0 t (fetch2_0 t) d).trans rfl, fun d => ((dat2 V c).before_fetched 1 t (fetch2_1 t) d).trans rfl⟩

theorem leaves_live {c : Dev nD} (dat : Dat τ (Elt F) Unit ℕ (UR sig nD τ) ℕ cfg2 c) (w : Fin cfg2.W) (t : Fin cfg2.N)
    (h : cfg2.idle w (cfg2.grid.coords t) = false) :
    dat.leavesExact w t = owns (c : Thread nD τ) ((cfg2.win w).stage (cfg2.slots t w)) fullShare (dat.after w t) := by
  unfold Dat.leavesExact; rw [h]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨e0, e1, e2, e3, e4⟩ := after2 V c t
  obtain ⟨l0, l1, l2⟩ := live2 t
  have hN : t.val < 25 := lt_of_lt_of_eq t.isLt (show cfg2.N = 25 from N_2)
  simp only [(before2 V c t).1, (before2 V c t).2]
  rw [show (dat2 V c).owesAt () t.succ = (dat2 V c).owesAt () t.castSucc from rfl,
    leaves_live _ 0 t l0, leaves_live _ 1 t l1, leaves_live _ 2 t l2, e0, e1, e2,
    Phi2_pos V c t.succ (Nat.succ_ne_zero _), show t.succ.val = t.val + 1 from rfl, acc2_succ]
  by_cases hl : t.val = 24
  on_goal 1 =>
    obtain ⟨l3, l4⟩ := (stat2 t).1 hl
    have hz : t.val ≠ 0 := by omega
    rw [leaves_live _ 3 t l3, leaves_live _ 4 t l4, e3, e4, acc2_succ, Phi2_pos V c t.castSucc hz]
  on_goal 2 =>
    obtain ⟨⟨i3, f3⟩, i4, f4⟩ := (stat2 t).2 hl
    rw [Dat.leavesExact_idle _ 3 t i3 f3, Dat.leavesExact_idle _ 4 t i4 f4]
    by_cases hz : t.val = 0
    on_goal 1 =>
      rw [Phi2_zero V c t.castSucc hz, PhiA2_eq,
        show acc2 V c t.val = (k2_pay1, k2_pay2) from by rw [hz]; rfl]
    on_goal 2 => rw [Phi2_pos V c t.castSucc hz]
  on_goal 2 => iintro ⟨⟨⟨⟨⟨%xs0, HS0⟩, %xs1, HS1⟩, Hrest⟩, Hg⟩, Ho, ⟨%d0, H0⟩, ⟨%d1, H1⟩, ⟨%d2, H2⟩, ⟨%d3, H3⟩, ⟨%d4, H4⟩⟩
  on_goal 1 => iintro ⟨⟨⟨⟨HS0, HS1⟩, Hrest⟩, Hg⟩, Ho, ⟨%d0, H0⟩, ⟨%d1, H1⟩, ⟨%d2, H2⟩, ⟨%d3, H3⟩, ⟨%d4, H4⟩⟩
  on_goal 3 => iintro ⟨⟨⟨⟨HS0, HS1⟩, Hrest⟩, Hg⟩, Ho, ⟨%d0, H0⟩, ⟨%d1, H1⟩, ⟨%d2, H2⟩, ⟨%d3, H3⟩, ⟨%d4, H4⟩⟩
  on_goal 1 => iapply (run2_C c (grid2.coords t) (hs2_0 t) (hs2_1 t) (hs2_2 t) (hs2_3 t) (hs2_4 t) (Memref.isWhole_whole _) (Memref.isWhole_whole _)
    (iblk2 V c 0 t) (iblk2 V c 1 t) (fun h => hz ((hcond2_0 t).mp h)) ((hcond2_1 t).mpr hl) (acc2 V c t.val).1 (acc2 V c t.val).2 Set.univ _)
  on_goal 2 => iapply (run2_AB c (grid2.coords t) (hs2_0 t) (hs2_1 t) (hs2_2 t) (hs2_3 t) (hs2_4 t) (Memref.isWhole_whole _) (Memref.isWhole_whole _)
    (iblk2 V c 0 t) (iblk2 V c 1 t) (fun h => hl ((hcond2_1 t).mp h)) xs0 xs1 k2_pay1 k2_pay2 ((dat2 V c).before 3 t d3) ((dat2 V c).before 4 t d4)
    (by rw [if_pos ((hcond2_0 t).mpr hz)]; exact ⟨rfl, rfl⟩) Set.univ _)
  on_goal 3 => iapply (run2_AB c (grid2.coords t) (hs2_0 t) (hs2_1 t) (hs2_2 t) (hs2_3 t) (hs2_4 t) (Memref.isWhole_whole _) (Memref.isWhole_whole _)
    (iblk2 V c 0 t) (iblk2 V c 1 t) (fun h => hl ((hcond2_1 t).mp h)) _ _ (acc2 V c t.val).1 (acc2 V c t.val).2 ((dat2 V c).before 3 t d3) ((dat2 V c).before 4 t d4)
    (by rw [if_neg fun h => hz ((hcond2_0 t).mp h)]; exact ⟨rfl, rfl⟩) Set.univ _)
  all_goals
    isplitl [H0]; · iexact H0
    isplitl [H1]; · iexact H1
    isplitl [H2]; · iexists _; iexact H2
    isplitl [H3]; · first | iexact H3 | (iexists _; iexact H3)
    isplitl [H4]; · first | iexact H4 | (iexists _; iexact H4)
    isplitl [HS0]; · iexact HS0
    isplitl [HS1]; · iexact HS1
    iintro ⟨H0, H1, H2, H3, H4, HS0, HS1⟩
    isplitl [HS0 HS1 Hrest Hg]
    · isplitl [HS0 HS1 Hrest]
      · isplitl [HS0 HS1]
        · isplitl [HS0]
          · iexact HS0
          · iexact HS1
        · iexact Hrest
      · iexact Hg
    isplitl [Ho]; · iexact Ho
    isplitl [H0]; · iexact H0
    isplitl [H1]; · iexact H1
    isplitl [H2]; · iexact H2
    isplitl [H3]; · first | iexact H3 | (iexists _; iexact H3)
    first | iexact H4 | (iexists _; iexact H4)

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [Phi2_zero V c 0 rfl]
  try exact Idealize.SL.BI.Entails.refl _

theorem hout2 (c : Dev nD) : (dat2 V c).Φ (Fin.last cfg2.N) ⊢ (Pipeline.ΦA spec2 c : sProp 𝕄) := by
  rw [Phi2_pos V c _ (by rw [Fin.val_last]; have : cfg2.N = 25 := N_2; omega), PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.KernelIdeal.Hand

end
-- ==== Proof.KI.R3.lean ====
import proofs.«413128_j44495861187321_1_alg».proof.Proof.Gen.KernelIdeal.Launch
import proofs.«413128_j44495861187321_1_alg».proof.Proof.Gen.KernelIdeal.Skeleton
import proofs.«413128_j44495861187321_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_big : Rect S2000x256 := Rect.unit (s := S2000x256) ![0, 0] S2000x256.size inb_S2000x256_S2000x256_0_0
abbrev r3_row : Rect S1x256 := Rect.unit (s := S1x256) ![0, 0] S1x256.size inb_S1x256_S1x256_0_0

def out3_6 (x0 x1 : Vec F S2000x256 .f32) (x2 x3 x4 x5 : Vec F S1x256 .f32) : Vec F S2000x256 .f32 :=
  View.canon [⟨r3_big, k3_pay1 (View.ld x1 r3_big) (View.ld x3 r3_row) (View.ld x4 r3_row) (View.ld x2 r3_row) (View.ld x5 r3_row) (View.ld x0 r3_big)⟩]

theorem sound_kernel3 (E : Set ℕ) (i : grid3.Coords) {a0 a1 a6 : Memref sig .tc .vmem S2000x256 .f32} {a2 a3 a4 a5 : Memref sig .tc .vmem S1x256 .f32}
    (h0 : a0.IsWhole) (h1 : a1.IsWhole) (h2 : a2.IsWhole) (h3 : a3.IsWhole) (h4 : a4.IsWhole) (h5 : a5.IsWhole) (h6 : a6.IsWhole)
    (x0 x1 : Vec F S2000x256 .f32) (x2 x3 x4 x5 : Vec F S1x256 .f32) (K : PUnit → sProp 𝕄) :
    iprop(owns c a0 fullShare x0 ∗ owns c a1 fullShare x1 ∗ owns c a2 fullShare x2 ∗ owns c a3 fullShare x3 ∗ owns c a4 fullShare x4 ∗ owns c a5 fullShare x5
        ∗ (∃ d, owns c a6 fullShare d)
        ∗ (iprop(owns c a0 fullShare x0 ∗ owns c a1 fullShare x1 ∗ owns c a2 fullShare x2 ∗ owns c a3 fullShare x3 ∗ owns c a4 fullShare x4 ∗ owns c a5 fullShare x5
            ∗ owns c a6 fullShare (out3_6 x0 x1 x2 x3 x4 x5)) -∗ K ⟨⟩))
      ⊢ wp frame (wpE (defs₀ (F := F)) Variants.none c none) E (cc3__bn_silu_residual_kernel i a0 h0 a1 h1 a2 h2 a3 h3 a4 h4 a5 h5 a6 h6) K := by
  simp only [cc3__bn_silu_residual_kernel_eq_skeleton]; unfold cc3__bn_silu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  iexists _; isplitr; swap; · iexact H6
  ipureintro; exact View.read_writes_eq_canon _ _ _ (View.cover_of_tiled _ S2000x256.size (by rfl))

def dat3 : Dat τ (Elt F) Unit ℕ (UR sig nD τ) ℕ cfg3 c where
  A w := V c (Pipeline.arrRef spec3 w)
  after w t := match w with
    | ⟨6, _⟩ => out3_6 (iblk3 V c 0 t) (iblk3 V c 1 t) (iblk3 V c 2 t) (iblk3 V c 3 t) (iblk3 V c 4 t) (iblk3 V c 5 t)
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
  Φ _ := Pipeline.ΦA spec3 c
  q _ := fullShare
  owed _ := 0

theorem A_eq3 (w : Fin cfg3.W) : (dat3 V c).A w = V c (Pipeline.arrRef spec3 w) := rfl

theorem q_eq3 (w : Fin cfg3.W) : (dat3 V c).q w = fullShare := rfl

theorem owed_eq3 (t : Fin (cfg3.N + 1)) : (dat3 V c).owed t = 0 := rfl

theorem after3_6 (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3 (t : Fin cfg3.N) :
    (∀ d, (dat3 V c).before 0 t d = iblk3 V c 0 t) ∧ (∀ d, (dat3 V c).before 1 t d = iblk3 V c 1 t) ∧ (∀ d, (dat3 V c).before 2 t d = iblk3 V c 2 t)
    ∧ (∀ d, (dat3 V c).before 3 t d = iblk3 V c 3 t) ∧ (∀ d, (dat3 V c).before 4 t d = iblk3 V c 4 t) ∧ (∀ d, (dat3 V c).before 5 t d = iblk3 V c 5 t) := by
  refine ⟨?_, ?_, ?_, ?_, ?_, ?_⟩ <;> exact (dat3 V c).before_in_eq_fetched _ rfl (fun _ => rfl) (fun _ _ _ => rfl) (fun _ => rfl) t

theorem body_obligation3 : BodyObligation (dat3 (F := F) V c) (defs₀ (F := F)) Variants.none () Set.univ := fun t => by
  rw [bigSep_W3, bigSep_W3]
  show iprop(_ ∗ _ ∗ _) ⊢ wp frame _ _ (bodyAt3 t) _
  dsimp only
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _)
  iframe H0 H1 H2 H3 H4 H5
  isplitl [H6]; · iexists _; iexact H6
  iintro ⟨H0, H1, H2, H3, H4, H5, H6⟩
  obtain ⟨b0, b1, b2, b3, b4, b5⟩ := before3 V c t
  rw [b0, b1, b2, b3, b4, b5, show (dat3 V c).owesAt () t.succ = (dat3 V c).owesAt () t.castSucc from rfl]
  simp only [dat3]
  iframe

theorem hin3 : (Pipeline.ΦA spec3 c : sProp 𝕄) ⊢ (dat3 V c).Φ 0 := BIBase.Entails.rfl

theorem hout3 : (dat3 V c).Φ (Fin.last cfg3.N) ⊢ (Pipeline.ΦA spec3 c : sProp 𝕄) := BIBase.Entails.rfl

end Cert.KernelIdeal.Hand

end
-- ==== Proof.KI.R4.lean ====
import proofs.«413128_j44495861187321_1_alg».proof.Proof.Gen.KernelIdeal.Launch
import proofs.«413128_j44495861187321_1_alg».proof.Proof.Gen.KernelIdeal.Skeleton
import proofs.«413128_j44495861187321_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1
theorem hcond4_1 : ∀ t : Fin cfg4.N, cond4_1 (grid4.coords t) ↔ t.val = 159 :=
  (by decide +kernel : ∀ t : Fin grid4.N, cond4_1 (grid4.coords t) ↔ t.val = 159)

theorem liveAt4 : ∀ (w : Fin cfg4.W) (t : Fin cfg4.N), w.val < 4 ∨ cond4_1 (grid4.coords t) → cfg4.idle w (grid4.coords t) = false := by decide +kernel
theorem idleAt4 : ∀ (w : Fin cfg4.W) (t : Fin cfg4.N), 4 ≤ w.val → ¬cond4_1 (grid4.coords t) →
    cfg4.idle w (grid4.coords t) = true ∧ (cfg4.win w).flush t = false := by decide +kernel

abbrev scM4_0 : Memref sig .tc .vmem S1x256 .f32 := Memref.whole cc4_scratch0
abbrev scM4_1 : Memref sig .tc .vmem S1x256 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

theorem hz4 : (![0, 0] : Fin 2 → Nat) = fun _ => 0 := funext fun a => by fin_cases a <;> rfl

abbrev rB4 : Rect S2000x256 := Rect.unit (s := S2000x256) ![0, 0] S2000x256.size inb_S2000x256_S2000x256_0_0
abbrev rS4 : Rect S1x256 := Rect.unit (s := S1x256) ![0, 0] S1x256.size inb_S1x256_S1x256_0_0

theorem owns_unread {S : Shape} {e : EltTy} {m : Memref sig .tc .vmem S e} (h : m.IsWhole) (c : Dev nD) (x : S.Idx → Elt F e) :
    (owns (c : Thread nD τ) m fullShare x : sProp 𝕄) = (m.view.loc (c : Thread nD τ) ↦[m.view.set]{fullShare} h.unread x) := by
  have h₁ : (owns (c : Thread nD τ) m fullShare x : sProp 𝕄) ⊢ (m.view.loc (c : Thread nD τ) ↦[m.view.set]{fullShare} h.unread x) := by
    unfold owns; iintro ⟨%f, %hf, H⟩; obtain rfl := h.eq_unread hf; iexact H
  have h₂ : (m.view.loc (c : Thread nD τ) ↦[m.view.set]{fullShare} h.unread x : sProp 𝕄) ⊢ owns (c : Thread nD τ) m fullShare x := by
    unfold owns; iintro H; iexists _; isplitr; · ipureintro; exact h.read_unread x
    iexact H
  exact BI.equiv_iff.mp ⟨h₁, h₂⟩

def wrote (c : Dev nD) {S : Shape} {e : EltTy} (m : Memref sig .tc .vmem S e) (L : List (View.Piece (Elt F) S e)) : sProp 𝕄 :=
  iprop(∃ f, m.view.loc (c : Thread nD τ) ↦[m.view.set]{fullShare} m.view.writes (Elt F) f L)

-- The piece stored last covers the whole shape, so the contents read back are its payload.
theorem owns_of_wrote (c : Dev nD) {S : Shape} {e : EltTy} (m : Memref sig .tc .vmem S e) {off : Fin S.rank → Nat} (h : off = fun _ => 0)
    (inb : ∀ a, off a + S.size a ≤ S.size a) (w : S.Idx → Elt F e) (L : List (View.Piece (Elt F) S e)) :
    wrote c m (⟨Rect.unit off S.size inb, w⟩ :: L) ⊢ owns (c : Thread nD τ) m fullShare w := by
  unfold wrote owns
  iintro ⟨%f, H⟩
  iexists _; isplitr
  swap; · iexact H
  ipureintro
  rw [View.read_writes_eq_canon _ _ _ (fun y => ⟨_, List.mem_cons_self, View.mem_set_unit_zero h inb y⟩), View.canon_cons_unit_zero h inb]

section Body

variable (c : Dev nD) (i : grid4.Coords)
  (arg1 : Memref sig .tc .vmem S2000x256 .f32) (harg1 : arg1.IsWhole) (arg2 : Memref sig .tc .vmem S2000x256 .f32) (harg2 : arg2.IsWhole)
  (arg3 : Memref sig .tc .vmem S2000x256 .f32) (harg3 : arg3.IsWhole) (arg4 : Memref sig .tc .vmem S2000x256 .f32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S1x256 .f32) (harg7 : arg7.IsWhole) (arg8 : Memref sig .tc .vmem S1x256 .f32) (harg8 : arg8.IsWhole)
  (x0 x1 x2 d3 : Vec F S2000x256 .f32) (xs0 xs1 d4 d5 : Vec F S1x256 .f32)

-- The three inputs at their blocks; the sum buffer and the two accumulators at given contents.
def held4 (y3 : Vec F S2000x256 .f32) (y0 y1 : Vec F S1x256 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare y3 ∗ owns (c : Thread nD τ) arg7 fullShare y0 ∗ owns (c : Thread nD τ) arg8 fullShare y1)

-- The same with the last three after the listed stores.
def ran4 (L3 : List (View.Piece (Elt F) S2000x256 .f32)) (LS0 LS1 : List (View.Piece (Elt F) S1x256 .f32)) : sProp 𝕄 :=
  iprop(owns (c : Thread nD τ) arg1 fullShare x0 ∗ owns (c : Thread nD τ) arg2 fullShare x1 ∗ owns (c : Thread nD τ) arg3 fullShare x2
    ∗ wrote c arg4 L3 ∗ wrote c arg7 LS0 ∗ wrote c arg8 LS1)

set_option maxHeartbeats 4000000 in
noncomputable def kernelRun4 (b0 b1 : Bool) (hc0 : decide (cond4_0 i) = b0) (hc1 : decide (cond4_1 i) = b1) (hb : (b0 && b1) = false) :
    { L : (List (View.Piece (Elt F) S2000x256 .f32) × List (View.Piece (Elt F) S1x256 .f32) × List (View.Piece (Elt F) S1x256 .f32)) × List (View.Piece (Elt F) S1x256 .f32) × List (View.Piece (Elt F) S1x256 .f32) // ∀ (E : Set ℕ) (K : PUnit → sProp 𝕄),
      iprop(held4 c arg1 arg2 arg3 arg4 arg7 arg8 x0 x1 x2 d3 xs0 xs1 ∗ owns (c : Thread nD τ) arg5 fullShare d4 ∗ owns (c : Thread nD τ) arg6 fullShare d5
        ∗ (ran4 c arg1 arg2 arg3 arg4 arg7 arg8 x0 x1 x2 L.1.1 L.1.2.1 L.1.2.2 ∗ (match b1 with
            | true => iprop(wrote c arg5 L.2.1 ∗ wrote c arg6 L.2.2)
            | false => iprop(owns (c : Thread nD τ) arg5 fullShare d4 ∗ owns (c : Thread nD τ) arg6 fullShare d5)) -∗ K ⟨⟩)) ⊢ wp frame (wpE (defs₀ (F := F)) Variants.none c none) E (cc4__stats3_kernel i arg1 harg1 arg2 harg2 arg3 harg3 arg4 harg4 arg5 harg5 arg6 harg6 arg7 harg7 arg8 harg8) K } := by
  cases b0 <;> cases b1 <;> first | exact absurd hb (by decide) | skip
  all_goals
    refine ⟨((?_, ?_, ?_), ?_, ?_), fun E K => ?run⟩
    case run =>
      unfold held4 ran4 wrote; dsimp only
      rw [owns_unread harg1, owns_unread harg2, owns_unread harg3, owns_unread harg4, owns_unread harg7, owns_unread harg8, owns_unread harg5, owns_unread harg6]
      simp only [cc4__stats3_kernel_eq_skeleton]; unfold cc4__stats3_kernel_skel
      iintro ⟨⟨H0, H1, H2, H3, HS0, HS1⟩, H4, H5, Hk⟩
      first | have h0 := of_decide_eq_true hc0 | have h0 := of_decide_eq_false hc0
      first | have h1 := of_decide_eq_true hc1 | have h1 := of_decide_eq_false hc1
      sl_exec (disch := first | exact h0 | exact h1)
      sl_step
      iapply Hk
      isplitl [H0 H1 H2 H3 HS0 HS1]
      · iframe H0 H1 H2
        isplitl [H3]; · iexists _; iexact H3
        isplitl [HS0]; · iexists _; iexact HS0
        iexists _; iexact HS1
      first
        | iframe H4 H5
        | (isplitl [H4]; · iexists _; iexact H4
           iexists _; iexact H5)
  all_goals exact []

theorem run4_eq (b0 b1 : Bool) (hc0 : decide (cond4_0 i) = b0) (hc1 : decide (cond4_1 i) = b1) (hb : (b0 && b1) = false) :
    (kernelRun4 c i arg1 harg1 arg2 harg2 arg3 harg3 arg4 harg4 arg5 harg5 arg6 harg6 arg7 harg7 arg8 harg8 x0 x1 x2 d3 xs0 xs1 d4 d5 b0 b1 hc0 hc1 hb).1 = (([⟨rB4, k4_pay3 x0 x1 x2⟩],
      (match b0 with | true => [⟨rS4, k4_pay4 x0 x1 x2 k4_pay1⟩, ⟨rS4, k4_pay1⟩] | false => [⟨rS4, k4_pay4 x0 x1 x2 xs0⟩]),
      (match b0 with | true => [⟨rS4, k4_pay5 x0 x1 x2 k4_pay2⟩, ⟨rS4, k4_pay2⟩] | false => [⟨rS4, k4_pay5 x0 x1 x2 xs1⟩])),
      (match b1 with | true => [⟨rS4, k4_pay4 x0 x1 x2 xs0⟩] | false => []), (match b1 with | true => [⟨rS4, k4_pay5 x0 x1 x2 xs1⟩] | false => [])) := by
  cases b0 <;> cases b1 <;> first | exact absurd hb (by decide) | skip
  all_goals (unfold kernelRun4; dsimp only; try sl_unfold_words)
  all_goals simp only [View.readAt_eq_ld, harg1.read_unread, harg2.read_unread, harg3.read_unread, harg7.read_unread, harg8.read_unread, View.ld_unit_zero (S := S2000x256) hz4, View.ld_unit_zero (S := S1x256) hz4, View.readCov_unit_zero (S := S1x256) _ hz4]

-- What each case leaves, named: the block sum, each accumulator at its column statistic, and at the last point the statistics buffers at the same.
theorem sound_kernel4 (b0 b1 : Bool) (hc0 : decide (cond4_0 i) = b0) (hc1 : decide (cond4_1 i) = b1) (hb : (b0 && b1) = false) (E : Set ℕ) (K : PUnit → sProp 𝕄) :
    iprop(held4 c arg1 arg2 arg3 arg4 arg7 arg8 x0 x1 x2 d3 xs0 xs1 ∗ owns (c : Thread nD τ) arg5 fullShare d4 ∗ owns (c : Thread nD τ) arg6 fullShare d5
      ∗ (held4 c arg1 arg2 arg3 arg4 arg7 arg8 x0 x1 x2 (k4_pay3 x0 x1 x2) (k4_pay4 x0 x1 x2 (bif b0 then k4_pay1 else xs0)) (k4_pay5 x0 x1 x2 (bif b0 then k4_pay2 else xs1)) ∗ (match b1 with
          | true => iprop(owns (c : Thread nD τ) arg5 fullShare (k4_pay4 x0 x1 x2 xs0) ∗ owns (c : Thread nD τ) arg6 fullShare (k4_pay5 x0 x1 x2 xs1))
          | false => iprop(owns (c : Thread nD τ) arg5 fullShare d4 ∗ owns (c : Thread nD τ) arg6 fullShare d5)) -∗ K ⟨⟩)) ⊢ wp frame (wpE (defs₀ (F := F)) Variants.none c none) E (cc4__stats3_kernel i arg1 harg1 arg2 harg2 arg3 harg3 arg4 harg4 arg5 harg5 arg6 harg6 arg7 harg7 arg8 harg8) K := by
  have R := (kernelRun4 c i arg1 harg1 arg2 harg2 arg3 harg3 arg4 harg4 arg5 harg5 arg6 harg6 arg7 harg7 arg8 harg8 x0 x1 x2 d3 xs0 xs1 d4 d5 b0 b1 hc0 hc1 hb).2 E K
  rw [run4_eq] at R
  iintro ⟨H, H4, H5, Hk⟩
  iapply R
  iframe H H4 H5
  unfold ran4 held4
  iintro ⟨⟨H0, H1, H2, H3, HS0, HS1⟩, H45⟩
  iapply Hk
  iframe H0 H1 H2
  cases b0 <;> cases b1 <;> first | exact absurd hb (by decide) | skip
  all_goals
    isplitl [H3 HS0 HS1]
    · isplitl [H3]; · iapply owns_of_wrote c arg4 hz4; iexact H3
      isplitl [HS0]; · iapply owns_of_wrote c arg7 hz4; iexact HS0
      iapply owns_of_wrote c arg8 hz4; iexact HS1
    first
      | iexact H45
      | (icases H45 with ⟨H4, H5⟩
         isplitl [H4]; · iapply owns_of_wrote c arg5 hz4; iexact H4
         iapply owns_of_wrote c arg6 hz4; iexact H5)

end Body

def accAt4 (c : Dev nD) : (n : ℕ) → n < cfg4.N → Vec F S1x256 .f32 × Vec F S1x256 .f32
  | 0, hn => (k4_pay4 (iblk4 V c 0 ⟨0, hn⟩ : Vec F S2000x256 .f32) (iblk4 V c 1 ⟨0, hn⟩ : Vec F S2000x256 .f32) (iblk4 V c 2 ⟨0, hn⟩ : Vec F S2000x256 .f32) k4_pay1,
      k4_pay5 (iblk4 V c 0 ⟨0, hn⟩ : Vec F S2000x256 .f32) (iblk4 V c 1 ⟨0, hn⟩ : Vec F S2000x256 .f32) (iblk4 V c 2 ⟨0, hn⟩ : Vec F S2000x256 .f32) k4_pay2)
  | n + 1, hn => (k4_pay4 (iblk4 V c 0 ⟨n + 1, hn⟩ : Vec F S2000x256 .f32) (iblk4 V c 1 ⟨n + 1, hn⟩ : Vec F S2000x256 .f32) (iblk4 V c 2 ⟨n + 1, hn⟩ : Vec F S2000x256 .f32) (accAt4 c n (Nat.lt_of_succ_lt hn)).1,
      k4_pay5 (iblk4 V c 0 ⟨n + 1, hn⟩ : Vec F S2000x256 .f32) (iblk4 V c 1 ⟨n + 1, hn⟩ : Vec F S2000x256 .f32) (iblk4 V c 2 ⟨n + 1, hn⟩ : Vec F S2000x256 .f32) (accAt4 c n (Nat.lt_of_succ_lt hn)).2)

def PhiS4 (c : Dev nD) : (n : ℕ) → n ≤ cfg4.N → sProp 𝕄
  | 0, _ => Pipeline.ΦA spec4 c
  | n + 1, hn => iprop(iprop(iprop(owns (c : Thread nD τ) scM4_0 fullShare (accAt4 V c n hn).1 ∗ owns (c : Thread nD τ) scM4_1 fullShare (accAt4 V c n hn).2) ∗ Pipeline.scopedRestBut (Ix := Unit) (Name := ℕ) (U := UR sig nD τ) (Lvl := ℕ) (Val := Elt F) spec4 c [cc4_scratch0, cc4_scratch1]) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (iblk4 V c 0 t : Vec F S2000x256 .f32) (iblk4 V c 1 t : Vec F S2000x256 .f32) (iblk4 V c 2 t : Vec F S2000x256 .f32)
    | ⟨4, _⟩ => (accAt4 V c t.val t.isLt).1
    | ⟨5, _⟩ => (accAt4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem q_eq4 (c : Dev nD) (w : Fin cfg4.W) : (dat4 V c).q w = fullShare := rfl

theorem owed_eq4 (c : Dev nD) (t : Fin (cfg4.N + 1)) : (dat4 V c).owed t = 0 := rfl

theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = iblk4 V c 2 t := rfl
theorem after4_3 (c : Dev nD) (t : Fin cfg4.N) : (dat4 V c).after 3 t = k4_pay3 (iblk4 V c 0 t : Vec F S2000x256 .f32) (iblk4 V c 1 t : Vec F S2000x256 .f32) (iblk4 V c 2 t : Vec F S2000x256 .f32) := rfl
theorem after4_4 (c : Dev nD) (t : Fin cfg4.N) : (dat4 V c).after 4 t = (accAt4 V c t.val t.isLt).1 := rfl
theorem after4_5 (c : Dev nD) (t : Fin cfg4.N) : (dat4 V c).after 5 t = (accAt4 V c t.val t.isLt).2 := rfl

theorem before4 (c : Dev nD) (t : Fin cfg4.N) : (∀ d, (dat4 V c).before 0 t d = iblk4 V c 0 t) ∧ (∀ d, (dat4 V c).before 1 t d = iblk4 V c 1 t)
    ∧ ∀ d, (dat4 V c).before 2 t d = iblk4 V c 2 t := by
  refine ⟨fun d => ?_, fun d => ?_, fun d => ?_⟩ <;>
    exact ((dat4 V c).before_in_eq_fetched _ rfl (fun _ => rfl) (fun _ _ _ => rfl) (fun _ => rfl) t d).trans rfl

theorem leaves4 (c : Dev nD) (w : Fin cfg4.W) (t : Fin cfg4.N) (h : cfg4.idle w (grid4.coords t) = false) :
    (dat4 V c).leavesExact w t = owns (c : Thread nD τ) ((cfg4.win w).stage (cfg4.slots t w)) fullShare ((dat4 V c).after w t) := by
  unfold Dat.leavesExact; rw [h]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t
    ∗ (dat4 V c).leavesExact 3 t ∗ (dat4 V c).leavesExact 4 t ∗ (dat4 V c).leavesExact 5 t)

set_option maxHeartbeats 4800000 in
-- The point's position picks the case; the invariant lends the accumulators and takes them back at this point's contents.
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [(before4 V c t).1, (before4 V c t).2.1, (before4 V c t).2.2]
  rw [show (dat4 V c).owesAt () t.succ = (dat4 V c).owesAt () t.castSucc from rfl,
    show (dat4 V c).Φ t.succ = PhiS4 V c (t.val + 1) t.isLt from rfl,
    show (dat4 V c).Φ t.castSucc = PhiS4 V c t.val (Nat.le_of_lt t.isLt) from rfl,
    leaves4 V c 0 t (liveAt4 0 t (.inl (by decide))), leaves4 V c 1 t (liveAt4 1 t (.inl (by decide))),
    leaves4 V c 2 t (liveAt4 2 t (.inl (by decide))), leaves4 V c 3 t (liveAt4 3 t (.inl (by decide))),
    after4_0, after4_1, after4_2, after4_3]
  obtain ⟨n, hn⟩ := t
  cases n with
  | zero =>
    have hc0 := (hcond4_0 ⟨0, hn⟩).mpr rfl
    have hc1 : ¬cond4_1 (grid4.coords ⟨0, hn⟩) := fun h => by have : (0 : ℕ) = 159 := (hcond4_1 ⟨0, hn⟩).mp h; omega
    rw [Dat.leavesExact_idle _ 4 _ (idleAt4 4 _ (by decide) hc1).1 (idleAt4 4 _ (by decide) hc1).2,
      Dat.leavesExact_idle _ 5 _ (idleAt4 5 _ (by decide) hc1).1 (idleAt4 5 _ (by decide) hc1).2]
    dsimp only [PhiS4, accAt4]
    rw [PhiA4_eq]
    iintro ⟨⟨⟨⟨⟨%s0, HS0⟩, ⟨%s1, HS1⟩⟩, HR⟩, Hg⟩, Ho, ⟨%d0, H0⟩, ⟨%d1, H1⟩, ⟨%d2, H2⟩, ⟨%d3, H3⟩, ⟨%d4, H4⟩, ⟨%d5, H5⟩⟩
    iapply (sound_kernel4 c (grid4.coords _) _ _ _ _ _ _ _ _ _ _ _ _ _ _ _ _ (iblk4 V c 0 _) (iblk4 V c 1 _) (iblk4 V c 2 _) _ _ _ _ _ true false (decide_eq_true hc0) (decide_eq_false hc1) rfl Set.univ _)
    unfold held4; simp only [cond_true]
    iframe H0 H1 H2 H3 HS0 HS1 H4 H5
    iintro ⟨⟨H0, H1, H2, H3, HS0, HS1⟩, H4, H5⟩
    iframe HS0 HS1 HR Hg Ho H0 H1 H2 H3
    isplitl [H4]; · iexists _; iexact H4
    iexists _; iexact H5
  | succ n =>
    have hc0 : ¬cond4_0 (grid4.coords ⟨n + 1, hn⟩) := fun h => by have : n + 1 = 0 := (hcond4_0 ⟨n + 1, hn⟩).mp h; omega
    dsimp only [PhiS4, accAt4]
    by_cases h1 : n + 1 = 159
    · have hc1 := (hcond4_1 ⟨n + 1, hn⟩).mpr h1
      rw [leaves4 V c 4 _ (liveAt4 4 _ (.inr hc1)), leaves4 V c 5 _ (liveAt4 5 _ (.inr hc1)), after4_4, after4_5]
      dsimp only [accAt4]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply (sound_kernel4 c (grid4.coords _) _ _ _ _ _ _ _ _ _ _ _ _ _ _ _ _ (iblk4 V c 0 _) (iblk4 V c 1 _) (iblk4 V c 2 _) _ _ _ _ _ false true (decide_eq_false hc0) (decide_eq_true hc1) rfl Set.univ _)
      unfold held4; simp only [cond_false]
      iframe H0 H1 H2 H3 HS0 HS1 H4 H5
      iintro ⟨⟨H0, H1, H2, H3, HS0, HS1⟩, H4, H5⟩
      iframe
    · have hc1 : ¬cond4_1 (grid4.coords ⟨n + 1, hn⟩) := fun h => h1 ((hcond4_1 ⟨n + 1, hn⟩).mp h)
      rw [Dat.leavesExact_idle _ 4 _ (idleAt4 4 _ (by decide) hc1).1 (idleAt4 4 _ (by decide) hc1).2,
      Dat.leavesExact_idle _ 5 _ (idleAt4 5 _ (by decide) hc1).1 (idleAt4 5 _ (by decide) hc1).2]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply (sound_kernel4 c (grid4.coords _) _ _ _ _ _ _ _ _ _ _ _ _ _ _ _ _ (iblk4 V c 0 _) (iblk4 V c 1 _) (iblk4 V c 2 _) _ _ _ _ _ false false (decide_eq_false hc0) (decide_eq_false hc1) rfl Set.univ _)
      unfold held4; simp only [cond_false]
      iframe H0 H1 H2 H3 HS0 HS1 H4 H5
      iintro ⟨⟨H0, H1, H2, H3, HS0, HS1⟩, H4, H5⟩
      iframe HS0 HS1 HR Hg Ho H0 H1 H2 H3
      isplitl [H4]; · iexists _; iexact H4
      iexists _; iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 :=
  Idealize.SL.BI.Entails.refl _

-- At any position the invariant entails its initial form: the accumulators' contents are forgotten.
theorem PhiS4_out (c : Dev nD) : ∀ n h, PhiS4 V c n h ⊢ (Pipeline.ΦA spec4 c : sProp 𝕄)
  | 0, _ => Idealize.SL.BI.Entails.refl _
  | n + 1, _ => by
    rw [PhiA4_eq]; dsimp only [PhiS4]
    iintro ⟨⟨⟨HS0, HS1⟩, HR⟩, Hg⟩
    iframe HR Hg
    isplitl [HS0]; · iexists _; iexact HS0
    iexists _; iexact HS1

theorem hout4 (c : Dev nD) : (dat4 V c).Φ (Fin.last cfg4.N) ⊢ (Pipeline.ΦA spec4 c : sProp 𝕄) :=
  PhiS4_out V c (Fin.last cfg4.N).val (Nat.le_of_lt_succ (Fin.last cfg4.N).isLt)

end Cert.KernelIdeal.Hand

end
-- ==== Proof.KI.R5.lean ====
import proofs.«413128_j44495861187321_1_alg».proof.Proof.Gen.KernelIdeal.Launch
import proofs.«413128_j44495861187321_1_alg».proof.Proof.Gen.KernelIdeal.Skeleton
import proofs.«413128_j44495861187321_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_big : Rect S2000x256 := Rect.unit (s := S2000x256) ![0, 0] S2000x256.size inb_S2000x256_S2000x256_0_0
abbrev r5_row : Rect S1x256 := Rect.unit (s := S1x256) ![0, 0] S1x256.size inb_S1x256_S1x256_0_0

def out5_6 (x0 x1 : Vec F S2000x256 .f32) (x2 x3 x4 x5 : Vec F S1x256 .f32) : Vec F S2000x256 .f32 :=
  View.canon [⟨r5_big, k5_pay1 (View.ld x1 r5_big) (View.ld x3 r5_row) (View.ld x4 r5_row) (View.ld x2 r5_row) (View.ld x5 r5_row) (View.ld x0 r5_big)⟩]

theorem sound_kernel5 (E : Set ℕ) (i : grid5.Coords) {a0 a1 a6 : Memref sig .tc .vmem S2000x256 .f32} {a2 a3 a4 a5 : Memref sig .tc .vmem S1x256 .f32}
    (h0 : a0.IsWhole) (h1 : a1.IsWhole) (h2 : a2.IsWhole) (h3 : a3.IsWhole) (h4 : a4.IsWhole) (h5 : a5.IsWhole) (h6 : a6.IsWhole)
    (x0 x1 : Vec F S2000x256 .f32) (x2 x3 x4 x5 : Vec F S1x256 .f32) (K : PUnit → sProp 𝕄) :
    iprop(owns c a0 fullShare x0 ∗ owns c a1 fullShare x1 ∗ owns c a2 fullShare x2 ∗ owns c a3 fullShare x3 ∗ owns c a4 fullShare x4 ∗ owns c a5 fullShare x5
        ∗ (∃ d, owns c a6 fullShare d)
        ∗ (iprop(owns c a0 fullShare x0 ∗ owns c a1 fullShare x1 ∗ owns c a2 fullShare x2 ∗ owns c a3 fullShare x3 ∗ owns c a4 fullShare x4 ∗ owns c a5 fullShare x5
            ∗ owns c a6 fullShare (out5_6 x0 x1 x2 x3 x4 x5)) -∗ K ⟨⟩))
      ⊢ wp frame (wpE (defs₀ (F := F)) Variants.none c none) E (cc5__bn_silu_residual_kernel i a0 h0 a1 h1 a2 h2 a3 h3 a4 h4 a5 h5 a6 h6) K := by
  simp only [cc5__bn_silu_residual_kernel_eq_skeleton]; unfold cc5__bn_silu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  iexists _; isplitr; swap; · iexact H6
  ipureintro; exact View.read_writes_eq_canon _ _ _ (View.cover_of_tiled _ S2000x256.size (by rfl))

def dat5 : Dat τ (Elt F) Unit ℕ (UR sig nD τ) ℕ cfg5 c where
  A w := V c (Pipeline.arrRef spec5 w)
  after w t := match w with
    | ⟨6, _⟩ => out5_6 (iblk5 V c 0 t) (iblk5 V c 1 t) (iblk5 V c 2 t) (iblk5 V c 3 t) (iblk5 V c 4 t) (iblk5 V c 5 t)
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
  Φ _ := Pipeline.ΦA spec5 c
  q _ := fullShare
  owed _ := 0

theorem A_eq5 (w : Fin cfg5.W) : (dat5 V c).A w = V c (Pipeline.arrRef spec5 w) := rfl

theorem q_eq5 (w : Fin cfg5.W) : (dat5 V c).q w = fullShare := rfl

theorem owed_eq5 (t : Fin (cfg5.N + 1)) : (dat5 V c).owed t = 0 := rfl

theorem after5_6 (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5 (t : Fin cfg5.N) :
    (∀ d, (dat5 V c).before 0 t d = iblk5 V c 0 t) ∧ (∀ d, (dat5 V c).before 1 t d = iblk5 V c 1 t) ∧ (∀ d, (dat5 V c).before 2 t d = iblk5 V c 2 t)
    ∧ (∀ d, (dat5 V c).before 3 t d = iblk5 V c 3 t) ∧ (∀ d, (dat5 V c).before 4 t d = iblk5 V c 4 t) ∧ (∀ d, (dat5 V c).before 5 t d = iblk5 V c 5 t) := by
  refine ⟨?_, ?_, ?_, ?_, ?_, ?_⟩ <;> exact (dat5 V c).before_in_eq_fetched _ rfl (fun _ => rfl) (fun _ _ _ => rfl) (fun _ => rfl) t

theorem body_obligation5 : BodyObligation (dat5 (F := F) V c) (defs₀ (F := F)) Variants.none () Set.univ := fun t => by
  rw [bigSep_W5, bigSep_W5]
  show iprop(_ ∗ _ ∗ _) ⊢ wp frame _ _ (bodyAt5 t) _
  dsimp only
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _)
  iframe H0 H1 H2 H3 H4 H5
  isplitl [H6]; · iexists _; iexact H6
  iintro ⟨H0, H1, H2, H3, H4, H5, H6⟩
  obtain ⟨b0, b1, b2, b3, b4, b5⟩ := before5 V c t
  rw [b0, b1, b2, b3, b4, b5, show (dat5 V c).owesAt () t.succ = (dat5 V c).owesAt () t.castSucc from rfl]
  simp only [dat5]
  iframe

theorem hin5 : (Pipeline.ΦA spec5 c : sProp 𝕄) ⊢ (dat5 V c).Φ 0 := BIBase.Entails.rfl

theorem hout5 : (dat5 V c).Φ (Fin.last cfg5.N) ⊢ (Pipeline.ΦA spec5 c : sProp 𝕄) := BIBase.Entails.rfl

end Cert.KernelIdeal.Hand

end
-- ==== Proof.KI.Fold.lean ====
import proofs.«413128_j44495861187321_1_alg».proof.Proof.KI.R0
import proofs.«413128_j44495861187321_1_alg».proof.Proof.KI.R1
import proofs.«413128_j44495861187321_1_alg».proof.Proof.KI.R2
import proofs.«413128_j44495861187321_1_alg».proof.Proof.KI.R3
import proofs.«413128_j44495861187321_1_alg».proof.Proof.KI.R4
import proofs.«413128_j44495861187321_1_alg».proof.Proof.KI.R5

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b
abbrev W0 : Dev nD → Valuation τ sig (Elt F) := fun c b => m (c, b)
abbrev W1 : Dev nD → Valuation τ sig (Elt F) := fun c => StableHlo.after hostOps0 (W0 m c)
def W2 (c : Dev nD) : Valuation τ sig (Elt F) :=
  Pipeline.withArrays spec0 c (W1 m c) fun w => (dat0 (atTc (W1 m)) c).arrAt w cfg0.N
abbrev W3 : Dev nD → Valuation τ sig (Elt F) := fun c => StableHlo.after hostOps1 (W2 m c)
def W4 (c : Dev nD) : Valuation τ sig (Elt F) :=
  Pipeline.withArrays spec1 c (W3 m c) fun w => (dat1 (atTc (W3 m)) c).arrAt w cfg1.N
abbrev W5 : Dev nD → Valuation τ sig (Elt F) := fun c => StableHlo.after hostOps2 (W4 m c)
abbrev W6 : Dev nD → Valuation τ sig (Elt F) := fun c => StableHlo.after hostOps2_1 (W5 m c)
def W7 (c : Dev nD) : Valuation τ sig (Elt F) :=
  Pipeline.withArrays spec2 c (W6 m c) fun w => (dat2 (atTc (W6 m)) c).arrAt w cfg2.N
abbrev W8 : Dev nD → Valuation τ sig (Elt F) := fun c => StableHlo.after hostOps3 (W7 m c)
def W9 (c : Dev nD) : Valuation τ sig (Elt F) :=
  Pipeline.withArrays spec3 c (W8 m c) fun w => (dat3 (atTc (W8 m)) c).arrAt w cfg3.N
abbrev W10 : Dev nD → Valuation τ sig (Elt F) := fun c => StableHlo.after hostOps4 (W9 m c)
abbrev W11 : Dev nD → Valuation τ sig (Elt F) := fun c => StableHlo.after hostOps4_1 (W10 m c)
def W12 (c : Dev nD) : Valuation τ sig (Elt F) :=
  Pipeline.withArrays spec4 c (W11 m c) fun w => (dat4 (atTc (W11 m)) c).arrAt w cfg4.N
abbrev W13 : Dev nD → Valuation τ sig (Elt F) := fun c => StableHlo.after hostOps5 (W12 m c)
def W14 (c : Dev nD) : Valuation τ sig (Elt F) :=
  Pipeline.withArrays spec5 c (W13 m c) fun w => (dat5 (atTc (W13 m)) c).arrAt w cfg5.N

theorem W2_arr (c : Dev nD) (w : Fin cfg0.W) :
    W2 m c (Proc.devRef .tc (Pipeline.arrRef spec0 w)) = (dat0 (atTc (W1 m)) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb
theorem W4_arr (c : Dev nD) (w : Fin cfg1.W) :
    W4 m c (Proc.devRef .tc (Pipeline.arrRef spec1 w)) = (dat1 (atTc (W3 m)) c).arrAt w cfg1.N :=
  Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) :=
  Pipeline.withArrays_of_ne spec1 c _ _ b hb
theorem W7_arr (c : Dev nD) (w : Fin cfg2.W) :
    W7 m c (Proc.devRef .tc (Pipeline.arrRef spec2 w)) = (dat2 (atTc (W6 m)) c).arrAt w cfg2.N :=
  Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) :=
  Pipeline.withArrays_of_ne spec2 c _ _ b hb
theorem W9_arr (c : Dev nD) (w : Fin cfg3.W) :
    W9 m c (Proc.devRef .tc (Pipeline.arrRef spec3 w)) = (dat3 (atTc (W8 m)) c).arrAt w cfg3.N :=
  Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) :=
  Pipeline.withArrays_of_ne spec3 c _ _ b hb
theorem W12_arr (c : Dev nD) (w : Fin cfg4.W) :
    W12 m c (Proc.devRef .tc (Pipeline.arrRef spec4 w)) = (dat4 (atTc (W11 m)) c).arrAt w cfg4.N :=
  Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) :=
  Pipeline.withArrays_of_ne spec4 c _ _ b hb
theorem W14_arr (c : Dev nD) (w : Fin cfg5.W) :
    W14 m c (Proc.devRef .tc (Pipeline.arrRef spec5 w)) = (dat5 (atTc (W13 m)) c).arrAt w cfg5.N :=
  Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) :=
  Pipeline.withArrays_of_ne spec5 c _ _ b hb

end Cert.KernelIdeal.Hand

end
-- ==== Proof.KI.Run.lean ====
import proofs.«413128_j44495861187321_1_alg».proof.Proof.KI.Fold
import proofs.«413128_j44495861187321_1_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 6) → (c : Dev nD) → Dat τ (Elt F) Unit ℕ (UR sig nD τ) ℕ (Pipeline.pin (pcfgs (F := F)) adm p) c
  | ⟨0, _⟩ => dat0 (atTc (W1 m))
  | ⟨1, _⟩ => dat1 (atTc (W3 m))
  | ⟨2, _⟩ => dat2 (atTc (W6 m))
  | ⟨3, _⟩ => dat3 (atTc (W8 m))
  | ⟨4, _⟩ => dat4 (atTc (W11 m))
  | ⟨5, _⟩ => dat5 (atTc (W13 m))
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m c) ∗ ∃ r, prngReg c r)
abbrev St (V : Dev nD → Valuation τ sig (Elt F)) (c : Dev nD) : sProp 𝕄 :=
  iprop(StableHlo.held (c : Thread nD τ) (Pipeline.ucRefs τ sig) (V c) ∗ R c)

/-- One statement for all six calls: only the call's number `p` and its entry contents `V` vary. -/
def regOf (p : Fin 6) (la : Pipeline.LaunchFacts (nD := nD) (τ := τ) cfgs p) (V V' : Dev nD → Valuation τ sig (Elt F))
    (hV' : ∀ c, V' c = Pipeline.withArrays (cfgs p).spec c (V c) fun w => (pdats m p c).arrAt w (cfgs p).N)
    (hbody : ∀ c, BodyObligation (pdats m p c) defs₀ 𝒱₀ () Set.univ)
    (howed : ∀ c t, (pdats m p c).owed t = 0) (hrec : ∀ c x, x ∈ (pdats m p c).recorded 0) (hq : ∀ c w, (pdats m p c).q w = fullShare)
    (hA : ∀ c w, (pdats m p c).A w = atTc V c (Pipeline.arrRef (cfgs p).spec w))
    (hΦ₀ : ∀ c, (Pipeline.ΦA (cfgs p).spec c : sProp 𝕄) ⊢ (pdats m p c).Φ 0)
    (hΦₙ : ∀ c, (pdats m p c).Φ (Fin.last _) ⊢ (Pipeline.ΦA (cfgs p).spec c : sProp 𝕄)) :
    Pipeline.RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p howed
  pre := St V
  post := St V'
  X c := iprop(∃ r, prngReg c r)
  Y c := iprop(∃ r, prngReg c r)
  Z c := Pipeline.unscopedRest (cfgs p).spec c (atTc V c)
  hentry c := by
    rw [Pipeline.ownSems0_none]
    have hsplit := Pipeline.arrays_of_unscopedBufs (p := p) (pcfgs (F := F)) adm (pdats m) la.win la.arr_whole c
      ((pdats m p c).share_full (hq c)) (atTc V c) (hA c)
    rw [Pipeline.unscopedBufs_held] at hsplit
    iintro ⟨⟨Hub, Hp, %W, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun _ _ => Or.inl (hrec c _)
      rw [howed c 0]; iexact HO
    isplitl [Hp] <;> iassumption
  hin c := by
    refine .trans ?_ (hΦ₀ c)
    unfold Pipeline.ΦA
    iintro ⟨Hp, -, Hr⟩
    isplitl [Hr] <;> iassumption
  hout c := by
    rw [Pipeline.ownSems0_none]
    refine (hΦₙ c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm la.win la.arr_whole c (pdats m) ((pdats m p c).share_full (hq c))
      (atTc V c) (atTc V' c) ((pdats m p c).arrAt · (cfgs p).N)
      (fun w => ((congrFun (hV' c) _).trans (Pipeline.withArrays_arr _ la.win.arr_inj c _ _ w)).symm)
      (fun b hb => (congrFun (hV' c) _).trans (Pipeline.withArrays_of_ne _ c _ _ b fun w e => hb (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W
    rw [howed c _]; iexact HO

abbrev segs : List (Pipeline.Seg (pcfgs (F := F)) adm (pdats m) () defs₀ 𝒱₀ L lv) :=
  [ .host (hseg hostOps0 hostOps0_sub hostOps0_fresh (W0 m)),
    .region (regOf m 0 launch0 (W1 m) (W2 m) (fun _ => rfl) (body_obligation0 _) (owed_eq0 _) (fun _ _ => trivial) (q_eq0 _) (A_eq0 _) (hin0 _) (hout0 _)),
    .host (hseg hostOps1 hostOps1_sub hostOps1_fresh (W2 m)),
    .region (regOf m 1 launch1 (W3 m) (W4 m) (fun _ => rfl) (body_obligation1 _) (owed_eq1 _) (fun _ _ => trivial) (q_eq1 _) (A_eq1 _) (hin1 _) (hout1 _)),
    .host (hseg hostOps2 hostOps2_sub hostOps2_fresh (W4 m)),
    .host (hseg hostOps2_1 hostOps2_1_sub hostOps2_1_fresh (W5 m)),
    .region (regOf m 2 launch2 (W6 m) (W7 m) (fun _ => rfl) (body_obligation2 _) (owed_eq2 _) (fun _ _ => trivial) (q_eq2 _) (A_eq2 _) (hin2 _) (hout2 _)),
    .host (hseg hostOps3 hostOps3_sub hostOps3_fresh (W7 m)),
    .region (regOf m 3 launch3 (W8 m) (W9 m) (fun _ => rfl) (body_obligation3 _) (owed_eq3 _) (fun _ _ => trivial) (q_eq3 _) (A_eq3 _) (hin3 _) (hout3 _)),
    .host (hseg hostOps4 hostOps4_sub hostOps4_fresh (W9 m)),
    .host (hseg hostOps4_1 hostOps4_1_sub hostOps4_1_fresh (W10 m)),
    .region (regOf m 4 launch4 (W11 m) (W12 m) (fun _ => rfl) (body_obligation4 _) (owed_eq4 _) (fun _ _ => trivial) (q_eq4 _) (A_eq4 _) (hin4 _) (hout4 _)),
    .host (hseg hostOps5 hostOps5_sub hostOps5_fresh (W12 m)),
    .region (regOf m 5 launch5 (W13 m) (W14 m) (fun _ => rfl) (body_obligation5 _) (owed_eq5 _) (fun _ _ => trivial) (q_eq5 _) (A_eq5 _) (hin5 _) (hout5 _)) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by
      rewrite [main_chain c, Pipeline.Seg.run_eq_chain]
      exact .rfl)
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]; refine .trans ?_ fupd_intro; exact BI.sep_emp.2)
    (T₀ := St (W0 m)) (Tₙ := Tₙ m)
    (hch := by repeat' first | exact fun _ => .rfl | exact fun _ => BI.sep_assoc' | refine ⟨?_, ?_⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h => h)

end Cert.KernelIdeal.Hand

end
-- ==== Proof.KI.Frame.lean ====
import proofs.«413128_j44495861187321_1_alg».proof.Proof.KI.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem keep {cfg : Pipeline.Cfg sig Λ₀} {c : Dev nD} (dat : Pipeline.Dat τ (Elt F) Unit ℕ (UR sig nD τ) ℕ cfg c)
    {V V' : Valuation τ sig (Elt F)} (hA : ∀ w, dat.A w = V (Proc.devRef .tc (Pipeline.arrRef cfg.spec w)))
    (harr : ∀ w, V' (Proc.devRef .tc (Pipeline.arrRef cfg.spec w)) = dat.arrAt w cfg.N)
    (hne : ∀ b, (∀ w, Pipeline.arrRef cfg.spec w ≠ b) → V' (Proc.devRef .tc b) = V (Proc.devRef .tc b))
    {r : Ref sig .tc} (h : ∀ w, Pipeline.arrRef cfg.spec w = r → (cfg.win w).isOut = false) :
    V' (Proc.devRef .tc r) = V (Proc.devRef .tc r) := by
  by_cases e : ∃ w, Pipeline.arrRef cfg.spec w = r
  · obtain ⟨w, rfl⟩ := e
    exact (harr w).trans ((dat.arrAt_in w (h w rfl) _).trans (hA w))
  · exact hne r fun w e' => e ⟨w, e'⟩

abbrev Kept (r : Ref sig .tc) : Prop :=
  ¬ (Proc.devRef .tc r : DevRef τ sig).isScoped ∧
  (r ∉ hostOps0_W ∧ r ∉ hostOps1_W ∧ r ∉ hostOps2_W ∧ r ∉ hostOps2_1_W ∧ r ∉ hostOps3_W ∧ r ∉ hostOps4_W ∧ r ∉ hostOps4_1_W ∧ r ∉ hostOps5_W) ∧
  ∀ (p : Fin 6) w, Pipeline.arrRef (cfgs p).spec w = r → ((cfgs p).win w).isOut = false

-- Every step from one boundary to the next fixes the value at `r`, so each boundary's value there is the launch value.
theorem kept (c : Dev nD) {r : Ref sig .tc} (h : Kept r) :
    W7 m c (Proc.devRef .tc r) = m ((c : Thread nD τ).loc r) ∧ W12 m c (Proc.devRef .tc r) = m ((c : Thread nD τ).loc r)
      ∧ W14 m c (Proc.devRef .tc r) = m ((c : Thread nD τ).loc r) := by
  obtain ⟨-, ⟨a0, a1, a2, a3, a4, a5, a6, a7⟩, b⟩ := h
  have e7 := (keep (dat2 (atTc (W6 m)) c) (A_eq2 _ c) (W7_arr m c) (W7_of_ne m c) (b 2)).trans <| (StableHlo.after_of_writes_sub hostOps2_1 _ hostOps2_1_writes a3).trans <|
    (StableHlo.after_of_writes_sub hostOps2 _ hostOps2_writes a2).trans <| (keep (dat1 (atTc (W3 m)) c) (A_eq1 _ c) (W4_arr m c) (W4_of_ne m c) (b 1)).trans <|
    (StableHlo.after_of_writes_sub hostOps1 _ hostOps1_writes a1).trans <| (keep (dat0 (atTc (W1 m)) c) (A_eq0 _ c) (W2_arr m c) (W2_of_ne m c) (b 0)).trans <|
    StableHlo.after_of_writes_sub hostOps0 _ hostOps0_writes a0
  have e12 := (keep (dat4 (atTc (W11 m)) c) (A_eq4 _ c) (W12_arr m c) (W12_of_ne m c) (b 4)).trans <| (StableHlo.after_of_writes_sub hostOps4_1 _ hostOps4_1_writes a6).trans <|
    (StableHlo.after_of_writes_sub hostOps4 _ hostOps4_writes a5).trans <| (keep (dat3 (atTc (W8 m)) c) (A_eq3 _ c) (W9_arr m c) (W9_of_ne m c) (b 3)).trans <|
    (StableHlo.after_of_writes_sub hostOps3 _ hostOps3_writes a4).trans e7
  exact ⟨e7, e12, (keep (dat5 (atTc (W13 m)) c) (A_eq5 _ c) (W14_arr m c) (W14_of_ne m c) (b 5)).trans <| (StableHlo.after_of_writes_sub hostOps5 _ hostOps5_writes a7).trans e12⟩

theorem W7_main_arg0 (c : Dev nD) : W7 m c (Proc.devRef .tc main_arg0) = m ((c : Thread nD τ).loc main_arg0) := (kept m c (by decide)).1
theorem W7_main_arg13 (c : Dev nD) : W7 m c (Proc.devRef .tc main_arg13) = m ((c : Thread nD τ).loc main_arg13) := (kept m c (by decide)).1
theorem W7_main_arg14 (c : Dev nD) : W7 m c (Proc.devRef .tc main_arg14) = m ((c : Thread nD τ).loc main_arg14) := (kept m c (by decide)).1
theorem W12_main_arg2 (c : Dev nD) : W12 m c (Proc.devRef .tc main_arg2) = m ((c : Thread nD τ).loc main_arg2) := (kept m c (by decide)).2.1
theorem W12_main_arg15 (c : Dev nD) : W12 m c (Proc.devRef .tc main_arg15) = m ((c : Thread nD τ).loc main_arg15) := (kept m c (by decide)).2.1
theorem W12_main_arg16 (c : Dev nD) : W12 m c (Proc.devRef .tc main_arg16) = m ((c : Thread nD τ).loc main_arg16) := (kept m c (by decide)).2.1
theorem W14_main_arg0 (c : Dev nD) : W14 m c (Proc.devRef .tc main_arg0) = m ((c : Thread nD τ).loc main_arg0) := (kept m c (by decide)).2.2
theorem W14_main_arg1 (c : Dev nD) : W14 m c (Proc.devRef .tc main_arg1) = m ((c : Thread nD τ).loc main_arg1) := (kept m c (by decide)).2.2
theorem W14_main_arg2 (c : Dev nD) : W14 m c (Proc.devRef .tc main_arg2) = m ((c : Thread nD τ).loc main_arg2) := (kept m c (by decide)).2.2
theorem W14_main_arg3 (c : Dev nD) : W14 m c (Proc.devRef .tc main_arg3) = m ((c : Thread nD τ).loc main_arg3) := (kept m c (by decide)).2.2
theorem W14_main_arg4 (c : Dev nD) : W14 m c (Proc.devRef .tc main_arg4) = m ((c : Thread nD τ).loc main_arg4) := (kept m c (by decide)).2.2
theorem W14_main_arg5 (c : Dev nD) : W14 m c (Proc.devRef .tc main_arg5) = m ((c : Thread nD τ).loc main_arg5) := (kept m c (by decide)).2.2
theorem W14_main_arg6 (c : Dev nD) : W14 m c (Proc.devRef .tc main_arg6) = m ((c : Thread nD τ).loc main_arg6) := (kept m c (by decide)).2.2
theorem W14_main_arg7 (c : Dev nD) : W14 m c (Proc.devRef .tc main_arg7) = m ((c : Thread nD τ).loc main_arg7) := (kept m c (by decide)).2.2
theorem W14_main_arg8 (c : Dev nD) : W14 m c (Proc.devRef .tc main_arg8) = m ((c : Thread nD τ).loc main_arg8) := (kept m c (by decide)).2.2
theorem W14_main_arg9 (c : Dev nD) : W14 m c (Proc.devRef .tc main_arg9) = m ((c : Thread nD τ).loc main_arg9) := (kept m c (by decide)).2.2
theorem W14_main_arg10 (c : Dev nD) : W14 m c (Proc.devRef .tc main_arg10) = m ((c : Thread nD τ).loc main_arg10) := (kept m c (by decide)).2.2
theorem W14_main_arg11 (c : Dev nD) : W14 m c (Proc.devRef .tc main_arg11) = m ((c : Thread nD τ).loc main_arg11) := (kept m c (by decide)).2.2
theorem W14_main_arg12 (c : Dev nD) : W14 m c (Proc.devRef .tc main_arg12) = m ((c : Thread nD τ).loc main_arg12) := (kept m c (by decide)).2.2
theorem W14_main_arg13 (c : Dev nD) : W14 m c (Proc.devRef .tc main_arg13) = m ((c : Thread nD τ).loc main_arg13) := (kept m c (by decide)).2.2
theorem W14_main_arg14 (c : Dev nD) : W14 m c (Proc.devRef .tc main_arg14) = m ((c : Thread nD τ).loc main_arg14) := (kept m c (by decide)).2.2
theorem W14_main_arg15 (c : Dev nD) : W14 m c (Proc.devRef .tc main_arg15) = m ((c : Thread nD τ).loc main_arg15) := (kept m c (by decide)).2.2
theorem W14_main_arg16 (c : Dev nD) : W14 m c (Proc.devRef .tc main_arg16) = m ((c : Thread nD τ).loc main_arg16) := (kept m c (by decide)).2.2

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => by
    have k {b : Ref sig .tc} (hb : Kept b) := (h c _ (mem_uc b hb.1)).trans (kept m c hb).2.2
    constructorm* _ ∧ _ <;> exact k (by decide))
    (run_all m ρ)

end Cert.KernelIdeal.Hand

end
-- ==== Proof.KI.PreFacts.lean ====
import proofs.«413128_j44495861187321_1_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal

noncomputable section

namespace Cert.Hand.Pre

open Idealize.ShloMosaic Idealize.ShloMosaic.ValueIdx Cert.Pre_finite_inputs

instance : Subsingleton S_.Idx := ⟨fun a b => funext fun d => d.elim0⟩

abbrev AllReal {s : Shape} (x : FVec Ideal s .f32) : Prop := ∀ i, ∃ r : ℝ, x i = (r : EReal)

variable {s : Shape} {axes : List (Fin s.rank)} {rd : s.ReducesTo axes S_} {h0 : 0 < S_.numel} {init : IVec S_ 1}

-- An extended real whose max(x, −x) lies below some bound is neither infinity, so it is a real number.
theorem allReal {x y : FVec Ideal s .f32}
    (h : Host.reduce IntOp.andi (cmpf .olt (Host.absf x) y) init rd h0 ix0 = 1#1) : AllReal x := by
  intro i
  have hi : BitVec.ofBool (decide (max (x i : EReal) (-(x i : EReal)) < (y i : EReal))) = 1#1 :=
    Host.reduce_andi_all _ _ rd h0 ix0 h i
  rw [StableHlo.Predicate.ofBool_eq_one_iff, decide_eq_true_eq, max_lt_iff] at hi
  exact ⟨EReal.toReal (x i),
    (EReal.coe_toReal (ne_top_of_lt hi.1) fun hb => ne_top_of_lt hi.2 (EReal.neg_eq_top_iff.2 hb)).symm⟩

-- Every entry passes lo ≤ a < hi, read as signed words.
theorem between {a lo hi : IVec s 32}
    (h : Host.reduce IntOp.andi (andi (cmpi .sge a lo) (cmpi .slt a hi)) init rd h0 ix0 = 1#1) (i : s.Idx) :
    (lo i).toInt ≤ (a i).toInt ∧ (a i).toInt < (hi i).toInt :=
  (IntOp.andi_eq_one.1 (Host.reduce_andi_all _ _ rd h0 ix0 h i)).imp IntOp.cmpi_sge.1 IntOp.cmpi_slt.1

variable [Facts]

theorem facts_of_pre {a0 : FVec Ideal S50000x256 .f32} {a1 : IVec S2x320000 32} {a2 : FVec Ideal S320000x256 .f32}
    {a3 a5 a7 a9 a11 : FVec Ideal S256x256 .f32} {a4 a6 a8 a10 a12 a13 a14 a15 a16 : FVec Ideal S256 .f32}
    (h : fn (F := Ideal) a0 a1 a2 a3 a4 a5 a6 a7 a8 a9 a10 a11 a12 a13 a14 a15 a16 = fun _ => 1#1) :
    AllReal a0 ∧ AllReal a2 ∧ AllReal a3 ∧ AllReal a4 ∧ AllReal a5 ∧ AllReal a6 ∧ AllReal a7 ∧ AllReal a8 ∧ AllReal a9
      ∧ AllReal a10 ∧ AllReal a11 ∧ AllReal a12 ∧ AllReal a13 ∧ AllReal a14 ∧ AllReal a15 ∧ AllReal a16
      ∧ ∀ (a : Fin 2) (e : Fin 320000), 0 ≤ (a1 (ix2 a e)).toInt ∧ (a1 (ix2 a e)).toInt < 50000 := by
  have h := congrFun h ix0
  dsimp only [fn, fn_part1, fn_part2, fn_part3, fn_part4, fn_part5] at h
  obtain ⟨h, h1⟩ := IntOp.andi_eq_one.1 h
  obtain ⟨h, h16⟩ := IntOp.andi_eq_one.1 h
  obtain ⟨h, h15⟩ := IntOp.andi_eq_one.1 h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h2⟩ := IntOp.andi_eq_one.1 h
  exact ⟨allReal h0, allReal h2, allReal h3, allReal h4, allReal h5, allReal h6, allReal h7, allReal h8, allReal h9,
    allReal h10, allReal h11, allReal h12, allReal h13, allReal h14, allReal h15, allReal h16,
    fun a e => between h1 (ix2 a e)⟩

end Cert.Hand.Pre

end
-- ==== Proof.KI.V0.lean ====
import proofs.«413128_j44495861187321_1_alg».proof.Proof.KI.R0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Val0
open Cert.KernelIdeal Cert.KernelIdeal.Gen
open Idealize.ShloMosaic Idealize.ShloMosaic.TcCoe Idealize.SL.Sem
open Idealize.ShloMosaic.Pipeline (Dat)
open Idealize.ShloMosaic.ValueIdx

abbrev nodeDot := dot_S1000x256_S256x1024_S1000x1024_1_0_0_1_n_n

theorem lhs0_0 (i : S1000x1024.Idx) (q : nodeDot.contr.Idx) : (nodeDot.lhsIdx i q 0).val = (i 0).val := by
  unfold DotDims.lhsIdx
  rw [dif_neg (show ¬(0 : Fin S1000x256.rank) ∈ nodeDot.lhsBatch by decide), dif_pos (show (0 : Fin S1000x256.rank) ∈ nodeDot.lhsNonContracting by decide)]
  rfl

theorem rhs0_1 (i : S1000x1024.Idx) (q : nodeDot.contr.Idx) : (nodeDot.rhsIdx i q 1).val = (i 1).val := by
  unfold DotDims.rhsIdx
  rw [dif_neg (show ¬(1 : Fin S256x1024.rank) ∈ nodeDot.rhsBatch by decide), dif_pos (show (1 : Fin S256x1024.rank) ∈ nodeDot.rhsNonContracting by decide)]
  rfl

/-- The product tile at row `r`, column `q`: on the ideal numbers the narrowing is the identity and the accumulator starts at zero. -/
theorem pay1_apply (x0 : Vec Ideal S1000x256 .f32) (x1 : Vec Ideal S256x1024 .f32) (x2 : Vec Ideal S1x1024 .f32) (r : Fin 1000) (q : Fin 1024) :
    k0_pay1 (F := Ideal) x0 x1 x2 (ix2 r q) = (∑ k : Fin 256, x0 (ix2 r k) * x1 (ix2 k q)) + x2 (ix2 (0 : Fin 1) q) := by
  unfold k0_pay1
  refine (addf_apply _ _ _).trans (congrArg₂ (· + ·) ?_ ?_)
  · refine (Ideal.matmul_constant_zero_apply nodeDot none _ _ (ix2 r q)).trans ?_
    rw [← Equiv.sum_comp (contrEquiv1 nodeDot 256 rfl rfl).symm]
    refine Finset.sum_congr rfl fun k _ => ?_
    have hk := contrEquiv1_symm_val nodeDot 256 rfl rfl k
    have el : nodeDot.lhsIdx (ix2 r q) ((contrEquiv1 nodeDot 256 rfl rfl).symm k) = ix2 r k :=
      Shape.idx_ext₂ (lhs0_0 _ _) ((nodeDot.lhsIdx_val_of_single rfl _ _).trans hk)
    have er : nodeDot.rhsIdx (ix2 r q) ((contrEquiv1 nodeDot 256 rfl rfl).symm k) = ix2 k q :=
      Shape.idx_ext₂ ((nodeDot.rhsIdx_val_of_single rfl _ _).trans hk) (rhs0_1 _ _)
    rw [el, er, shapeCast_self]
    rfl
  · rw [shapeCast_self]
    exact broadcastTo_1b_ab_apply x2 _ r q

abbrev col3 (j : Fin 256) : Fin 1024 := ⟨j.val, by omega⟩
abbrev col4 (j : Fin 256) : Fin 1024 := ⟨256 + j.val, by omega⟩
abbrev col5 (j : Fin 256) : Fin 1024 := ⟨512 + j.val, by omega⟩
abbrev col6 (j : Fin 256) : Fin 1024 := ⟨768 + j.val, by omega⟩

variable (V : (c : Dev nD) → (b : Ref sig .tc) → Buf (Elt Ideal) ((c : Thread nD τ).loc b))

theorem hz0 : (![0, 0] : Fin 2 → Nat) = fun _ => 0 := funext fun a => by fin_cases a <;> rfl

abbrev xarr0 (c : Dev nD) : Vec Ideal S50000x256 .f32 := V c main_arg0
abbrev warr0 (c : Dev nD) : Vec Ideal S256x1024 .f32 := V c main_v8
abbrev barr0 (c : Dev nD) : Vec Ideal S1x1024 .f32 := V c main_v10

/-- Row `i` of the first array against column `col j` of the second, plus the bias row there. -/
def lin0 (c : Dev nD) (col : Fin 256 → Fin 1024) : Vec Ideal S50000x256 .f32 :=
  fun i => (∑ k : Fin 256, xarr0 V c (ix2 (⟨(i 0).val, idx2_lt0 i⟩ : Fin 50000) k) * warr0 V c (ix2 k (col ⟨(i 1).val, idx2_lt1 i⟩))) + barr0 V c (ix2 (0 : Fin 1) (col ⟨(i 1).val, idx2_lt1 i⟩))

theorem out0_eq (pay : Vec Ideal S1000x256 .f32 → Vec Ideal S256x1024 .f32 → Vec Ideal S1x1024 .f32 → Vec Ideal S1000x256 .f32)
    (x0 : Vec Ideal S1000x256 .f32) (x1 : Vec Ideal S256x1024 .f32) (x2 : Vec Ideal S1x1024 .f32) :
    View.canon [⟨r0_x, pay (View.ld x0 r0_x) (View.ld x1 r0_w) (View.ld x2 r0_b)⟩] = pay x0 x1 x2 := by
  rw [View.canon_unit_zero hz0, View.ld_unit_zero hz0, View.ld_unit_zero hz0, View.ld_unit_zero hz0]

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The quarter of the product of the blocks at point `t` from column `o` on is the array function at row `t * 1000 + y 0`, column `y 1`. -/
theorem quarter_lin0 (c : Dev nD) (t : Fin cfg0.N) (o : Nat) (h : S1000x1024.Slices ![0, o] S1000x256) (col : Fin 256 → Fin 1024)
    (hc : ∀ j : Fin 256, (col j).val = o + j.val) (y : S1000x256.Idx) (i : S50000x256.Idx)
    (hi : (i 0).val = t.val * 1000 + (y 0).val ∧ (i 1).val = (y 1).val) :
    extractStridedSlice S1000x256 ![0, o] (k0_pay1 (F := Ideal) (iblk0 V c 0 t) (iblk0 V c 1 t) (iblk0 V c 2 t)) h y
      = lin0 V c col i := by
  obtain ⟨a00, a01, a10, a11, a20, a21, -⟩ := idx_facts0 t
  have ht : t.val < 50 := t.isLt
  obtain ⟨r, j, rfl⟩ : ∃ (r : Fin 1000) (j : Fin 256), y = ix2 r j := ⟨y 0, y 1, eq_ix2 (n0 := 1000) (n1 := 256) y⟩
  refine (slice2_axis1_apply o _ h r j (col j) (hc j)).trans ((pay1_apply _ _ _ r (col j)).trans ?_)
  unfold lin0
  rw [show (⟨(i 0).val, idx2_lt0 i⟩ : Fin 50000) = ⟨t.val * 1000 + r.val, by omega⟩ from Fin.ext hi.1,
    show (⟨(i 1).val, idx2_lt1 i⟩ : Fin 256) = j from Fin.ext hi.2]
  have h0 : ∀ k : Fin 256, iblk0 V c 0 t (ix2 r k) = V c main_arg0 (ix2 (⟨t.val * 1000 + r.val, by omega⟩ : Fin 50000) k) := fun k =>
    congrArg (V c main_arg0) (Shape.idx_ext₂
      (by show win0_0.index t (0 : Fin 2) * 1000 + 1 * r.val = t.val * 1000 + r.val; omega)
      (by show win0_0.index t (1 : Fin 2) * 256 + 1 * k.val = k.val; omega))
  have h1 : iblk0 V c 1 t = V c main_v8 := funext fun z => congrArg (V c main_v8) (Shape.idx_ext₂
    (by show win0_1.index t (0 : Fin 2) * 256 + 1 * (z 0).val = (z 0).val; omega)
    (by show win0_1.index t (1 : Fin 2) * 1024 + 1 * (z 1).val = (z 1).val; omega))
  have h2 : iblk0 V c 2 t = V c main_v10 := funext fun z => congrArg (V c main_v10) (Shape.idx_ext₂
    (by show win0_2.index t (0 : Fin 2) * 1 + 1 * (z 0).val = (z 0).val; omega)
    (by show win0_2.index t (1 : Fin 2) * 1024 + 1 * (z 1).val = (z 1).val; omega))
  rw [h1, h2]
  exact congrArg (· + _) (Finset.sum_congr rfl fun k _ => by rw [h0 k])

/-- Blocks of 1000 rows placed at rows `t * 1000` tile the 50000 rows: row `r` is row `r % 1000` of block `r / 1000`. -/
theorem tiles0 (e : Fin cfg0.N → S1000x256.Idx → S50000x256.Idx)
    (he : ∀ t y, (e t y 0).val = t.val * 1000 + (y 0).val ∧ (e t y 1).val = (y 1).val) (i : S50000x256.Idx) : ∃ t y, e t y = i := by
  have hi0 := idx2_lt0 i
  have hN : cfg0.N = 50 := N_0
  refine ⟨⟨(i 0).val / 1000, by rw [hN]; omega⟩, ix2 ⟨(i 0).val % 1000, by omega⟩ ⟨(i 1).val, idx2_lt1 i⟩, Shape.idx_ext₂ ?_ (he _ _).2⟩
  rw [(he _ _).1]
  show (i 0).val / 1000 * 1000 + (i 0).val % 1000 = (i 0).val
  omega

theorem emb3 (t : Fin cfg0.N) (y : S1000x256.Idx) : ((((cfg0.win 3).blk t).view.emb y : S50000x256.Idx) 0).val = t.val * 1000 + (y 0).val
    ∧ ((((cfg0.win 3).blk t).view.emb y : S50000x256.Idx) 1).val = (y 1).val := by
  obtain ⟨-, -, -, -, -, -, a0, a1, -⟩ := idx_facts0 t
  exact ⟨by show win0_3.index t (0 : Fin 2) * 1000 + 1 * (y 0).val = _; omega, by show win0_3.index t (1 : Fin 2) * 256 + 1 * (y 1).val = _; omega⟩

theorem val0_3 (c : Dev nD) (i : Fin 50000) (j : Fin 256) : ((dat0 V c).arrAt 3 cfg0.N : Vec Ideal S50000x256 .f32) (ix2 i j) = (∑ k : Fin 256, xarr0 V c (ix2 i k) * warr0 V c (ix2 k ⟨j.val, by omega⟩)) + barr0 V c (ix2 (0 : Fin 1) ⟨j.val, by omega⟩) :=
  congrFun ((dat0 V c).arrAt_eq_of_cover 3 (lin0 V c col3)
    (fun t _ => by
      show (cfg0.win 3).cut (grid0.coords t) ((dat0 V c).after 3 t) = _
      rw [after0_3, out0_3, out0_eq k0_pay2]
      exact funext fun y => quarter_lin0 V c t 0 slices_S1000x1024_o0_0_S1000x256 col3 (fun _ => (Nat.zero_add _).symm) y _ (emb3 t y))
    fun i => let ⟨t, y, h⟩ := tiles0 _ emb3 i; ⟨t, flush0_3 t, h ▸ View.emb_mem_set _ y⟩) (ix2 i j)

theorem emb4 (t : Fin cfg0.N) (y : S1000x256.Idx) : ((((cfg0.win 4).blk t).view.emb y : S50000x256.Idx) 0).val = t.val * 1000 + (y 0).val
    ∧ ((((cfg0.win 4).blk t).view.emb y : S50000x256.Idx) 1).val = (y 1).val := by
  obtain ⟨-, -, -, -, -, -, -, -, a0, a1, -⟩ := idx_facts0 t
  exact ⟨by show win0_4.index t (0 : Fin 2) * 1000 + 1 * (y 0).val = _; omega, by show win0_4.index t (1 : Fin 2) * 256 + 1 * (y 1).val = _; omega⟩

theorem val0_4 (c : Dev nD) (i : Fin 50000) (j : Fin 256) : ((dat0 V c).arrAt 4 cfg0.N : Vec Ideal S50000x256 .f32) (ix2 i j) = (∑ k : Fin 256, xarr0 V c (ix2 i k) * warr0 V c (ix2 k ⟨256 + j.val, by omega⟩)) + barr0 V c (ix2 (0 : Fin 1) ⟨256 + j.val, by omega⟩) :=
  congrFun ((dat0 V c).arrAt_eq_of_cover 4 (lin0 V c col4)
    (fun t _ => by
      show (cfg0.win 4).cut (grid0.coords t) ((dat0 V c).after 4 t) = _
      rw [after0_4, out0_4, out0_eq k0_pay3]
      exact funext fun y => quarter_lin0 V c t 256 slices_S1000x1024_o0_256_S1000x256 col4 (fun _ => rfl) y _ (emb4 t y))
    fun i => let ⟨t, y, h⟩ := tiles0 _ emb4 i; ⟨t, flush0_4 t, h ▸ View.emb_mem_set _ y⟩) (ix2 i j)

theorem emb5 (t : Fin cfg0.N) (y : S1000x256.Idx) : ((((cfg0.win 5).blk t).view.emb y : S50000x256.Idx) 0).val = t.val * 1000 + (y 0).val
    ∧ ((((cfg0.win 5).blk t).view.emb y : S50000x256.Idx) 1).val = (y 1).val := by
  obtain ⟨-, -, -, -, -, -, -, -, -, -, a0, a1, -⟩ := idx_facts0 t
  exact ⟨by show win0_5.index t (0 : Fin 2) * 1000 + 1 * (y 0).val = _; omega, by show win0_5.index t (1 : Fin 2) * 256 + 1 * (y 1).val = _; omega⟩

theorem val0_5 (c : Dev nD) (i : Fin 50000) (j : Fin 256) : ((dat0 V c).arrAt 5 cfg0.N : Vec Ideal S50000x256 .f32) (ix2 i j) = (∑ k : Fin 256, xarr0 V c (ix2 i k) * warr0 V c (ix2 k ⟨512 + j.val, by omega⟩)) + barr0 V c (ix2 (0 : Fin 1) ⟨512 + j.val, by omega⟩) :=
  congrFun ((dat0 V c).arrAt_eq_of_cover 5 (lin0 V c col5)
    (fun t _ => by
      show (cfg0.win 5).cut (grid0.coords t) ((dat0 V c).after 5 t) = _
      rw [after0_5, out0_5, out0_eq k0_pay4]
      exact funext fun y => quarter_lin0 V c t 512 slices_S1000x1024_o0_512_S1000x256 col5 (fun _ => rfl) y _ (emb5 t y))
    fun i => let ⟨t, y, h⟩ := tiles0 _ emb5 i; ⟨t, flush0_5 t, h ▸ View.emb_mem_set _ y⟩) (ix2 i j)

theorem emb6 (t : Fin cfg0.N) (y : S1000x256.Idx) : ((((cfg0.win 6).blk t).view.emb y : S50000x256.Idx) 0).val = t.val * 1000 + (y 0).val
    ∧ ((((cfg0.win 6).blk t).view.emb y : S50000x256.Idx) 1).val = (y 1).val := by
  obtain ⟨-, -, -, -, -, -, -, -, -, -, -, -, a0, a1⟩ := idx_facts0 t
  exact ⟨by show win0_6.index t (0 : Fin 2) * 1000 + 1 * (y 0).val = _; omega, by show win0_6.index t (1 : Fin 2) * 256 + 1 * (y 1).val = _; omega⟩

theorem val0_6 (c : Dev nD) (i : Fin 50000) (j : Fin 256) : ((dat0 V c).arrAt 6 cfg0.N : Vec Ideal S50000x256 .f32) (ix2 i j) = (∑ k : Fin 256, xarr0 V c (ix2 i k) * warr0 V c (ix2 k ⟨768 + j.val, by omega⟩)) + barr0 V c (ix2 (0 : Fin 1) ⟨768 + j.val, by omega⟩) :=
  congrFun ((dat0 V c).arrAt_eq_of_cover 6 (lin0 V c col6)
    (fun t _ => by
      show (cfg0.win 6).cut (grid0.coords t) ((dat0 V c).after 6 t) = _
      rw [after0_6, out0_6, out0_eq k0_pay5]
      exact funext fun y => quarter_lin0 V c t 768 slices_S1000x1024_o0_768_S1000x256 col6 (fun _ => rfl) y _ (emb6 t y))
    fun i => let ⟨t, y, h⟩ := tiles0 _ emb6 i; ⟨t, flush0_6 t, h ▸ View.emb_mem_set _ y⟩) (ix2 i j)

end Cert.KernelIdeal.Hand.Val0
end
-- ==== Proof.KI.V1.lean ====
import proofs.«413128_j44495861187321_1_alg».proof.Proof.KI.R1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

abbrev edgeDot := dot_S2000x256_S256x256_S2000x256_1_0_0_1_n_n

theorem edgeDot_lhs (r : Fin 2000) (j : Fin 256) (k : Fin 256) :
    edgeDot.lhsIdx (ix2 r j) ((contrEquiv1 edgeDot 256 rfl rfl).symm k) = ix2 r k := by
  funext a
  apply Fin.ext
  match a with
  | ⟨0, _⟩ =>
    simp [DotDims.lhsIdx, edgeDot, dot_S2000x256_S256x256_S2000x256_1_0_0_1_n_n]
    rfl
  | ⟨1, _⟩ =>
    simp [DotDims.lhsIdx, edgeDot, dot_S2000x256_S256x256_S2000x256_1_0_0_1_n_n]
    exact contrEquiv1_symm_val edgeDot 256 rfl rfl k

theorem edgeDot_rhs (r : Fin 2000) (j : Fin 256) (k : Fin 256) :
    edgeDot.rhsIdx (ix2 r j) ((contrEquiv1 edgeDot 256 rfl rfl).symm k) = ix2 k j := by
  funext a
  apply Fin.ext
  match a with
  | ⟨0, _⟩ =>
    simp [DotDims.rhsIdx, edgeDot, dot_S2000x256_S256x256_S2000x256_1_0_0_1_n_n]
    exact contrEquiv1_symm_val edgeDot 256 rfl rfl k
  | ⟨1, _⟩ =>
    simp [DotDims.rhsIdx, edgeDot, dot_S2000x256_S256x256_S2000x256_1_0_0_1_n_n]
    rfl

/-- The first payload at an entry: on the ideal numbers the narrowing is the identity and the accumulator starts at zero. -/
theorem edge_pay1_apply (x0 : Vec Ideal S2000x256 .f32) (x1 : Vec Ideal S256x256 .f32) (x2 : Vec Ideal S1x256 .f32) (r : Fin 2000) (j : Fin 256) :
    k1_pay1 x0 x1 x2 (ix2 r j) = (∑ k : Fin 256, x0 (ix2 r k) * x1 (ix2 k j)) + x2 (ix2 (0 : Fin 1) j) := by
  unfold k1_pay1
  simp only [matmul]
  rw [addf_apply, broadcastTo_1b_ab_apply, shapeCast_self, shapeCast_self, Ideal.matmul_constant_zero_apply]
  congr 1
  rw [← Equiv.sum_comp (contrEquiv1 edgeDot 256 rfl rfl).symm]
  refine Finset.sum_congr rfl fun k _ => ?_
  rw [truncf_apply, truncf_apply]
  show x0 (edgeDot.lhsIdx (ix2 r j) _) * x1 (edgeDot.rhsIdx (ix2 r j) _) = _
  rw [edgeDot_lhs, edgeDot_rhs]

theorem edge_pay1_at (x0 : Vec Ideal S2000x256 .f32) (x1 : Vec Ideal S256x256 .f32) (x2 : Vec Ideal S1x256 .f32) (y : S2000x256.Idx) :
    k1_pay1 x0 x1 x2 y = (∑ k : Fin 256, x0 (ix2 (y 0) k) * x1 (ix2 k (y 1))) + x2 (ix2 (0 : Fin 1) (y 1)) := by
  conv_lhs => rw [eq_ix2 y]
  exact edge_pay1_apply x0 x1 x2 (y 0) (y 1)

theorem zeros2_c1 : (![0, 0] : Fin 2 → Nat) = fun _ => 0 := funext fun a => by fin_cases a <;> rfl

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

abbrev linOf1 (a0 : Vec Ideal S320000x256 .f32) (a1 : Vec Ideal S256x256 .f32) (a2 : Vec Ideal S1x256 .f32) :
    Vec Ideal S320000x256 .f32 :=
  fun i => (∑ k : Fin 256, a0 (ix2 (i 0) k) * a1 (ix2 k (i 1))) + a2 (ix2 (0 : Fin 1) (i 1))

abbrev gateOf1 (a0 : Vec Ideal S320000x256 .f32) : Vec Ideal S320000x256 .f32 := fun i => Ideal.logistic (a0 i)

section
variable (c : Dev nD) (t : Fin cfg1.N) (y : S2000x256.Idx) (i : S320000x256.Idx)
  (hi : (i 0).val = t.val * 2000 + (y 0).val ∧ (i 1).val = (y 1).val)
include hi

/-- The edge block at point `t` is rows `t * 2000 ..` of the edge array. -/
theorem blkX1 : iblk1 V c 0 t y = V c main_arg2 i := by
  obtain ⟨a0, a1, -⟩ := idx_facts1 t
  exact congrArg (V c main_arg2) (Shape.idx_ext₂
    (by show win1_0.index t (0 : Fin 2) * 2000 + 1 * (y 0).val = _; omega)
    (by show win1_0.index t (1 : Fin 2) * 256 + 1 * (y 1).val = _; omega))

omit hi in
theorem blkW1 : iblk1 V c 1 t = V c main_v12 := by
  obtain ⟨-, -, a0, a1, -⟩ := idx_facts1 t
  exact funext fun z => congrArg (V c main_v12) (Shape.idx_ext₂
    (by show win1_1.index t (0 : Fin 2) * 256 + 1 * (z 0).val = _; omega)
    (by show win1_1.index t (1 : Fin 2) * 256 + 1 * (z 1).val = _; omega))

omit hi in
theorem blkB1 : iblk1 V c 2 t = V c main_v13 := by
  obtain ⟨-, -, -, -, a0, a1, -⟩ := idx_facts1 t
  exact funext fun z => congrArg (V c main_v13) (Shape.idx_ext₂
    (by show win1_2.index t (0 : Fin 2) * 1 + 1 * (z 0).val = _; omega)
    (by show win1_2.index t (1 : Fin 2) * 256 + 1 * (z 1).val = _; omega))

theorem lin_blk1 : k1_pay1 (iblk1 V c 0 t) (iblk1 V c 1 t) (iblk1 V c 2 t) y = linOf1 (V c main_arg2) (V c main_v12) (V c main_v13) i := by
  refine (edge_pay1_at _ _ _ y).trans ?_
  rw [blkW1 V c t, blkB1 V c t, show y 1 = i 1 from Fin.ext hi.2.symm]
  exact congrArg (· + _) (Finset.sum_congr rfl fun k _ => by rw [blkX1 V c t (ix2 (y 0) k) (ix2 (i 0) k) ⟨hi.1, rfl⟩])

theorem gate_blk1 : k1_pay2 (iblk1 V c 0 t) y = gateOf1 (V c main_arg2) i :=
  congrArg Ideal.logistic (blkX1 V c t y i hi)

end

/-- Blocks of 2000 rows placed at rows `t * 2000` tile the 320000 rows: row `r` is row `r % 2000` of block `r / 2000`. -/
theorem tiles1 (e : Fin cfg1.N → S2000x256.Idx → S320000x256.Idx)
    (he : ∀ t y, (e t y 0).val = t.val * 2000 + (y 0).val ∧ (e t y 1).val = (y 1).val) (i : S320000x256.Idx) : ∃ t y, e t y = i := by
  have hi0 := idx2_lt0 i
  have hN : cfg1.N = 160 := N_1
  refine ⟨⟨(i 0).val / 2000, by rw [hN]; omega⟩, ix2 ⟨(i 0).val % 2000, by omega⟩ ⟨(i 1).val, idx2_lt1 i⟩, Shape.idx_ext₂ ?_ (he _ _).2⟩
  rw [(he _ _).1]
  show (i 0).val / 2000 * 2000 + (i 0).val % 2000 = (i 0).val
  omega

theorem emb1_3 (t : Fin cfg1.N) (y : S2000x256.Idx) : ((((cfg1.win 3).blk t).view.emb y : S320000x256.Idx) 0).val = t.val * 2000 + (y 0).val
    ∧ ((((cfg1.win 3).blk t).view.emb y : S320000x256.Idx) 1).val = (y 1).val := by
  obtain ⟨-, -, -, -, -, -, a0, a1, -⟩ := idx_facts1 t
  exact ⟨by show win1_3.index t (0 : Fin 2) * 2000 + 1 * (y 0).val = _; omega, by show win1_3.index t (1 : Fin 2) * 256 + 1 * (y 1).val = _; omega⟩

theorem emb1_4 (t : Fin cfg1.N) (y : S2000x256.Idx) : ((((cfg1.win 4).blk t).view.emb y : S320000x256.Idx) 0).val = t.val * 2000 + (y 0).val
    ∧ ((((cfg1.win 4).blk t).view.emb y : S320000x256.Idx) 1).val = (y 1).val := by
  obtain ⟨-, -, -, -, -, -, -, -, a0, a1⟩ := idx_facts1 t
  exact ⟨by show win1_4.index t (0 : Fin 2) * 2000 + 1 * (y 0).val = _; omega, by show win1_4.index t (1 : Fin 2) * 256 + 1 * (y 1).val = _; omega⟩

theorem flushed1_3_eq (c : Dev nD) (t : Fin cfg1.N) :
    (dat1 V c).flushed 3 t = ((cfg1.win 3).blk t).view.read (Elt Ideal) (linOf1 (V c main_arg2) (V c main_v12) (V c main_v13)) := by
  show (cfg1.win 3).cut (grid1.coords t) ((dat1 V c).after 3 t) = _
  rw [after1_3]; unfold out1_3
  rw [View.canon_unit_zero zeros2_c1]
  simp only [View.ld_unit_zero (S := S2000x256) zeros2_c1, View.ld_unit_zero (S := S256x256) zeros2_c1, View.ld_unit_zero (S := S1x256) zeros2_c1]
  exact funext fun y => lin_blk1 V c t y _ (emb1_3 t y)

theorem flushed1_4_eq (c : Dev nD) (t : Fin cfg1.N) :
    (dat1 V c).flushed 4 t = ((cfg1.win 4).blk t).view.read (Elt Ideal) (gateOf1 (V c main_arg2)) := by
  show (cfg1.win 4).cut (grid1.coords t) ((dat1 V c).after 4 t) = _
  rw [after1_4]; unfold out1_4
  rw [View.canon_unit_zero zeros2_c1]
  simp only [View.ld_unit_zero (S := S2000x256) zeros2_c1]
  exact funext fun y => gate_blk1 V c t y _ (emb1_4 t y)

abbrev xarr1 (c : Dev nD) : Vec Ideal S320000x256 .f32 := V c main_arg2
abbrev warr1 (c : Dev nD) : Vec Ideal S256x256 .f32 := V c main_v12
abbrev barr1 (c : Dev nD) : Vec Ideal S1x256 .f32 := V c main_v13

theorem val1_3 (c : Dev nD) (e : Fin 320000) (j : Fin 256) :
    ((dat1 V c).arrAt 3 cfg1.N : Vec Ideal S320000x256 .f32) (ix2 e j)
      = (∑ k : Fin 256, xarr1 V c (ix2 e k) * warr1 V c (ix2 k j)) + barr1 V c (ix2 (0 : Fin 1) j) :=
  congrFun ((dat1 V c).arrAt_eq_of_cover 3 (linOf1 (V c main_arg2) (V c main_v12) (V c main_v13)) (fun t _ => flushed1_3_eq V c t)
    fun i => let ⟨t, y, h⟩ := tiles1 _ emb1_3 i; ⟨t, flush1_3 t, h ▸ View.emb_mem_set _ y⟩) (ix2 e j)

theorem val1_4 (c : Dev nD) (e : Fin 320000) (j : Fin 256) :
    ((dat1 V c).arrAt 4 cfg1.N : Vec Ideal S320000x256 .f32) (ix2 e j) = Ideal.logistic (xarr1 V c (ix2 e j)) :=
  congrFun ((dat1 V c).arrAt_eq_of_cover 4 (gateOf1 (V c main_arg2)) (fun t _ => flushed1_4_eq V c t)
    fun i => let ⟨t, y, h⟩ := tiles1 _ emb1_4 i; ⟨t, flush1_4 t, h ▸ View.emb_mem_set _ y⟩) (ix2 e j)

end Cert.KernelIdeal.Hand

end
-- ==== Proof.LibTileSum.lean ====
import Idealize.ShloMosaic.Lib.ValueIdx
import Mathlib.Algebra.BigOperators.Fin
import Mathlib.Data.Fintype.BigOperators
import Mathlib.Logic.Equiv.Fin.Basic

open scoped BigOperators

namespace Idealize.ShloMosaic.ValueIdx

theorem mul_add_lt_mul {m n : Nat} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right _ a.isLt

/-- A sum over positions below `m·n` is the double sum over quotient and remainder. -/
theorem sum_fin_mul {M : Type*} [AddCommMonoid M] (m n : Nat) (f : Fin (m * n) → M) :
    ∑ j : Fin (m * n), f j = ∑ a : Fin m, ∑ b : Fin n, f ⟨a.val * n + b.val, mul_add_lt_mul a b⟩ := by
  rw [← Equiv.sum_comp (finProdFinEquiv (m := m) (n := n)) f, Fintype.sum_prod_type]
  refine Finset.sum_congr rfl fun a _ => Finset.sum_congr rfl fun b _ => congrArg f (Fin.ext ?_)
  show b.val + n * a.val = a.val * n + b.val
  rw [Nat.add_comm, Nat.mul_comm]

end Idealize.ShloMosaic.ValueIdx
-- ==== Proof.LibAccSum.lean ====
import proofs.«413128_j44495861187321_1_alg».proof.Proof.LibTileSum
import Mathlib.Algebra.BigOperators.Fin

open scoped BigOperators

namespace Idealize.ShloMosaic.ValueIdx

theorem tile_lt {T P n : Nat} (hn : n < T) (p : Fin P) : n * P + p.val < T * P :=
  mul_add_lt_mul (⟨n, hn⟩ : Fin T) p

/-- An accumulator that starts at `g 0` and adds `g (n + 1)` at step `n + 1` holds the partial sums of `g`. -/
theorem acc_steps {M : Type*} [AddCommMonoid M] (T : Nat) (g : Nat → M) (acc : Nat → M)
    (h0 : acc 0 = g 0) (hs : ∀ n, n + 1 < T → acc (n + 1) = acc n + g (n + 1)) :
    ∀ n, n < T → acc n = ∑ a : Fin (n + 1), g a.val := by
  intro n
  induction n with
  | zero => intro _; rw [h0, Fin.sum_univ_one]; rfl
  | succ n ih =>
    intro hn
    rw [hs n hn, ih (Nat.lt_of_succ_lt hn)]
    exact (Fin.sum_univ_castSucc (fun a : Fin (n + 1 + 1) => g a.val)).symm

/-- Adding one tile's sum per step, from zero, the accumulator ends at the sum of the whole vector. -/
theorem acc_total {M : Type*} [AddCommMonoid M] (T P : Nat) (hT : 0 < T) (f : Fin (T * P) → M) (acc : Nat → M)
    (h0 : acc 0 = 0 + ∑ p : Fin P, f ⟨0 * P + p.val, tile_lt hT p⟩)
    (hs : ∀ n (h : n + 1 < T), acc (n + 1) = acc n + ∑ p : Fin P, f ⟨(n + 1) * P + p.val, tile_lt h p⟩) :
    acc (T - 1) = ∑ i : Fin (T * P), f i := by
  obtain ⟨k, rfl⟩ := Nat.exists_eq_succ_of_ne_zero (Nat.pos_iff_ne_zero.mp hT)
  rw [Nat.succ_sub_one, sum_fin_mul,
    acc_steps k.succ (fun a => if h : a < k.succ then ∑ p : Fin P, f ⟨a * P + p.val, tile_lt h p⟩ else 0) acc
      (by rw [h0, zero_add, dif_pos hT]) (fun n hn => by rw [hs n hn, dif_pos hn]) k (Nat.lt_succ_self k)]
  exact Finset.sum_congr rfl fun a _ => dif_pos a.isLt

theorem acc_total_of_zero {M : Type*} [AddCommMonoid M] (T P : Nat) (hT : 0 < T) (f : Fin (T * P) → M) (acc : Nat → M)
    (z : M) (hz : z = 0)
    (h0 : acc 0 = z + ∑ p : Fin P, f ⟨0 * P + p.val, tile_lt hT p⟩)
    (hs : ∀ n (h : n + 1 < T), acc (n + 1) = acc n + ∑ p : Fin P, f ⟨(n + 1) * P + p.val, tile_lt h p⟩) :
    acc (T - 1) = ∑ i : Fin (T * P), f i := by
  subst hz
  exact acc_total T P hT f acc h0 hs

end Idealize.ShloMosaic.ValueIdx
-- ==== Proof.KI.V2.lean ====
import proofs.«413128_j44495861187321_1_alg».proof.Proof.KI.R2
import proofs.«413128_j44495861187321_1_alg».proof.Proof.LibTileSum
import proofs.«413128_j44495861187321_1_alg».proof.Proof.LibAccSum
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.Hand.Val2

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx
open scoped BigOperators

theorem pay3_apply (x0 x1 : Vec Ideal S2000x256 .f32) (r : Fin 2000) (j : Fin 256) :
    (k2_pay3 x0 x1 : Vec Ideal S2000x256 .f32) (ix2 r j) = x0 (ix2 r j) + x1 (ix2 r j) := by
  unfold k2_pay3
  simp only [shapeCast_self]
  rfl

theorem pay1_apply (j : Fin 256) : (k2_pay1 (F := Ideal) : Vec Ideal S1x256 .f32) (ix2 (0 : Fin 1) j) = 0 := by
  unfold k2_pay1
  simp only [shapeCast_self]
  exact Ideal.ofBits_zero_f32

theorem pay2_apply (j : Fin 256) : (k2_pay2 (F := Ideal) : Vec Ideal S1x256 .f32) (ix2 (0 : Fin 1) j) = 0 := by
  unfold k2_pay2
  simp only [shapeCast_self]
  exact Ideal.ofBits_zero_f32

/-- A 2000-row block summed down its rows and recast as one row holds at column `j` the sum of the column. -/
theorem colsum_apply (h : Vec Ideal S2000x256 .f32) (hr : S2000x256.Reduces [0] S256) (hφ : FKind.Formats .f32)
    (hacc : (0x00000000#32 : BitVec 32) = FKind.add.neutral .f32 hφ) (hc : S256.ShapeCasts S1x256) (j : Fin 256) :
    (shapeCast S1x256 (multiReduction (F := Ideal) .add [0] S256 h 0x00000000#32 hr hφ hacc) hc : Vec Ideal S1x256 .f32) (ix2 (0 : Fin 1) j)
      = ∑ r : Fin 2000, h (ix2 r j) :=
  (shapeCast_apply _ hc (ix2 (0 : Fin 1) j) (ix1 j) (by
      rw [Shape.rowMajor_val_two, Shape.rowMajor_val_one]; show j.val = 0 * 256 + j.val; omega)).trans
    ((Ideal.multiReduction_add_single h 0x00000000#32 hr hφ hacc (ix1 j)).trans
      (Finset.sum_congr rfl fun r _ => congrArg h (funext fun a => by
        match a with
        | ⟨0, _⟩ => rfl
        | ⟨1, _⟩ => rfl)))

theorem pay4_apply (x0 x1 : Vec Ideal S2000x256 .f32) (s : Vec Ideal S1x256 .f32) (j : Fin 256) :
    (k2_pay4 x0 x1 s : Vec Ideal S1x256 .f32) (ix2 (0 : Fin 1) j) = s (ix2 (0 : Fin 1) j) + ∑ r : Fin 2000, (x0 (ix2 r j) + x1 (ix2 r j)) := by
  unfold k2_pay4
  simp only [shapeCast_self]
  refine (addf_apply _ _ _).trans ?_
  refine congrArg (s (ix2 (0 : Fin 1) j) + ·) ?_
  exact (colsum_apply (k2_pay3 x0 x1) _ _ _ _ j).trans (Finset.sum_congr rfl fun r _ => pay3_apply x0 x1 r j)

theorem pay5_apply (x0 x1 : Vec Ideal S2000x256 .f32) (s : Vec Ideal S1x256 .f32) (j : Fin 256) :
    (k2_pay5 x0 x1 s : Vec Ideal S1x256 .f32) (ix2 (0 : Fin 1) j)
      = s (ix2 (0 : Fin 1) j) + ∑ r : Fin 2000, ((x0 (ix2 r j) + x1 (ix2 r j)) * (x0 (ix2 r j) + x1 (ix2 r j))) := by
  unfold k2_pay5
  simp only [shapeCast_self]
  refine (addf_apply _ _ _).trans ?_
  refine congrArg (s (ix2 (0 : Fin 1) j) + ·) ?_
  refine (colsum_apply (mulf (k2_pay3 x0 x1) (k2_pay3 x0 x1)) _ _ _ _ j).trans (Finset.sum_congr rfl fun r _ => ?_)
  refine (mulf_apply _ _ _).trans ?_
  rw [pay3_apply]

variable (V : (c : Dev nD) → (b : Ref sig .tc) → Buf (Elt Ideal) ((c : Thread nD τ).loc b))

abbrev x1arr2 (c : Dev nD) : Vec Ideal S50000x256 .f32 := V c main_v11_0
abbrev aggarr2 (c : Dev nD) : Vec Ideal S50000x256 .f32 := V c main_v28
abbrev o2_2 (c : Dev nD) : Vec Ideal S50000x256 .f32 := (dat2 V c).arrAt 2 cfg2.N
abbrev o2_3 (c : Dev nD) : Vec Ideal S1x256 .f32 := (dat2 V c).arrAt 3 cfg2.N
abbrev o2_4 (c : Dev nD) : Vec Ideal S1x256 .f32 := (dat2 V c).arrAt 4 cfg2.N
abbrev xblk2 (c : Dev nD) (t : Fin cfg2.N) : Vec Ideal S2000x256 .f32 := iblk2 V c 0 t
abbrev ablk2 (c : Dev nD) (t : Fin cfg2.N) : Vec Ideal S2000x256 .f32 := iblk2 V c 1 t
abbrev hh2 (c : Dev nD) (i : Fin 50000) (j : Fin 256) : EReal := x1arr2 V c (ix2 i j) + aggarr2 V c (ix2 i j)

theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row `r` of an input's block at point `t` is row `2000 t + r` of its array. -/
theorem xblk2_apply (c : Dev nD) (t : Fin cfg2.N) (r : Fin 2000) (j : Fin 256) (i : Fin 50000) (hi : i.val = t.val * 2000 + r.val) :
    xblk2 V c t (ix2 r j) = x1arr2 V c (ix2 i j) := by
  obtain ⟨e0, e1, -⟩ := idx2 t
  show ((cfg2.win 0).blk t).view.read (Elt Ideal) (V c (Pipeline.arrRef spec2 0)) (ix2 r j) = _
  rw [View.read_apply]
  show V c main_v11_0 _ = V c main_v11_0 _
  congr 1
  funext a
  apply Fin.ext
  match a with
  | ⟨0, _⟩ => show win2_0.index t 0 * 2000 + 1 * r.val = i.val; rw [e0, hi]; omega
  | ⟨1, _⟩ => show win2_0.index t 1 * 256 + 1 * j.val = j.val; rw [e1]; omega

theorem ablk2_apply (c : Dev nD) (t : Fin cfg2.N) (r : Fin 2000) (j : Fin 256) (i : Fin 50000) (hi : i.val = t.val * 2000 + r.val) :
    ablk2 V c t (ix2 r j) = aggarr2 V c (ix2 i j) := by
  obtain ⟨-, -, e0, e1, -⟩ := idx2 t
  show ((cfg2.win 1).blk t).view.read (Elt Ideal) (V c (Pipeline.arrRef spec2 1)) (ix2 r j) = _
  rw [View.read_apply]
  show V c main_v28 _ = V c main_v28 _
  congr 1
  funext a
  apply Fin.ext
  match a with
  | ⟨0, _⟩ => show win2_1.index t 0 * 2000 + 1 * r.val = i.val; rw [e0, hi]; omega
  | ⟨1, _⟩ => show win2_1.index t 1 * 256 + 1 * j.val = j.val; rw [e1]; omega

/-- A row carried from zero that adds, at each of the 25 points, the block's column sums of `g` ends at their sums over all 50000 rows. -/
theorem acc_cols (c : Dev nD) (j : Fin 256) (g : EReal → EReal) (S : ℕ → Vec Ideal S1x256 .f32)
    (h0 : S 0 (ix2 (0 : Fin 1) j) = 0)
    (hstep : ∀ t : Fin cfg2.N, S (t.val + 1) (ix2 (0 : Fin 1) j)
      = S t.val (ix2 (0 : Fin 1) j) + ∑ r : Fin 2000, g (xblk2 V c t (ix2 r j) + ablk2 V c t (ix2 r j))) :
    S 25 (ix2 (0 : Fin 1) j) = ∑ i : Fin 50000, g (hh2 V c i j) := by
  have hN : cfg2.N = 25 := N_2
  have blk : ∀ (t : Fin cfg2.N) (r : Fin 2000) (hlt : t.val * 2000 + r.val < 50000),
      g (xblk2 V c t (ix2 r j) + ablk2 V c t (ix2 r j)) = g (hh2 V c ⟨t.val * 2000 + r.val, hlt⟩ j) := fun t r hlt =>
    congrArg g (congrArg₂ (· + ·) (xblk2_apply V c t r j ⟨t.val * 2000 + r.val, hlt⟩ rfl) (ablk2_apply V c t r j ⟨t.val * 2000 + r.val, hlt⟩ rfl))
  exact acc_total (M := EReal) 25 2000 (by decide) (fun i => g (hh2 V c ⟨i.val, i.isLt⟩ j)) (fun n => S (n + 1) (ix2 (0 : Fin 1) j))
    ((hstep ⟨0, by omega⟩).trans (congrArg₂ (· + ·) h0 (Finset.sum_congr rfl fun p _ =>
      blk ⟨0, by omega⟩ p (tile_lt (by decide : 0 < 25) p))))
    (fun n h => (hstep ⟨n + 1, by omega⟩).trans (congrArg₂ (· + ·) rfl (Finset.sum_congr rfl fun p _ =>
      blk ⟨n + 1, by omega⟩ p (tile_lt h p))))

theorem s0_total (c : Dev nD) (j : Fin 256) : (acc2 V c 25).1 (ix2 (0 : Fin 1) j) = ∑ i : Fin 50000, hh2 V c i j :=
  acc_cols V c j (fun x => x) (fun n => (acc2 V c n).1) (pay1_apply j) fun t =>
    (congrFun (congrArg Prod.fst (acc2_succ V c t)) _).trans (pay4_apply _ _ _ j)

theorem s1_total (c : Dev nD) (j : Fin 256) : (acc2 V c 25).2 (ix2 (0 : Fin 1) j) = ∑ i : Fin 50000, (hh2 V c i j * hh2 V c i j) :=
  acc_cols V c j (fun x => x * x) (fun n => (acc2 V c n).2) (pay2_apply j) fun t =>
    (congrFun (congrArg Prod.snd (acc2_succ V c t)) _).trans (pay5_apply _ _ _ j)

theorem pay3_eq_addf (x0 x1 : Vec Ideal S2000x256 .f32) : k2_pay3 x0 x1 = addf x0 x1 := by
  unfold k2_pay3
  simp only [shapeCast_self]

abbrev G2_2 (c : Dev nD) : Vec Ideal S50000x256 .f32 := fun i => x1arr2 V c i + aggarr2 V c i

theorem flushed2_2_eq (c : Dev nD) (t : Fin cfg2.N) :
    (dat2 V c).flushed 2 t = ((cfg2.win 2).blk t).view.read (Elt Ideal) (G2_2 V c) := by
  show (cfg2.win 2).cut (grid2.coords t) ((dat2 V c).after 2 t) = _
  rw [(after2 V c t).2.2.1, pay3_eq_addf]
  obtain ⟨e00, e01, e10, e11, e20, e21, -⟩ := idx2 t
  funext y
  show x1arr2 V c (((cfg2.win 0).blk t).view.emb y) + aggarr2 V c (((cfg2.win 1).blk t).view.emb y)
    = x1arr2 V c (((cfg2.win 2).blk t).view.emb y) + aggarr2 V c (((cfg2.win 2).blk t).view.emb y)
  have h0 : ((cfg2.win 0).blk t).view.emb y = ((cfg2.win 2).blk t).view.emb y := by
    funext a; apply Fin.ext
    match a with
    | ⟨0, _⟩ => show win2_0.index t (0 : Fin 2) * 2000 + 1 * (y 0).val = win2_2.index t (0 : Fin 2) * 2000 + 1 * (y 0).val; rw [e00, e20]
    | ⟨1, _⟩ => show win2_0.index t (1 : Fin 2) * 256 + 1 * (y 1).val = win2_2.index t (1 : Fin 2) * 256 + 1 * (y 1).val; rw [e01, e21]
  have h1 : ((cfg2.win 1).blk t).view.emb y = ((cfg2.win 2).blk t).view.emb y := by
    funext a; apply Fin.ext
    match a with
    | ⟨0, _⟩ => show win2_1.index t (0 : Fin 2) * 2000 + 1 * (y 0).val = win2_2.index t (0 : Fin 2) * 2000 + 1 * (y 0).val; rw [e10, e20]
    | ⟨1, _⟩ => show win2_1.index t (1 : Fin 2) * 256 + 1 * (y 1).val = win2_2.index t (1 : Fin 2) * 256 + 1 * (y 1).val; rw [e11, e21]
  rw [h0, h1]

/-- The 25 blocks of 2000 rows cover the 50000 rows: row `r` lies in the block of point `r / 2000`. -/
theorem cover2_2 (i : S50000x256.Idx) : ∃ t : Fin cfg2.N, (cfg2.win 2).flush t = true ∧ i ∈ ((cfg2.win 2).blk t).view.set := by
  have hN : cfg2.N = 25 := N_2
  have hi0 : (i 0).val < 50000 := (i 0).isLt
  have hi1 : (i 1).val < 256 := (i 1).isLt
  have ht : (i 0).val / 2000 < cfg2.N := by omega
  obtain ⟨-, -, -, -, e20, e21, -⟩ := idx2 ⟨(i 0).val / 2000, ht⟩
  refine ⟨⟨(i 0).val / 2000, ht⟩, flush2_2 _, ?_⟩
  show i ∈ ((View.whole main_v29_0).slice (win2_2.rect ⟨(i 0).val / 2000, ht⟩)).set
  rw [View.set_slice_whole, Rect.mem_set_unit]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win2_2.index ⟨(i 0).val / 2000, ht⟩ (1 : Fin 2) * 256 ≤ (i 1).val ∧ (i 1).val < win2_2.index ⟨(i 0).val / 2000, ht⟩ (1 : Fin 2) * 256 + 256
    rw [e21]; omega

theorem val2_2 (c : Dev nD) (i : Fin 50000) (j : Fin 256) :
    o2_2 V c (ix2 i j) = x1arr2 V c (ix2 i j) + aggarr2 V c (ix2 i j) :=
  congrFun ((dat2 V c).arrAt_eq_of_cover 2 (G2_2 V c) (fun t _ => flushed2_2_eq V c t) cover2_2) (ix2 i j)

theorem lt24 : 24 < cfg2.N := by rw [show cfg2.N = 25 from N_2]; decide

def t24 : Fin cfg2.N := ⟨24, lt24⟩

theorem flushed2_3_eq (c : Dev nD) (t : Fin cfg2.N) (hf : (cfg2.win 3).flush t = true) :
    (dat2 V c).flushed 3 t = ((cfg2.win 3).blk t).view.read (Elt Ideal) (acc2 V c 25).1 := by
  have hN : cfg2.N = 25 := N_2
  have h1 : t.val = 24 := by have := (flush2_3 t).mp hf; have := t.isLt; omega
  obtain rfl : t = t24 := Fin.ext h1
  obtain ⟨-, -, -, -, -, -, e30, e31, -⟩ := idx2 t24
  show (cfg2.win 3).cut (grid2.coords t24) ((dat2 V c).after 3 t24) = _
  rw [(after2 V c t24).2.2.2.1]
  show (cfg2.win 3).cut (grid2.coords t24) (acc2 V c 25).1 = _
  generalize (acc2 V c 25).1 = X
  have hz' : (fun a => win2_3.index t24 a * main_v29_1.ty.shape.size a) = fun _ => 0 := funext fun a => by
    match a with
    | ⟨0, _⟩ => show win2_3.index t24 (0 : Fin 2) * 1 = 0; rw [e30]
    | ⟨1, _⟩ => show win2_3.index t24 (1 : Fin 2) * 256 = 0; rw [e31]
  exact (Memref.read_access_unit_zero (Elt Ideal) main_v29_1 hz' (fun a => by rw [congrFun hz' a]; simp) X).symm

theorem flushed2_4_eq (c : Dev nD) (t : Fin cfg2.N) (hf : (cfg2.win 4).flush t = true) :
    (dat2 V c).flushed 4 t = ((cfg2.win 4).blk t).view.read (Elt Ideal) (acc2 V c 25).2 := by
  have hN : cfg2.N = 25 := N_2
  have h1 : t.val = 24 := by have := (flush2_4 t).mp hf; have := t.isLt; omega
  obtain rfl : t = t24 := Fin.ext h1
  obtain ⟨-, -, -, -, -, -, -, -, e40, e41⟩ := idx2 t24
  show (cfg2.win 4).cut (grid2.coords t24) ((dat2 V c).after 4 t24) = _
  rw [(after2 V c t24).2.2.2.2]
  show (cfg2.win 4).cut (grid2.coords t24) (acc2 V c 25).2 = _
  generalize (acc2 V c 25).2 = X
  have hz' : (fun a => win2_4.index t24 a * main_v29_2.ty.shape.size a) = fun _ => 0 := funext fun a => by
    match a with
    | ⟨0, _⟩ => show win2_4.index t24 (0 : Fin 2) * 1 = 0; rw [e40]
    | ⟨1, _⟩ => show win2_4.index t24 (1 : Fin 2) * 256 = 0; rw [e41]
  exact (Memref.read_access_unit_zero (Elt Ideal) main_v29_2 hz' (fun a => by rw [congrFun hz' a]; simp) X).symm

/-- The last point's block of a statistics window is the whole one-row array. -/
theorem cover2_3 (i : S1x256.Idx) : ∃ t : Fin cfg2.N, (cfg2.win 3).flush t = true ∧ i ∈ ((cfg2.win 3).blk t).view.set := by
  have hi0 : (i 0).val < 1 := (i 0).isLt
  have hi1 : (i 1).val < 256 := (i 1).isLt
  obtain ⟨-, -, -, -, -, -, e30, e31, -⟩ := idx2 t24
  refine ⟨t24, (flush2_3 _).mpr rfl, ?_⟩
  show i ∈ ((View.whole main_v29_1).slice (win2_3.rect t24)).set
  rw [View.set_slice_whole, Rect.mem_set_unit]
  intro a
  match a with
  | ⟨0, _⟩ =>
    show win2_3.index t24 (0 : Fin 2) * 1 ≤ (i 0).val ∧ (i 0).val < win2_3.index t24 (0 : Fin 2) * 1 + 1
    rw [e30]; omega
  | ⟨1, _⟩ =>
    show win2_3.index t24 (1 : Fin 2) * 256 ≤ (i 1).val ∧ (i 1).val < win2_3.index t24 (1 : Fin 2) * 256 + 256
    rw [e31]; omega

theorem cover2_4 (i : S1x256.Idx) : ∃ t : Fin cfg2.N, (cfg2.win 4).flush t = true ∧ i ∈ ((cfg2.win 4).blk t).view.set := by
  have hi0 : (i 0).val < 1 := (i 0).isLt
  have hi1 : (i 1).val < 256 := (i 1).isLt
  obtain ⟨-, -, -, -, -, -, -, -, e40, e41⟩ := idx2 t24
  refine ⟨t24, (flush2_4 _).mpr rfl, ?_⟩
  show i ∈ ((View.whole main_v29_2).slice (win2_4.rect t24)).set
  rw [View.set_slice_whole, Rect.mem_set_unit]
  intro a
  match a with
  | ⟨0, _⟩ =>
    show win2_4.index t24 (0 : Fin 2) * 1 ≤ (i 0).val ∧ (i 0).val < win2_4.index t24 (0 : Fin 2) * 1 + 1
    rw [e40]; omega
  | ⟨1, _⟩ =>
    show win2_4.index t24 (1 : Fin 2) * 256 ≤ (i 1).val ∧ (i 1).val < win2_4.index t24 (1 : Fin 2) * 256 + 256
    rw [e41]; omega

theorem val2_3 (c : Dev nD) (j : Fin 256) :
    o2_3 V c (ix2 (0 : Fin 1) j) = ∑ i : Fin 50000, hh2 V c i j :=
  (congrFun ((dat2 V c).arrAt_eq_of_cover 3 (acc2 V c 25).1 (flushed2_3_eq V c) cover2_3) (ix2 (0 : Fin 1) j)).trans (s0_total V c j)

theorem val2_4 (c : Dev nD) (j : Fin 256) :
    o2_4 V c (ix2 (0 : Fin 1) j) = ∑ i : Fin 50000, (hh2 V c i j * hh2 V c i j) :=
  (congrFun ((dat2 V c).arrAt_eq_of_cover 4 (acc2 V c 25).2 (flushed2_4_eq V c) cover2_4) (ix2 (0 : Fin 1) j)).trans (s1_total V c j)

end Cert.KernelIdeal.Hand.Val2

end
-- ==== Proof.KI.V3.lean ====
import proofs.«413128_j44495861187321_1_alg».proof.Proof.KI.R3
import Idealize.ShloMosaic.Lib.Pipeline.Value
import Idealize.ShloMosaic.Lib.ValueIdx

noncomputable section

namespace Cert.KernelIdeal.Hand.Val3
open Cert.KernelIdeal Cert.KernelIdeal.Gen
open Idealize.ShloMosaic Idealize.ShloMosaic.TcCoe Idealize.SL.Sem
open Idealize.ShloMosaic.Pipeline (Dat Window)
open Idealize.ShloMosaic.ValueIdx

section Values3

variable (V : (c : Dev nD) → (b : Ref sig .tc) → Buf (Elt Ideal) ((c : Thread nD τ).loc b)) (c : Dev nD)

theorem zero_off2 : (![0, 0] : Fin 2 → Nat) = fun _ => 0 := funext fun a => by fin_cases a <;> rfl

-- A row broadcast down a block, read at an element, is the row at the element's column.
theorem row_bcast_apply {α : Type} (v : S1x256.Idx → α) (y : S2000x256.Idx) (r : S1x256.Idx)
    (hr0 : (r 0).val = 0) (hr1 : (r 1).val = (y 1).val) :
    broadcastTo S2000x256 v broadcasts_S1x256_S2000x256 y = v r :=
  broadcastTo_apply v broadcasts_S1x256_S2000x256 y r fun a => by
    match a with
    | ⟨0, _⟩ => rw [if_pos (by rfl)]; exact hr0
    | ⟨1, _⟩ => rw [if_neg (by show ¬ (256 : ℕ) = 1; omega)]; exact hr1

abbrev bn3 (h mean var g b : EReal) : EReal :=
  ((g * (h - mean)) * Ideal.rsqrt (var + Ideal.ofBits .f32 0x3727C5AC#32)) + b

theorem pay3_apply (h : Vec Ideal S2000x256 .f32) (var g mean b : Vec Ideal S1x256 .f32) (x : Vec Ideal S2000x256 .f32)
    (y : S2000x256.Idx) (r : S1x256.Idx) (hr0 : (r 0).val = 0) (hr1 : (r 1).val = (y 1).val) :
    k3_pay1 h var g mean b x y
      = x y + bn3 (h y) (mean r) (var r) (g r) (b r) * Ideal.logistic (bn3 (h y) (mean r) (var r) (g r) (b r)) := by
  unfold k3_pay1
  simp only [shapeCast_self]
  dsimp only [addf, mulf, subf, logistic]
  rw [row_bcast_apply g y r hr0 hr1, row_bcast_apply mean y r hr0 hr1, row_bcast_apply b y r hr0 hr1,
    row_bcast_apply (rsqrt _) y r hr0 hr1]
  rfl

theorem idx_facts3 : ∀ t : Fin cfg3.N,
    (win3_6.index t (0 : Fin 2) = t.val ∧ win3_6.index t (1 : Fin 2) = 0)
    ∧ (∀ a, win3_0.index t a = win3_6.index t a) ∧ (∀ a, win3_1.index t a = win3_6.index t a)
    ∧ (∀ a, win3_2.index t a = 0) ∧ (∀ a, win3_3.index t a = 0) ∧ (∀ a, win3_4.index t a = 0) ∧ (∀ a, win3_5.index t a = 0) :=
  (by decide +kernel : ∀ t : Fin grid3.N, _)

abbrev xarr3 : Vec Ideal S50000x256 .f32 := V c main_arg0
abbrev harr3 : Vec Ideal S50000x256 .f32 := V c main_v29_0
abbrev meanarr3 : Vec Ideal S1x256 .f32 := V c main_v31
abbrev vararr3 : Vec Ideal S1x256 .f32 := V c main_v35
abbrev garr3 : Vec Ideal S1x256 .f32 := V c main_v36
abbrev barr3 : Vec Ideal S1x256 .f32 := V c main_v37

abbrev rowIx3 (i : S50000x256.Idx) : S1x256.Idx := ix2 (0 : Fin 1) (⟨(i 1).val, idx2_lt1 i⟩ : Fin 256)

def G3 : Vec Ideal S50000x256 .f32 := fun i =>
  xarr3 V c i
    + bn3 (harr3 V c i) (meanarr3 V c (rowIx3 i)) (vararr3 V c (rowIx3 i)) (garr3 V c (rowIx3 i)) (barr3 V c (rowIx3 i))
      * Ideal.logistic (bn3 (harr3 V c i) (meanarr3 V c (rowIx3 i)) (vararr3 V c (rowIx3 i)) (garr3 V c (rowIx3 i)) (barr3 V c (rowIx3 i)))

theorem flushed3_6_eq (t : Fin cfg3.N) :
    (dat3 V c).flushed 6 t = ((cfg3.win 6).blk t).view.read (Elt Ideal) (G3 V c) := by
  show (cfg3.win 6).cut (grid3.coords t) ((dat3 V c).after 6 t) = _
  rw [after3_6]
  unfold out3_6
  rw [View.canon_unit_zero zero_off2]
  simp only [View.ld_unit_zero (S := S2000x256) zero_off2, View.ld_unit_zero (S := S1x256) zero_off2]
  obtain ⟨⟨-, e61⟩, e0, e1, e2, e3, e4, e5⟩ := idx_facts3 t
  funext y
  show k3_pay1 (F := Ideal) _ _ _ _ _ _ y = G3 V c ((win3_6.rect t).emb y)
  refine (pay3_apply _ _ _ _ _ _ y (rowIx3 ((win3_6.rect t).emb y)) rfl (win3_6.rect_emb_val_of_index_zero t (1 : Fin 2) e61 y)).trans ?_
  have h0 : iblk3 V c 0 t y = xarr3 V c ((win3_6.rect t).emb y) := congrArg (xarr3 V c)
    (show (win3_0.rect t).emb y = (win3_6.rect t).emb y from funext fun a => Fin.ext (by rw [Pipeline.Window.rect_emb_val, Pipeline.Window.rect_emb_val, e0 a]))
  have h1 : iblk3 V c 1 t y = harr3 V c ((win3_6.rect t).emb y) := congrArg (harr3 V c)
    (show (win3_1.rect t).emb y = (win3_6.rect t).emb y from funext fun a => Fin.ext (by rw [Pipeline.Window.rect_emb_val, Pipeline.Window.rect_emb_val, e1 a]))
  have h2 (r) : iblk3 V c 2 t r = meanarr3 V c r := congrArg (meanarr3 V c)
    (show (win3_2.rect t).emb r = r from funext fun a => Fin.ext (win3_2.rect_emb_val_of_index_zero t a (e2 a) r))
  have h3 (r) : iblk3 V c 3 t r = vararr3 V c r := congrArg (vararr3 V c)
    (show (win3_3.rect t).emb r = r from funext fun a => Fin.ext (win3_3.rect_emb_val_of_index_zero t a (e3 a) r))
  have h4 (r) : iblk3 V c 4 t r = garr3 V c r := congrArg (garr3 V c)
    (show (win3_4.rect t).emb r = r from funext fun a => Fin.ext (win3_4.rect_emb_val_of_index_zero t a (e4 a) r))
  have h5 (r) : iblk3 V c 5 t r = barr3 V c r := congrArg (barr3 V c)
    (show (win3_5.rect t).emb r = r from funext fun a => Fin.ext (win3_5.rect_emb_val_of_index_zero t a (e5 a) r))
  rw [h0, h1, h2, h3, h4, h5]
  rfl

-- Every element of the output array is in the block of the point its row falls to.
theorem covered3_6 (i : S50000x256.Idx) :
    ∃ t : Fin cfg3.N, (cfg3.win 6).flush t = true ∧ i ∈ ((cfg3.win 6).blk t).view.set := by
  have hi0 : (i 0).val < 50000 := idx2_lt0 i
  have hi1 : (i 1).val < 256 := idx2_lt1 i
  have ht : (i 0).val / 2000 < cfg3.N := by rw [show cfg3.N = 25 from N_3]; omega
  obtain ⟨⟨e60, e61⟩, -⟩ := idx_facts3 ⟨(i 0).val / 2000, ht⟩
  refine ⟨⟨(i 0).val / 2000, ht⟩, flush3_6 _, ?_⟩
  show i ∈ ((View.whole main_v38).slice (win3_6.rect ⟨(i 0).val / 2000, ht⟩)).set
  rw [View.set_slice_whole, Rect.mem_set_unit]
  intro a
  match a with
  | ⟨0, _⟩ =>
    show win3_6.index _ (0 : Fin 2) * 2000 ≤ (i 0).val ∧ (i 0).val < win3_6.index _ (0 : Fin 2) * 2000 + 2000
    rw [e60]; show (i 0).val / 2000 * 2000 ≤ (i 0).val ∧ (i 0).val < (i 0).val / 2000 * 2000 + 2000; omega
  | ⟨1, _⟩ =>
    show win3_6.index _ (1 : Fin 2) * 256 ≤ (i 1).val ∧ (i 1).val < win3_6.index _ (1 : Fin 2) * 256 + 256
    rw [e61]; omega

theorem final3_6 : (dat3 V c).arrAt 6 cfg3.N = G3 V c :=
  (dat3 V c).arrAt_eq_of_cover 6 (G3 V c) (fun t _ => flushed3_6_eq V c t) covered3_6

theorem val3_6 (i : Fin 50000) (j : Fin 256) :
    ((dat3 V c).arrAt 6 cfg3.N : Vec Ideal S50000x256 .f32) (ix2 i j)
      = xarr3 V c (ix2 i j)
        + (((garr3 V c (ix2 (0 : Fin 1) j) * (harr3 V c (ix2 i j) - meanarr3 V c (ix2 (0 : Fin 1) j)))
            * Ideal.rsqrt (vararr3 V c (ix2 (0 : Fin 1) j) + Ideal.ofBits .f32 0x3727C5AC#32))
          + barr3 V c (ix2 (0 : Fin 1) j))
        * Ideal.logistic ((((garr3 V c (ix2 (0 : Fin 1) j) * (harr3 V c (ix2 i j) - meanarr3 V c (ix2 (0 : Fin 1) j)))
            * Ideal.rsqrt (vararr3 V c (ix2 (0 : Fin 1) j) + Ideal.ofBits .f32 0x3727C5AC#32))
          + barr3 V c (ix2 (0 : Fin 1) j))) := by
  rw [final3_6]
  rfl

end Values3

end Cert.KernelIdeal.Hand.Val3
end
-- ==== Proof.KI.V4.lean ====
import proofs.«413128_j44495861187321_1_alg».proof.Proof.KI.R4
import proofs.«413128_j44495861187321_1_alg».proof.Proof.LibTileSum
import proofs.«413128_j44495861187321_1_alg».proof.Proof.LibAccSum
import Idealize.ShloMosaic.Lib.ValueLayout
import Idealize.ShloMosaic.PureOps.Ideal.Laws

set_option maxRecDepth 16384

noncomputable section

open scoped BigOperators

namespace Cert.KernelIdeal.Hand.Val4

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

abbrev in0 (c : Dev nD) : Vec Ideal S320000x256 .f32 := V c main_v14_0
abbrev in1 (c : Dev nD) : Vec Ideal S320000x256 .f32 := V c main_v39
abbrev in2 (c : Dev nD) : Vec Ideal S320000x256 .f32 := V c main_v40
abbrev out3 (c : Dev nD) : Vec Ideal S320000x256 .f32 := (dat4 V c).arrAt 3 cfg4.N
abbrev out4 (c : Dev nD) : Vec Ideal S1x256 .f32 := (dat4 V c).arrAt 4 cfg4.N
abbrev out5 (c : Dev nD) : Vec Ideal S1x256 .f32 := (dat4 V c).arrAt 5 cfg4.N

def hh (c : Dev nD) (e : Fin 320000) (j : Fin 256) : EReal :=
  (in0 V c (ix2 e j) + in1 V c (ix2 e j)) + in2 V c (ix2 e j)

theorem pay1_apply (i : S1x256.Idx) : (k4_pay1 (F := Ideal)) i = 0 := by
  unfold k4_pay1
  simp only [shapeCast_self]
  exact Ideal.ofBits_zero_f32

theorem pay2_apply (i : S1x256.Idx) : (k4_pay2 (F := Ideal)) i = 0 := pay1_apply i

theorem pay3_apply (x0 x1 x2 : Vec Ideal S2000x256 .f32) (i : S2000x256.Idx) :
    k4_pay3 x0 x1 x2 i = (x0 i + x1 i) + x2 i := by
  unfold k4_pay3
  simp only [shapeCast_self]
  rfl

-- The column reduction of `v`, read at channel `j`, is the sum of `v` down column `j`.
theorem colsum_apply (v : FVec Ideal S2000x256 .f32) (j : Fin 256) :
    shapeCast S1x256 (multiReduction .add [0] S256 v 0x00000000#32 reduces_S2000x256_S256 (.inl rfl) rfl) shapeCasts_S256_S1x256 (ix2 (0 : Fin 1) j)
      = ∑ p : Fin 2000, v (ix2 p j) := by
  rw [shapeCast_a_1a_apply]
  refine (Ideal.multiReduction_add_single v _ reduces_S2000x256_S256 _ _ (ix1 j)).trans (Finset.sum_congr rfl fun p _ => congrArg v ?_)
  funext a
  apply Fin.ext
  match a with
  | ⟨0, _⟩ => rfl
  | ⟨1, _⟩ => rfl

theorem pay4_apply (x0 x1 x2 : Vec Ideal S2000x256 .f32) (acc : Vec Ideal S1x256 .f32) (j : Fin 256) :
    k4_pay4 x0 x1 x2 acc (ix2 (0 : Fin 1) j)
      = acc (ix2 (0 : Fin 1) j) + ∑ p : Fin 2000, ((x0 (ix2 p j) + x1 (ix2 p j)) + x2 (ix2 p j)) := by
  unfold k4_pay4
  simp only [shapeCast_self]
  exact congrArg (acc (ix2 (0 : Fin 1) j) + ·) ((colsum_apply _ j).trans (Finset.sum_congr rfl fun p _ => pay3_apply x0 x1 x2 _))

theorem pay5_apply (x0 x1 x2 : Vec Ideal S2000x256 .f32) (acc : Vec Ideal S1x256 .f32) (j : Fin 256) :
    k4_pay5 x0 x1 x2 acc (ix2 (0 : Fin 1) j)
      = acc (ix2 (0 : Fin 1) j) + ∑ p : Fin 2000, (((x0 (ix2 p j) + x1 (ix2 p j)) + x2 (ix2 p j)) * ((x0 (ix2 p j) + x1 (ix2 p j)) + x2 (ix2 p j))) := by
  unfold k4_pay5
  simp only [shapeCast_self]
  exact congrArg (acc (ix2 (0 : Fin 1) j) + ·) ((colsum_apply _ j).trans
    (Finset.sum_congr rfl fun p _ => congrArg₂ (· * ·) (pay3_apply x0 x1 x2 _) (pay3_apply x0 x1 x2 _)))

abbrev blk0 (c : Dev nD) (t : Fin cfg4.N) : Vec Ideal S2000x256 .f32 := iblk4 V c 0 t
abbrev blk1 (c : Dev nD) (t : Fin cfg4.N) : Vec Ideal S2000x256 .f32 := iblk4 V c 1 t
abbrev blk2 (c : Dev nD) (t : Fin cfg4.N) : Vec Ideal S2000x256 .f32 := iblk4 V c 2 t

theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

theorem row_lt (t : Fin cfg4.N) (p : Fin 2000) : t.val * 2000 + p.val < 320000 := by
  have h1 := t.isLt; have h2 : cfg4.N = 160 := N_4; have h3 := p.isLt; omega

-- Entry `(p, j)` of block `t` of each of the four tall windows is entry `(2000 t + p, j)` of its array.
theorem emb4 (t : Fin cfg4.N) (p : Fin 2000) (j : Fin 256) :
    ((cfg4.win 0).blk t).view.emb (ix2 p j) = ix2 ⟨t.val * 2000 + p.val, row_lt t p⟩ j ∧ ((cfg4.win 1).blk t).view.emb (ix2 p j) = ix2 ⟨t.val * 2000 + p.val, row_lt t p⟩ j
    ∧ ((cfg4.win 2).blk t).view.emb (ix2 p j) = ix2 ⟨t.val * 2000 + p.val, row_lt t p⟩ j ∧ ((cfg4.win 3).blk t).view.emb (ix2 p j) = ix2 ⟨t.val * 2000 + p.val, row_lt t p⟩ j := by
  obtain ⟨a0, a1, b0, b1, c0, c1, d0, d1⟩ := idx_facts t
  refine ⟨?_, ?_, ?_, ?_⟩ <;> (funext a; apply Fin.ext; match a with
    | ⟨0, _⟩ => (show _ * 2000 + 1 * p.val = t.val * 2000 + p.val; first | erw [a0] | erw [b0] | erw [c0] | erw [d0]) <;> omega
    | ⟨1, _⟩ => (show _ * 256 + 1 * j.val = j.val; first | erw [a1] | erw [b1] | erw [c1] | erw [d1]) <;> omega)

theorem blk_hh (c : Dev nD) (t : Fin cfg4.N) (p : Fin 2000) (j : Fin 256) :
    ((blk0 V c t) (ix2 p j) + (blk1 V c t) (ix2 p j)) + (blk2 V c t) (ix2 p j) = hh V c ⟨t.val * 2000 + p.val, row_lt t p⟩ j := by
  obtain ⟨e0, e1, e2, -⟩ := emb4 t p j
  unfold blk0 blk1 blk2 iblk4
  rw [View.read_apply, View.read_apply, View.read_apply, e0, e1, e2]
  rfl

theorem t159_lt : 159 < cfg4.N := by rw [show cfg4.N = 160 from N_4]; decide
abbrev tL : Fin cfg4.N := ⟨159, t159_lt⟩

-- An accumulator started from zero that gains at each point the sum of `φ` over the point's rows ends at the sum of `φ` over all rows.
theorem acc_last (c : Dev nD) (j : Fin 256) (φ : EReal → EReal) (a : ∀ n, n < cfg4.N → EReal) (z : EReal) (hz : z = 0)
    (h0 : ∀ h, a 0 h = z + ∑ p : Fin 2000, φ (hh V c ⟨(⟨0, h⟩ : Fin cfg4.N).val * 2000 + p.val, row_lt ⟨0, h⟩ p⟩ j))
    (hs : ∀ n h, a (n + 1) h = a n (Nat.lt_of_succ_lt h)
      + ∑ p : Fin 2000, φ (hh V c ⟨(⟨n + 1, h⟩ : Fin cfg4.N).val * 2000 + p.val, row_lt ⟨n + 1, h⟩ p⟩ j)) :
    a 159 t159_lt = ∑ e : Fin 320000, φ (hh V c e j) := by
  have hN : cfg4.N = 160 := N_4
  have key := acc_total_of_zero 160 2000 (by decide) (fun i => φ (hh V c (Fin.cast (by decide : 160 * 2000 = 320000) i) j))
    (fun n => if h : n < cfg4.N then a n h else 0) z hz (by rw [dif_pos (by omega)]; exact h0 _)
    (fun n hn => by rw [dif_pos (by omega), dif_pos (by omega)]; exact hs n _)
  rw [show (160 - 1) = 159 from rfl, dif_pos t159_lt] at key
  rw [key]
  exact Fintype.sum_equiv (finCongr (by decide : 160 * 2000 = 320000)) _ _ fun i => rfl

theorem acc0_last (c : Dev nD) (j : Fin 256) :
    (accAt4 V c 159 t159_lt).1 (ix2 (0 : Fin 1) j) = ∑ e : Fin 320000, hh V c e j :=
  acc_last V c j id (fun n h => (accAt4 V c n h).1 (ix2 (0 : Fin 1) j)) _ (pay1_apply (ix2 (0 : Fin 1) j))
    (fun h => (pay4_apply _ _ _ _ j).trans (congrArg _ (Finset.sum_congr rfl fun p _ => blk_hh V c ⟨0, h⟩ p j)))
    (fun n h => (pay4_apply _ _ _ _ j).trans (congrArg _ (Finset.sum_congr rfl fun p _ => blk_hh V c ⟨n + 1, h⟩ p j)))

theorem acc1_last (c : Dev nD) (j : Fin 256) :
    (accAt4 V c 159 t159_lt).2 (ix2 (0 : Fin 1) j) = ∑ e : Fin 320000, (hh V c e j * hh V c e j) :=
  acc_last V c j (fun x => x * x) (fun n h => (accAt4 V c n h).2 (ix2 (0 : Fin 1) j)) _ (pay2_apply (ix2 (0 : Fin 1) j))
    (fun h => (pay5_apply _ _ _ _ j).trans (congrArg _ (Finset.sum_congr rfl fun p _ => congrArg (fun x => x * x) (blk_hh V c ⟨0, h⟩ p j))))
    (fun n h => (pay5_apply _ _ _ _ j).trans (congrArg _ (Finset.sum_congr rfl fun p _ => congrArg (fun x => x * x) (blk_hh V c ⟨n + 1, h⟩ p j))))

theorem final4 (c : Dev nD) : (dat4 V c).arrAt 4 cfg4.N = (accAt4 V c 159 t159_lt).1 := by
  have hb : ∀ a, win4_4.index tL a * win4_4.size a = 0 ∧ win4_4.xsize (grid4.coords tL) a = S1x256.size a := by decide +kernel
  refine (dat4 V c).arrAt_eq_of_cover 4 _ (fun t hf => ?_) fun i => ⟨tL, (flush4_4 tL).mpr rfl, ?_⟩
  · obtain rfl : t = tL := Fin.ext (show t.val = 159 by have := (flush4_4 t).mp hf; have := t.isLt; have : cfg4.N = 160 := N_4; omega)
    show (cfg4.win 4).cut (grid4.coords tL) ((dat4 V c).after 4 tL) = _
    rw [after4_4]
    have hz' : (fun a => win4_4.index tL a * main_v41_1.ty.shape.size a) = fun _ => 0 := funext fun a => (hb a).1
    exact (Memref.read_access_unit_zero (Elt Ideal) main_v41_1 hz' (fun a => by rw [congrFun hz' a]; simp) _).symm
  · show i ∈ ((View.whole main_v41_1).slice (win4_4.rect tL)).set
    rw [View.set_slice_whole, Rect.mem_set_unit]
    intro a
    show win4_4.index tL a * win4_4.size a ≤ (i a : Nat) ∧ (i a : Nat) < win4_4.index tL a * win4_4.size a + win4_4.xsize (grid4.coords tL) a
    rw [(hb a).1, (hb a).2, Nat.zero_add]
    exact ⟨Nat.zero_le _, (i a).isLt⟩

theorem final5 (c : Dev nD) : (dat4 V c).arrAt 5 cfg4.N = (accAt4 V c 159 t159_lt).2 := by
  have hb : ∀ a, win4_5.index tL a * win4_5.size a = 0 ∧ win4_5.xsize (grid4.coords tL) a = S1x256.size a := by decide +kernel
  refine (dat4 V c).arrAt_eq_of_cover 5 _ (fun t hf => ?_) fun i => ⟨tL, (flush4_5 tL).mpr rfl, ?_⟩
  · obtain rfl : t = tL := Fin.ext (show t.val = 159 by have := (flush4_5 t).mp hf; have := t.isLt; have : cfg4.N = 160 := N_4; omega)
    show (cfg4.win 5).cut (grid4.coords tL) ((dat4 V c).after 5 tL) = _
    rw [after4_5]
    have hz' : (fun a => win4_5.index tL a * main_v41_2.ty.shape.size a) = fun _ => 0 := funext fun a => (hb a).1
    exact (Memref.read_access_unit_zero (Elt Ideal) main_v41_2 hz' (fun a => by rw [congrFun hz' a]; simp) _).symm
  · show i ∈ ((View.whole main_v41_2).slice (win4_5.rect tL)).set
    rw [View.set_slice_whole, Rect.mem_set_unit]
    intro a
    show win4_5.index tL a * win4_5.size a ≤ (i a : Nat) ∧ (i a : Nat) < win4_5.index tL a * win4_5.size a + win4_5.xsize (grid4.coords tL) a
    rw [(hb a).1, (hb a).2, Nat.zero_add]
    exact ⟨Nat.zero_le _, (i a).isLt⟩

theorem val4_4 (c : Dev nD) (j : Fin 256) : out4 V c (ix2 (0 : Fin 1) j) = ∑ e : Fin 320000, hh V c e j :=
  (congrFun (final4 V c) _).trans (acc0_last V c j)

theorem val4_5 (c : Dev nD) (j : Fin 256) : out5 V c (ix2 (0 : Fin 1) j) = ∑ e : Fin 320000, (hh V c e j * hh V c e j) :=
  (congrFun (final5 V c) _).trans (acc1_last V c j)

def G3 (c : Dev nD) : Vec Ideal S320000x256 .f32 := fun i => (in0 V c i + in1 V c i) + in2 V c i

theorem mem_blk3 (t : Fin cfg4.N) (i : S320000x256.Idx) :
    i ∈ ((cfg4.win 3).blk t).view.set ↔ (win4_3.index t 0 * 2000 ≤ (i 0).val ∧ (i 0).val < win4_3.index t 0 * 2000 + 2000)
      ∧ win4_3.index t 1 * 256 ≤ (i 1).val ∧ (i 1).val < win4_3.index t 1 * 256 + 256 := by
  show i ∈ ((View.whole main_v41_0).slice (win4_3.rect t)).set ↔ _
  rw [View.set_slice_whole, Rect.mem_set_unit]
  exact ⟨fun h => ⟨h 0, h 1⟩, fun h a => match a with | ⟨0, _⟩ => h.1 | ⟨1, _⟩ => h.2⟩

theorem final3 (c : Dev nD) : (dat4 V c).arrAt 3 cfg4.N = G3 V c := by
  refine (dat4 V c).arrAt_eq_of_cover 3 (G3 V c) (fun t _ => ?_) fun i => ?_
  · show (cfg4.win 3).cut (grid4.coords t) ((dat4 V c).after 3 t) = _
    rw [after4_3]
    funext (x : S2000x256.Idx)
    obtain ⟨p, j, rfl⟩ : ∃ p j, x = ix2 p j := ⟨x 0, x 1, eq_ix2 x⟩
    show k4_pay3 (blk0 V c t) (blk1 V c t) (blk2 V c t) (ix2 p j) = G3 V c (((cfg4.win 3).blk t).view.emb (ix2 p j))
    rw [pay3_apply, blk_hh, (emb4 t p j).2.2.2]
    rfl
  · have hi0 : (i 0).val < 320000 := (i 0).isLt
    have hi1 : (i 1).val < 256 := (i 1).isLt
    have hN : cfg4.N = 160 := N_4
    have ht : (i 0).val / 2000 < cfg4.N := by omega
    obtain ⟨-, -, -, -, -, -, e0, e1⟩ := idx_facts ⟨(i 0).val / 2000, ht⟩
    refine ⟨⟨(i 0).val / 2000, ht⟩, flush4_3 _, ?_⟩
    rw [mem_blk3, e0, e1]
    show ((i 0).val / 2000 * 2000 ≤ (i 0).val ∧ (i 0).val < (i 0).val / 2000 * 2000 + 2000) ∧ 0 * 256 ≤ (i 1).val ∧ (i 1).val < 0 * 256 + 256
    omega

theorem val4_3 (c : Dev nD) (e : Fin 320000) (j : Fin 256) :
    out3 V c (ix2 e j) = (in0 V c (ix2 e j) + in1 V c (ix2 e j)) + in2 V c (ix2 e j) :=
  congrFun (final3 V c) _

end Cert.KernelIdeal.Hand.Val4

end
-- ==== Proof.KI.V5.lean ====
import proofs.«413128_j44495861187321_1_alg».proof.Proof.KI.R5
import Idealize.ShloMosaic.Lib.Pipeline.Value
import Idealize.ShloMosaic.Lib.ValueIdx

noncomputable section

namespace Cert.KernelIdeal.Hand.Val5
open Cert.KernelIdeal Cert.KernelIdeal.Gen
open Idealize.ShloMosaic Idealize.ShloMosaic.TcCoe Idealize.SL.Sem
open Idealize.ShloMosaic.Pipeline (Dat Window)
open Idealize.ShloMosaic.ValueIdx

section Values5

variable (V : (c : Dev nD) → (b : Ref sig .tc) → Buf (Elt Ideal) ((c : Thread nD τ).loc b)) (c : Dev nD)

theorem zero_off2 : (![0, 0] : Fin 2 → Nat) = fun _ => 0 := funext fun a => by fin_cases a <;> rfl

-- A row broadcast down a block, read at an element, is the row at the element's column.
theorem row_bcast_apply {α : Type} (v : S1x256.Idx → α) (y : S2000x256.Idx) (r : S1x256.Idx)
    (hr0 : (r 0).val = 0) (hr1 : (r 1).val = (y 1).val) :
    broadcastTo S2000x256 v broadcasts_S1x256_S2000x256 y = v r :=
  broadcastTo_apply v broadcasts_S1x256_S2000x256 y r fun a => by
    match a with
    | ⟨0, _⟩ => rw [if_pos (by rfl)]; exact hr0
    | ⟨1, _⟩ => rw [if_neg (by show ¬ (256 : ℕ) = 1; omega)]; exact hr1

abbrev bn5 (h mean var g b : EReal) : EReal :=
  ((g * (h - mean)) * Ideal.rsqrt (var + Ideal.ofBits .f32 0x3727C5AC#32)) + b

theorem pay5_apply (h : Vec Ideal S2000x256 .f32) (var g mean b : Vec Ideal S1x256 .f32) (x : Vec Ideal S2000x256 .f32)
    (y : S2000x256.Idx) (r : S1x256.Idx) (hr0 : (r 0).val = 0) (hr1 : (r 1).val = (y 1).val) :
    k5_pay1 h var g mean b x y
      = x y + bn5 (h y) (mean r) (var r) (g r) (b r) * Ideal.logistic (bn5 (h y) (mean r) (var r) (g r) (b r)) := by
  unfold k5_pay1
  simp only [shapeCast_self]
  dsimp only [addf, mulf, subf, logistic]
  rw [row_bcast_apply g y r hr0 hr1, row_bcast_apply mean y r hr0 hr1, row_bcast_apply b y r hr0 hr1,
    row_bcast_apply (rsqrt _) y r hr0 hr1]
  rfl

theorem idx_facts5 : ∀ t : Fin cfg5.N,
    (win5_6.index t (0 : Fin 2) = t.val ∧ win5_6.index t (1 : Fin 2) = 0)
    ∧ (∀ a, win5_0.index t a = win5_6.index t a) ∧ (∀ a, win5_1.index t a = win5_6.index t a)
    ∧ (∀ a, win5_2.index t a = 0) ∧ (∀ a, win5_3.index t a = 0) ∧ (∀ a, win5_4.index t a = 0) ∧ (∀ a, win5_5.index t a = 0) :=
  (by decide +kernel : ∀ t : Fin grid5.N, _)

abbrev xarr5 : Vec Ideal S320000x256 .f32 := V c main_arg2
abbrev harr5 : Vec Ideal S320000x256 .f32 := V c main_v41_0
abbrev meanarr5 : Vec Ideal S1x256 .f32 := V c main_v43
abbrev vararr5 : Vec Ideal S1x256 .f32 := V c main_v47
abbrev garr5 : Vec Ideal S1x256 .f32 := V c main_v48
abbrev barr5 : Vec Ideal S1x256 .f32 := V c main_v49

abbrev rowIx5 (i : S320000x256.Idx) : S1x256.Idx := ix2 (0 : Fin 1) (⟨(i 1).val, idx2_lt1 i⟩ : Fin 256)

def G5 : Vec Ideal S320000x256 .f32 := fun i =>
  xarr5 V c i
    + bn5 (harr5 V c i) (meanarr5 V c (rowIx5 i)) (vararr5 V c (rowIx5 i)) (garr5 V c (rowIx5 i)) (barr5 V c (rowIx5 i))
      * Ideal.logistic (bn5 (harr5 V c i) (meanarr5 V c (rowIx5 i)) (vararr5 V c (rowIx5 i)) (garr5 V c (rowIx5 i)) (barr5 V c (rowIx5 i)))

theorem flushed5_6_eq (t : Fin cfg5.N) :
    (dat5 V c).flushed 6 t = ((cfg5.win 6).blk t).view.read (Elt Ideal) (G5 V c) := by
  show (cfg5.win 6).cut (grid5.coords t) ((dat5 V c).after 6 t) = _
  rw [after5_6]
  unfold out5_6
  rw [View.canon_unit_zero zero_off2]
  simp only [View.ld_unit_zero (S := S2000x256) zero_off2, View.ld_unit_zero (S := S1x256) zero_off2]
  obtain ⟨⟨-, e61⟩, e0, e1, e2, e3, e4, e5⟩ := idx_facts5 t
  funext y
  show k5_pay1 (F := Ideal) _ _ _ _ _ _ y = G5 V c ((win5_6.rect t).emb y)
  refine (pay5_apply _ _ _ _ _ _ y (rowIx5 ((win5_6.rect t).emb y)) rfl (win5_6.rect_emb_val_of_index_zero t (1 : Fin 2) e61 y)).trans ?_
  have h0 : iblk5 V c 0 t y = xarr5 V c ((win5_6.rect t).emb y) := congrArg (xarr5 V c)
    (show (win5_0.rect t).emb y = (win5_6.rect t).emb y from funext fun a => Fin.ext (by rw [Pipeline.Window.rect_emb_val, Pipeline.Window.rect_emb_val, e0 a]))
  have h1 : iblk5 V c 1 t y = harr5 V c ((win5_6.rect t).emb y) := congrArg (harr5 V c)
    (show (win5_1.rect t).emb y = (win5_6.rect t).emb y from funext fun a => Fin.ext (by rw [Pipeline.Window.rect_emb_val, Pipeline.Window.rect_emb_val, e1 a]))
  have h2 (r) : iblk5 V c 2 t r = meanarr5 V c r := congrArg (meanarr5 V c)
    (show (win5_2.rect t).emb r = r from funext fun a => Fin.ext (win5_2.rect_emb_val_of_index_zero t a (e2 a) r))
  have h3 (r) : iblk5 V c 3 t r = vararr5 V c r := congrArg (vararr5 V c)
    (show (win5_3.rect t).emb r = r from funext fun a => Fin.ext (win5_3.rect_emb_val_of_index_zero t a (e3 a) r))
  have h4 (r) : iblk5 V c 4 t r = garr5 V c r := congrArg (garr5 V c)
    (show (win5_4.rect t).emb r = r from funext fun a => Fin.ext (win5_4.rect_emb_val_of_index_zero t a (e4 a) r))
  have h5 (r) : iblk5 V c 5 t r = barr5 V c r := congrArg (barr5 V c)
    (show (win5_5.rect t).emb r = r from funext fun a => Fin.ext (win5_5.rect_emb_val_of_index_zero t a (e5 a) r))
  rw [h0, h1, h2, h3, h4, h5]
  rfl

-- Every element of the output array is in the block of the point its row falls to.
theorem covered5_6 (i : S320000x256.Idx) :
    ∃ t : Fin cfg5.N, (cfg5.win 6).flush t = true ∧ i ∈ ((cfg5.win 6).blk t).view.set := by
  have hi0 : (i 0).val < 320000 := idx2_lt0 i
  have hi1 : (i 1).val < 256 := idx2_lt1 i
  have ht : (i 0).val / 2000 < cfg5.N := by rw [show cfg5.N = 160 from N_5]; omega
  obtain ⟨⟨e60, e61⟩, -⟩ := idx_facts5 ⟨(i 0).val / 2000, ht⟩
  refine ⟨⟨(i 0).val / 2000, ht⟩, flush5_6 _, ?_⟩
  show i ∈ ((View.whole main_v50).slice (win5_6.rect ⟨(i 0).val / 2000, ht⟩)).set
  rw [View.set_slice_whole, Rect.mem_set_unit]
  intro a
  match a with
  | ⟨0, _⟩ =>
    show win5_6.index _ (0 : Fin 2) * 2000 ≤ (i 0).val ∧ (i 0).val < win5_6.index _ (0 : Fin 2) * 2000 + 2000
    rw [e60]; show (i 0).val / 2000 * 2000 ≤ (i 0).val ∧ (i 0).val < (i 0).val / 2000 * 2000 + 2000; omega
  | ⟨1, _⟩ =>
    show win5_6.index _ (1 : Fin 2) * 256 ≤ (i 1).val ∧ (i 1).val < win5_6.index _ (1 : Fin 2) * 256 + 256
    rw [e61]; omega

theorem final5_6 : (dat5 V c).arrAt 6 cfg5.N = G5 V c :=
  (dat5 V c).arrAt_eq_of_cover 6 (G5 V c) (fun t _ => flushed5_6_eq V c t) covered5_6

theorem val5_6 (i : Fin 320000) (j : Fin 256) :
    ((dat5 V c).arrAt 6 cfg5.N : Vec Ideal S320000x256 .f32) (ix2 i j)
      = xarr5 V c (ix2 i j)
        + (((garr5 V c (ix2 (0 : Fin 1) j) * (harr5 V c (ix2 i j) - meanarr5 V c (ix2 (0 : Fin 1) j)))
            * Ideal.rsqrt (vararr5 V c (ix2 (0 : Fin 1) j) + Ideal.ofBits .f32 0x3727C5AC#32))
          + barr5 V c (ix2 (0 : Fin 1) j))
        * Ideal.logistic ((((garr5 V c (ix2 (0 : Fin 1) j) * (harr5 V c (ix2 i j) - meanarr5 V c (ix2 (0 : Fin 1) j)))
            * Ideal.rsqrt (vararr5 V c (ix2 (0 : Fin 1) j) + Ideal.ofBits .f32 0x3727C5AC#32))
          + barr5 V c (ix2 (0 : Fin 1) j))) := by
  rw [final5_6]
  rfl

end Values5

end Cert.KernelIdeal.Hand.Val5
end
-- ==== Proof.RefRun.lean ====
import proofs.«413128_j44495861187321_1_alg».proof.Proof.Gen.ReferenceIdeal.Run
import proofs.«413128_j44495861187321_1_alg».proof.Proof.Gen.ReferenceIdeal.Read
-- ==== Proof.LibERealCoe.lean ====
import Idealize.ShloMosaic.PureOps.Ideal
import Mathlib.Data.EReal.Basic
import Mathlib.Data.EReal.Operations
import Mathlib.Algebra.BigOperators.Group.Finset.Basic
import Mathlib.Tactic.Linarith

noncomputable section

open scoped BigOperators

namespace Cert.ERealCoe

open Idealize.ShloMosaic

theorem coe_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

/-- A divisor clamped below by one is not zero, so the ideal quotient is the real one. -/
theorem div_coe_max_one (a n : ℝ) :
    Ideal.div (a : EReal) ((max n 1 : ℝ) : EReal) = ((a * (1 / max n 1) : ℝ) : EReal) := by
  have h : max n 1 ≠ 0 := by
    have := le_max_right n 1
    linarith
  rw [Ideal.div_coe h, ← EReal.coe_mul]

end Cert.ERealCoe

end
-- ==== Proof.KI.NodeLin.lean ====
import proofs.«413128_j44495861187321_1_alg».proof.Proof.KI.Fold
import proofs.«413128_j44495861187321_1_alg».proof.Proof.Gen.KernelIdeal.Regions
import proofs.«413128_j44495861187321_1_alg».proof.Proof.RefRun
import proofs.«413128_j44495861187321_1_alg».proof.Proof.LibERealCoe
import Idealize.ShloMosaic.Lib.StableHlo.Run
import Idealize.ShloMosaic.Lib.ValueLayout
import Idealize.ShloMosaic.Lib.ValueIdx
import Idealize.ShloMosaic.Lib.Pipeline.Value

set_option maxRecDepth 16384

noncomputable section

namespace Cert.KernelIdeal.HandV

open Cert.KernelIdeal Cert.KernelIdeal.Gen Cert.KernelIdeal.Hand Cert.ReferenceIdeal.Read
open Idealize.ShloMosaic Idealize.ShloMosaic.TcCoe Idealize.ShloMosaic.ValueIdx
open Idealize.ShloMosaic.Pipeline (Dat)

abbrev Bufs : Type := (c : Dev nD) → (b : Ref sig .tc) → Buf (Elt Ideal) ((c : Thread nD τ).loc b)

section Arrays
variable (V : Bufs)

abbrev xarr0 (c : Dev nD) : Vec Ideal S50000x256 .f32 := V c main_arg0
abbrev warr0 (c : Dev nD) : Vec Ideal S256x1024 .f32 := V c main_v8
abbrev barr0 (c : Dev nD) : Vec Ideal S1x1024 .f32 := V c main_v10
abbrev o0_3 (c : Dev nD) : Vec Ideal S50000x256 .f32 := (dat0 V c).arrAt 3 cfg0.N
abbrev o0_4 (c : Dev nD) : Vec Ideal S50000x256 .f32 := (dat0 V c).arrAt 4 cfg0.N
abbrev o0_5 (c : Dev nD) : Vec Ideal S50000x256 .f32 := (dat0 V c).arrAt 5 cfg0.N
abbrev o0_6 (c : Dev nD) : Vec Ideal S50000x256 .f32 := (dat0 V c).arrAt 6 cfg0.N
abbrev xarr1 (c : Dev nD) : Vec Ideal S320000x256 .f32 := V c main_arg2
abbrev warr1 (c : Dev nD) : Vec Ideal S256x256 .f32 := V c main_v12
abbrev barr1 (c : Dev nD) : Vec Ideal S1x256 .f32 := V c main_v13
abbrev o1_3 (c : Dev nD) : Vec Ideal S320000x256 .f32 := (dat1 V c).arrAt 3 cfg1.N
abbrev o1_4 (c : Dev nD) : Vec Ideal S320000x256 .f32 := (dat1 V c).arrAt 4 cfg1.N

end Arrays

abbrev Val0 (o : Bufs → Dev nD → Vec Ideal S50000x256 .f32) (col : Fin 256 → Fin 1024) : Prop :=
  ∀ (V : Bufs) (c : Dev nD) (i : Fin 50000) (j : Fin 256),
    o V c (ix2 i j) = (∑ k : Fin 256, xarr0 V c (ix2 i k) * warr0 V c (ix2 k (col j))) + barr0 V c (ix2 (0 : Fin 1) (col j))
abbrev Val0_3 : Prop := Val0 o0_3 fun j => ⟨j.val, by have := j.isLt; omega⟩
abbrev Val0_4 : Prop := Val0 o0_4 fun j => ⟨256 + j.val, by have := j.isLt; omega⟩
abbrev Val0_5 : Prop := Val0 o0_5 fun j => ⟨512 + j.val, by have := j.isLt; omega⟩
abbrev Val0_6 : Prop := Val0 o0_6 fun j => ⟨768 + j.val, by have := j.isLt; omega⟩

abbrev Val1_3 : Prop :=
  ∀ (V : Bufs) (c : Dev nD) (e : Fin 320000) (j : Fin 256),
    o1_3 V c (ix2 e j) = (∑ k : Fin 256, xarr1 V c (ix2 e k) * warr1 V c (ix2 k j)) + barr1 V c (ix2 (0 : Fin 1) j)

abbrev Val1_4 : Prop :=
  ∀ (V : Bufs) (c : Dev nD) (e : Fin 320000) (j : Fin 256),
    o1_4 V c (ix2 e j) = Ideal.logistic (xarr1 V c (ix2 e j))

-- Entry (p, j) of a linear layer of the reference: row p of the features against row j of the weight, plus entry j of the bias.
theorem ref_v8_apply (x : Vec Ideal S50000x256 .f32) (w : Vec Ideal S256x256 .f32) (b : Vec Ideal S256 .f32)
    (p : Fin 50000) (j : Fin 256) :
    val_main_v8 (F := Ideal) x w b (ix2 p j) = (∑ k : Fin 256, x (ix2 p k) * w (ix2 j k)) + b (ix1 j) := by
  rw [val_main_v8_apply, val_main_v5_apply, val_main_v7_apply, val_main_v6_apply]
  show (∑ k : Fin 256, _) + _ = _
  congr 1
  · refine Finset.sum_congr rfl fun k _ => ?_
    rw [val_main_v4_apply]
    rw [show lidx_main_v5 (ix2 p j) k = ix2 p k from (eq_ix2 _).trans rfl,
      show idx_main_v4 (ridx_main_v5 (ix2 p j) k) = ix2 j k from (eq_ix2 _).trans rfl]
  · rw [show idx_main_v6 (idx_main_v7 (ix2 p j)) = ix1 j from (eq_ix1 _).trans rfl]

theorem ref_v82_apply (x : Vec Ideal S320000x256 .f32) (w : Vec Ideal S256x256 .f32) (b : Vec Ideal S256 .f32)
    (e : Fin 320000) (j : Fin 256) :
    val_main_v82 (F := Ideal) x w b (ix2 e j) = (∑ k : Fin 256, x (ix2 e k) * w (ix2 j k)) + b (ix1 j) := by
  rw [val_main_v82_apply, val_main_v79_apply, val_main_v81_apply, val_main_v80_apply]
  show (∑ k : Fin 256, _) + _ = _
  congr 1
  · refine Finset.sum_congr rfl fun k _ => ?_
    rw [val_main_v78_apply]
    rw [show lidx_main_v79 (ix2 e j) k = ix2 e k from (eq_ix2 _).trans rfl,
      show idx_main_v78 (ridx_main_v79 (ix2 e j) k) = ix2 j k from (eq_ix2 _).trans rfl]
  · rw [show idx_main_v80 (idx_main_v81 (ix2 e j)) = ix1 j from (eq_ix1 _).trans rfl]

-- One over one plus the exponential of the negated entry is the logistic function.
theorem ref_v29_apply (x : Vec Ideal S320000x256 .f32) (i : S320000x256.Idx) :
    val_main_v29 (F := Ideal) x i = Ideal.logistic (x i) := by
  rw [val_main_v29_apply, val_main_v28_apply, val_main_cst_0_apply, val_main_v27_apply, val_main_v26_apply,
    val_main_cst_apply, val_main_v25_apply, val_main_v24_apply]
  show Ideal.div (Ideal.ofBits .f32 0x3F800000#32) (Ideal.ofBits .f32 0x3F800000#32 + Ideal.exp (-(x i))) = _
  rw [show Ideal.ofBits .f32 0x3F800000#32 = 1 from IdealRules.sign_bit.ideal_onePat .f32]
  rfl

section Fold
variable (m : (ℓ : Loc nD τ sig) → Buf (Elt Ideal) ℓ) (c : Dev nD)

abbrev arg0 : Vec Ideal S50000x256 .f32 := m ((c : Thread nD τ).loc main_arg0)
abbrev arg1 : Vec Ideal S2x320000 .i32 := m ((c : Thread nD τ).loc main_arg1)
abbrev arg2 : Vec Ideal S320000x256 .f32 := m ((c : Thread nD τ).loc main_arg2)
abbrev arg3 : Vec Ideal S256x256 .f32 := m ((c : Thread nD τ).loc main_arg3)
abbrev arg4 : Vec Ideal S256 .f32 := m ((c : Thread nD τ).loc main_arg4)
abbrev arg5 : Vec Ideal S256x256 .f32 := m ((c : Thread nD τ).loc main_arg5)
abbrev arg6 : Vec Ideal S256 .f32 := m ((c : Thread nD τ).loc main_arg6)
abbrev arg7 : Vec Ideal S256x256 .f32 := m ((c : Thread nD τ).loc main_arg7)
abbrev arg8 : Vec Ideal S256 .f32 := m ((c : Thread nD τ).loc main_arg8)
abbrev arg9 : Vec Ideal S256x256 .f32 := m ((c : Thread nD τ).loc main_arg9)
abbrev arg10 : Vec Ideal S256 .f32 := m ((c : Thread nD τ).loc main_arg10)
abbrev arg11 : Vec Ideal S256x256 .f32 := m ((c : Thread nD τ).loc main_arg11)
abbrev arg12 : Vec Ideal S256 .f32 := m ((c : Thread nD τ).loc main_arg12)

abbrev x1k : Vec Ideal S50000x256 .f32 := W2 m c main_v11_0
abbrev x2k : Vec Ideal S50000x256 .f32 := W2 m c main_v11_1
abbrev x3k : Vec Ideal S50000x256 .f32 := W2 m c main_v11_2
abbrev x4k : Vec Ideal S50000x256 .f32 := W2 m c main_v11_3
abbrev w1ek : Vec Ideal S320000x256 .f32 := W4 m c main_v14_0
abbrev sigk : Vec Ideal S320000x256 .f32 := W4 m c main_v14_1
abbrev srck : Vec Ideal S320000 .i32 := W1 m c main_v1
abbrev dstk : Vec Ideal S320000 .i32 := W1 m c main_v3

theorem W1_of (r : Ref sig .tc) (h : r ∉ hostOps0_W) : W1 m c r = m ((c : Thread nD τ).loc r) :=
  StableHlo.after_of_writes_sub hostOps0 _ hostOps0_writes h

abbrev wpieces : List ((s : Shape) × (s.Idx → Elt Ideal .f32)) :=
  [arg3 m c, arg5 m c, arg7 m c, arg9 m c].map fun a => ⟨S256x256, transpose S256x256 [1, 0] a transposes_S256x256_S256x256_1_0⟩

abbrev bpieces : List ((s : Shape) × (s.Idx → Elt Ideal .f32)) :=
  [arg4 m c, arg6 m c, arg8 m c, arg10 m c].map (⟨S256, ·⟩)

theorem W1_v8 : (W1 m c main_v8 : Vec Ideal S256x1024 .f32) = concatenate S256x1024 1 (wpieces m c)
      concatenates_S256x256_S256x256_S256x256_S256x256_S256x1024_d1 := by
  show StableHlo.after hostOps0 _ (Proc.devRef .tc main_v8) = _
  after_results
  rfl

theorem W1_v10 : (W1 m c main_v10 : Vec Ideal S1x1024 .f32) = shapeCast S1x1024 (concatenate S1024 0 (bpieces m c)
      concatenates_S256_S256_S256_S256_S1024_d0) shapeCasts_S1024_S1x1024 := by
  show StableHlo.after hostOps0 _ (Proc.devRef .tc main_v10) = _
  after_results
  rfl

theorem x_entry0 : xarr0 (atTc (W1 m)) c = arg0 m c := W1_of m c main_arg0 (by decide)

section Band
variable (q : Nat) (hq : q < 4) (w : Vec Ideal S256x256 .f32) (b : Vec Ideal S256 .f32)
  (hw : (wpieces m c)[q]'hq = ⟨S256x256, transpose S256x256 [1, 0] w transposes_S256x256_S256x256_1_0⟩)
  (hb : (bpieces m c)[q]'hq = ⟨S256, b⟩) (col : Fin 256 → Fin 1024) (hcol : ∀ j, 256 * q + j.val = (col j).val)

include hw hcol in
-- Column 256 q + j of the panel is row j of weight q: piece q of the concatenation, transposed.
theorem w_entry0 (k j : Fin 256) : warr0 (atTc (W1 m)) c (ix2 k (col j)) = w (ix2 j k) := by
  show (W1 m c main_v8 : Vec Ideal S256x1024 .f32) (ix2 k (col j)) = _
  rw [W1_v8]
  refine (concatenate_apply_piece (1 : Fin S256x1024.rank) (wpieces m c) _ (ix2 k (col j)) q hq S256x256 _ hw rfl (256 * q) ?_
    (ix2 k j) ?_ (hcol j)).trans (transpose_ix2_apply _ _ k j)
  · match q, hq with
    | 0, _ | 1, _ | 2, _ | 3, _ => rfl
  · intro a ha
    match a, ha with
    | ⟨0, _⟩, _ => rfl
    | ⟨1, _⟩, ha => exact absurd rfl ha

include hb hcol in
-- Entry 256 q + j of the bias row is entry j of bias q.
theorem b_entry0 (j : Fin 256) : barr0 (atTc (W1 m)) c (ix2 (0 : Fin 1) (col j)) = b (ix1 j) := by
  show (W1 m c main_v10 : Vec Ideal S1x1024 .f32) (ix2 (0 : Fin 1) (col j)) = _
  rw [W1_v10, shapeCast_a_1a_apply]
  refine concatenate_apply_piece (0 : Fin S1024.rank) (bpieces m c) _ (ix1 (col j)) q hq S256 _ hb rfl (256 * q) ?_ (ix1 j) ?_
    (hcol j)
  · match q, hq with
    | 0, _ | 1, _ | 2, _ | 3, _ => rfl
  · intro a ha
    match a, ha with
    | ⟨0, _⟩, ha => exact absurd rfl ha

include hw hb hcol in
-- Features against band q of the panel plus band q of the bias row: the linear layer with weight q and bias q.
theorem lin0_eq (o : Vec Ideal S50000x256 .f32)
    (ho : ∀ (i : Fin 50000) (j : Fin 256), o (ix2 i j)
      = (∑ k : Fin 256, xarr0 (atTc (W1 m)) c (ix2 i k) * warr0 (atTc (W1 m)) c (ix2 k (col j)))
        + barr0 (atTc (W1 m)) c (ix2 (0 : Fin 1) (col j))) :
    o = val_main_v8 (F := Ideal) (arg0 m c) w b := by
  funext i
  obtain ⟨p, j, rfl⟩ : ∃ (p : Fin 50000) (j : Fin 256), i = ix2 p j := ⟨i 0, i 1, eq_ix2 i⟩
  rw [ref_v8_apply, ho, x_entry0, b_entry0 m c q hq b hb col hcol]
  congr 1
  exact Finset.sum_congr rfl fun k _ => by rw [w_entry0 m c q hq w hw col hcol]

end Band

theorem x1_eq (h0 : Val0_3) : x1k m c = val_main_v8 (F := Ideal) (arg0 m c) (arg3 m c) (arg4 m c) :=
  (W2_arr m c 3).trans (lin0_eq m c 0 (by decide) (arg3 m c) (arg4 m c) rfl rfl _ (fun j => Nat.zero_add _) _ (h0 (atTc (W1 m)) c))

theorem x2_eq (h0 : Val0_4) : x2k m c = val_main_v13 (F := Ideal) (arg0 m c) (arg5 m c) (arg6 m c) :=
  (W2_arr m c 4).trans (lin0_eq m c 1 (by decide) (arg5 m c) (arg6 m c) rfl rfl _ (fun j => rfl) _ (h0 (atTc (W1 m)) c))

theorem x3_eq (h0 : Val0_5) : x3k m c = val_main_v18 (F := Ideal) (arg0 m c) (arg7 m c) (arg8 m c) :=
  (W2_arr m c 5).trans (lin0_eq m c 2 (by decide) (arg7 m c) (arg8 m c) rfl rfl _ (fun j => rfl) _ (h0 (atTc (W1 m)) c))

theorem x4_eq (h0 : Val0_6) : x4k m c = val_main_v23 (F := Ideal) (arg0 m c) (arg9 m c) (arg10 m c) :=
  (W2_arr m c 6).trans (lin0_eq m c 3 (by decide) (arg9 m c) (arg10 m c) rfl rfl _ (fun j => rfl) _ (h0 (atTc (W1 m)) c))

theorem x_entry1 : xarr1 (atTc (W3 m)) c = arg2 m c :=
  (StableHlo.after_of_writes_sub hostOps1 _ hostOps1_writes (by decide)).trans
    ((W2_of_ne m c main_arg2 (by decide)).trans (W1_of m c main_arg2 (by decide)))

theorem w_entry1 (k j : Fin 256) : warr1 (atTc (W3 m)) c (ix2 k j) = arg11 m c (ix2 j k) := by
  have e : (W3 m c main_v12 : Vec Ideal S256x256 .f32)
      = transpose S256x256 [1, 0] (arg11 m c) transposes_S256x256_S256x256_1_0 := by
    show StableHlo.after hostOps1 _ (Proc.devRef .tc main_v12) = _
    after_results
    rw [W2_of_ne m c main_arg11 (by decide), W1_of m c main_arg11 (by decide)]
  exact (congrFun e (ix2 k j)).trans (transpose_ix2_apply _ _ k j)

theorem b_entry1 (j : Fin 256) : barr1 (atTc (W3 m)) c (ix2 (0 : Fin 1) j) = arg12 m c (ix1 j) := by
  have e : (W3 m c main_v13 : Vec Ideal S1x256 .f32) = shapeCast S1x256 (arg12 m c) shapeCasts_S256_S1x256 := by
    show StableHlo.after hostOps1 _ (Proc.devRef .tc main_v13) = _
    after_results
    rw [W2_of_ne m c main_arg12 (by decide), W1_of m c main_arg12 (by decide)]
    rfl
  exact (congrFun e (ix2 0 j)).trans (shapeCast_a_1a_apply _ _ 0 j)

theorem w1e_eq (h1 : Val1_3) : w1ek m c = val_main_v82 (F := Ideal) (arg2 m c) (arg11 m c) (arg12 m c) := by
  funext i
  obtain ⟨e, j, rfl⟩ : ∃ (e : Fin 320000) (j : Fin 256), i = ix2 e j := ⟨i 0, i 1, eq_ix2 i⟩
  rw [ref_v82_apply]
  refine (congrFun (W4_arr m c 3) (ix2 e j)).trans ((h1 (atTc (W3 m)) c e j).trans ?_)
  rw [x_entry1, b_entry1]
  congr 1
  exact Finset.sum_congr rfl fun k _ => by rw [w_entry1]

theorem sig_eq (h1 : Val1_4) : sigk m c = val_main_v29 (F := Ideal) (arg2 m c) := by
  funext i
  obtain ⟨e, j, rfl⟩ : ∃ (e : Fin 320000) (j : Fin 256), i = ix2 e j := ⟨i 0, i 1, eq_ix2 i⟩
  rw [ref_v29_apply, ← x_entry1]
  exact (congrFun (W4_arr m c 4) (ix2 e j)).trans (h1 (atTc (W3 m)) c e j)

theorem src_eq : srck m c = val_main_v1 (F := Ideal) (arg1 m c) := by
  show StableHlo.after hostOps0 _ (Proc.devRef .tc main_v1) = _
  after_results
  rfl

theorem dst_eq : dstk m c = val_main_v3 (F := Ideal) (arg1 m c) := by
  show StableHlo.after hostOps0 _ (Proc.devRef .tc main_v3) = _
  after_results
  rfl

end Fold

section Finite

-- A finite sum of products of reals plus a real is a real.
theorem lin_real {n : Nat} (v x : Vec Ideal ⟨2, ![n, 256]⟩ .f32) (w : Vec Ideal S256x256 .f32) (b : Vec Ideal S256 .f32)
    (hv : ∀ p j, v (ix2 p j) = (∑ k : Fin 256, x (ix2 p k) * w (ix2 j k)) + b (ix1 j))
    (hx : ∀ i, ∃ r : ℝ, x i = (r : EReal)) (hw : ∀ i, ∃ r : ℝ, w i = (r : EReal)) (hb : ∀ i, ∃ r : ℝ, b i = (r : EReal))
    (i : (⟨2, ![n, 256]⟩ : Shape).Idx) : ∃ r : ℝ, v i = (r : EReal) := by
  obtain ⟨p, j, rfl⟩ : ∃ (p : Fin n) (j : Fin 256), i = ix2 p j := ⟨i 0, i 1, eq_ix2 i⟩
  choose xx hxx using hx
  choose ww hww using hw
  obtain ⟨bb, hbb⟩ := hb (ix1 j)
  refine ⟨(∑ k, xx (ix2 p k) * ww (ix2 j k)) + bb, ?_⟩
  rw [hv, hbb, EReal.coe_add, Cert.ERealCoe.coe_sum]
  congr 1
  exact Finset.sum_congr rfl fun k _ => by rw [hxx, hww, EReal.coe_mul]

variable (x : Vec Ideal S50000x256 .f32) (xe : Vec Ideal S320000x256 .f32) (w : Vec Ideal S256x256 .f32) (b : Vec Ideal S256 .f32)
  (hx : ∀ i, ∃ r : ℝ, x i = (r : EReal)) (hxe : ∀ i, ∃ r : ℝ, xe i = (r : EReal))
  (hw : ∀ i, ∃ r : ℝ, w i = (r : EReal)) (hb : ∀ i, ∃ r : ℝ, b i = (r : EReal))

section Node
include hx hw hb
theorem ref_v8_real : ∀ i, ∃ r : ℝ, val_main_v8 (F := Ideal) x w b i = (r : EReal) :=
  lin_real _ x w b (ref_v8_apply x w b) hx hw hb
theorem ref_v13_real : ∀ i, ∃ r : ℝ, val_main_v13 (F := Ideal) x w b i = (r : EReal) := ref_v8_real x w b hx hw hb
theorem ref_v18_real : ∀ i, ∃ r : ℝ, val_main_v18 (F := Ideal) x w b i = (r : EReal) := ref_v8_real x w b hx hw hb
theorem ref_v23_real : ∀ i, ∃ r : ℝ, val_main_v23 (F := Ideal) x w b i = (r : EReal) := ref_v8_real x w b hx hw hb
end Node
include hxe hw hb in
theorem ref_v82_real : ∀ i, ∃ r : ℝ, val_main_v82 (F := Ideal) xe w b i = (r : EReal) :=
  lin_real _ xe w b (ref_v82_apply xe w b) hxe hw hb
include hxe in
theorem ref_v29_real : ∀ i, ∃ r : ℝ, val_main_v29 (F := Ideal) xe i = (r : EReal) := by
  intro i
  obtain ⟨r, hr⟩ := hxe i
  rw [ref_v29_apply, hr, Ideal.logistic_coe]
  exact ⟨_, rfl⟩

end Finite

end Cert.KernelIdeal.HandV

end
-- ==== Proof.LibTRef.lean ====
import Idealize.ShloMosaic.Lib.StableHlo

namespace Idealize.ShloMosaic.StableHlo.TRef

open Idealize.ShloMosaic

variable {sig : RefSig} {T : BufTy} {Val : EltTy → Type}

/-- Contents carried to a buffer's own type and back are unchanged. -/
theorem ofBuf_toBuf (x : TRef sig T) (v : T.Contents Val) : x.ofBuf (x.toBuf v) = v := by
  obtain ⟨r, h, h2, h3⟩ := x
  subst h
  rfl

end Idealize.ShloMosaic.StableHlo.TRef
-- ==== Proof.KI.EdgeAgg.lean ====
import proofs.«413128_j44495861187321_1_alg».proof.Proof.KI.Fold
import proofs.«413128_j44495861187321_1_alg».proof.Proof.Gen.KernelIdeal.Regions
import proofs.«413128_j44495861187321_1_alg».proof.Proof.RefRun
import proofs.«413128_j44495861187321_1_alg».proof.Proof.LibTRef
import proofs.«413128_j44495861187321_1_alg».proof.Proof.LibERealCoe
import Idealize.ShloMosaic.Lib.StableHlo.Run
import Idealize.ShloMosaic.Lib.ReduceAll
import Idealize.ShloMosaic.Lib.ValueIdx
import Idealize.ShloMosaic.PureOps.Ideal.Laws
import Idealize.ShloMosaic.Lib.IdealHost
import Mathlib.Data.EReal.Basic
import Mathlib.Data.EReal.Operations
import Mathlib.Algebra.BigOperators.Group.Finset.Basic

noncomputable section

namespace Cert.KernelIdeal.HandV

open Cert.KernelIdeal Cert.KernelIdeal.Gen Cert.KernelIdeal.Hand Cert.ReferenceIdeal.Read
open Idealize.ShloMosaic Idealize.ShloMosaic.TcCoe Idealize.ShloMosaic.ValueIdx

variable {F : FTy → Type} [FloatOps F]

theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_ones f l fun n hn => h n (List.mem_cons_of_mem _ hn)

-- The converse of the library's `Host.reduce_andi_eq_one`: an array of ones reduces to one.
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x _ fun n _ => hx n

def wrapIdx (idx : IVec S320000 32) : IVec S320000 32 :=
  select (cmpi .slt idx (broadcastInDim S320000 ![] bcast_S_S320000 (constantI S_ 32 0#32)))
    (addi idx (broadcastInDim S320000 ![] bcast_S_S320000 (constantI S_ 32 50000#32))) idx

theorem wrapIdx_of_nonneg (idx : IVec S320000 32) (k : S320000.Idx) (h : 0 ≤ (idx k).toInt) : wrapIdx idx k = idx k := by
  refine if_neg ?_
  show ¬ (IntOp.cmpi .slt (idx k) (0#32) = 1#1)
  rw [IntOp.cmpi_slt, show (0#32 : BitVec 32).toInt = 0 from by decide]
  omega

-- One where the wrapped row number lies in [0, 49999].
def inRange (idx : IVec S320000 32) : IVec S320000 1 :=
  Host.reduce IntOp.andi
    (andi
      (cmpi .sge (broadcastInDim S320000x1 ![0] bcast_S320000_S320000x1_0 (wrapIdx idx))
        (broadcastInDim S320000x1 ![] bcast_S_S320000x1 (constantI S_ 32 0#32)))
      (cmpi .sle (broadcastInDim S320000x1 ![0] bcast_S320000_S320000x1_0 (wrapIdx idx))
        (broadcastInDim S320000x1 ![0, 1] bcast_S1x1_S320000x1_0_1
          (broadcastInDim S1x1 ![1] bcast_S1_S1x1_1 (constantI S1 32 49999#32)))))
    (constantI S_ 1 1#1) reducesTo_S320000x1_S320000_d1 h_S_

theorem inRange_one (idx : IVec S320000 32) (hidx : ∀ k, 0 ≤ (idx k).toInt ∧ (idx k).toInt < 50000) (j : S320000.Idx) :
    inRange idx j = 1#1 := by
  refine reduce_andi_ones _ _ _ _ (fun _ => rfl) (fun r => ?_) j
  obtain ⟨k, hk⟩ : ∃ k, broadcastInDim S320000x1 ![0] bcast_S320000_S320000x1_0 (wrapIdx idx) r = idx k :=
    ⟨_, wrapIdx_of_nonneg idx _ (hidx _).1⟩
  show IntOp.andi (IntOp.cmpi .sge (broadcastInDim S320000x1 ![0] bcast_S320000_S320000x1_0 (wrapIdx idx) r) (0#32))
    (IntOp.cmpi .sle (broadcastInDim S320000x1 ![0] bcast_S320000_S320000x1_0 (wrapIdx idx) r) (49999#32)) = 1#1
  rw [hk, IntOp.andi_eq_one, IntOp.cmpi_sge, IntOp.cmpi_sle, show (0#32 : BitVec 32).toInt = 0 from by decide,
    show (49999#32 : BitVec 32).toInt = 49999 from by decide]
  have := hidx k
  omega

-- The rows of X at the wrapped row numbers, a row whose number falls outside the array replaced by a filler.
@[irreducible] def takeTerm (X : (⟨S50000x256, .f32⟩ : BufTy).Contents (Elt F)) (idx : IVec S320000 32) :
    (⟨S320000x256, .f32⟩ : BufTy).Contents (Elt F) :=
  select (broadcastInDim S320000x256 ![0] bcast_S320000_S320000x256_0 (inRange idx))
    (Host.gather gather_S50000x256_S320000x1_S320000x256_1_0_n_n_0_1_1256 X
      (broadcastInDim S320000x1 ![0] bcast_S320000_S320000x1_0 (wrapIdx idx)))
    (broadcastInDim S320000x256 ![] bcast_S_S320000x256 (constant S_ .f32 0x7FC00000#32))

theorem takeTerm_eq (X : (⟨S50000x256, .f32⟩ : BufTy).Contents (Elt F)) (idx : IVec S320000 32)
    (hidx : ∀ k, 0 ≤ (idx k).toInt ∧ (idx k).toInt < 50000) :
    takeTerm X idx = Host.gather gather_S50000x256_S320000x1_S320000x256_1_0_n_n_0_1_1256 X
      (broadcastInDim S320000x1 ![0] bcast_S320000_S320000x1_0 (wrapIdx idx)) := by
  funext i
  unfold takeTerm
  show Scalar.select (inRange idx _) _ _ = _
  rw [inRange_one idx hidx, select_one]

theorem idx_range (arg1 : IVec S2x320000 32)
    (hidx : ∀ (a : Fin 2) (e : Fin 320000), 0 ≤ (arg1 (ix2 a e)).toInt ∧ (arg1 (ix2 a e)).toInt < 50000) :
    (∀ k, 0 ≤ (val_main_v1 (F := F) arg1 k).toInt ∧ (val_main_v1 (F := F) arg1 k).toInt < 50000)
      ∧ ∀ k, 0 ≤ (val_main_v3 (F := F) arg1 k).toInt ∧ (val_main_v3 (F := F) arg1 k).toInt < 50000 := by
  refine ⟨fun k => ?_, fun k => ?_⟩
  · rw [val_main_v1_apply, val_main_v0_apply, eq_ix2 (idx_main_v0 _)]
    exact hidx _ _
  · rw [val_main_v3_apply, val_main_v2_apply, eq_ix2 (idx_main_v2 _)]
    exact hidx _ _

section Take

variable (Wp : Valuation τ sig (Elt F)) (arg0 : (⟨S50000x256, .f32⟩ : BufTy).Contents (Elt F)) (arg1 : IVec S2x320000 32)
  (arg2 : (⟨S320000x256, .f32⟩ : BufTy).Contents (Elt F))
  (arg5 arg7 arg9 : (⟨S256x256, .f32⟩ : BufTy).Contents (Elt F)) (arg6 arg8 arg10 : (⟨S256, .f32⟩ : BufTy).Contents (Elt F))

set_option maxRecDepth 8192 in
set_option maxHeartbeats 4000000 in
theorem after2_v15 : StableHlo.after hostOps2 Wp main_v15 = takeTerm (Wp main_v11_1) (Wp main_v3) := by
  have h : StableHlo.after hostOps2 Wp main_v15
      = (.of main_v15 : StableHlo.TRef sig ⟨S320000x256, .f32⟩).toBuf
          (takeTerm ((.of main_v11_1 : StableHlo.TRef sig ⟨S50000x256, .f32⟩).ofBuf (Wp main_v11_1))
            ((.of main_v3 : StableHlo.TRef sig ⟨S320000, .i32⟩).ofBuf (Wp main_v3))) := by
    after_results_simp
    simp only [StableHlo.TRef.ofBuf_toBuf]
    unfold takeTerm
    rfl
  exact h

set_option maxRecDepth 8192 in
set_option maxHeartbeats 4000000 in
theorem after4_v39 : StableHlo.after hostOps4 Wp main_v39 = takeTerm (Wp main_v11_2) (Wp main_v1) := by
  have h : StableHlo.after hostOps4 Wp main_v39
      = (.of main_v39 : StableHlo.TRef sig ⟨S320000x256, .f32⟩).toBuf
          (takeTerm ((.of main_v11_2 : StableHlo.TRef sig ⟨S50000x256, .f32⟩).ofBuf (Wp main_v11_2))
            ((.of main_v1 : StableHlo.TRef sig ⟨S320000, .i32⟩).ofBuf (Wp main_v1))) := by
    after_results_simp
    simp only [StableHlo.TRef.ofBuf_toBuf]
    unfold takeTerm
    rfl
  exact h

set_option maxRecDepth 8192 in
set_option maxHeartbeats 4000000 in
theorem after4_1_v40 : StableHlo.after hostOps4_1 Wp main_v40 = takeTerm (Wp main_v11_3) (Wp main_v3) := by
  have h : StableHlo.after hostOps4_1 Wp main_v40
      = (.of main_v40 : StableHlo.TRef sig ⟨S320000x256, .f32⟩).toBuf
          (takeTerm ((.of main_v11_3 : StableHlo.TRef sig ⟨S50000x256, .f32⟩).ofBuf (Wp main_v11_3))
            ((.of main_v3 : StableHlo.TRef sig ⟨S320000, .i32⟩).ofBuf (Wp main_v3))) := by
    after_results_simp
    simp only [StableHlo.TRef.ofBuf_toBuf]
    unfold takeTerm
    rfl
  exact h

theorem take2_ref (hx : Wp main_v11_1 = val_main_v13 arg0 arg5 arg6) (hi : Wp main_v3 = val_main_v3 (F := F) arg1)
    (hidx : ∀ (a : Fin 2) (e : Fin 320000), 0 ≤ (arg1 (ix2 a e)).toInt ∧ (arg1 (ix2 a e)).toInt < 50000) :
    StableHlo.after hostOps2 Wp main_v15 = val_main_v36 arg0 arg1 arg5 arg6 := by
  rw [after2_v15, hx, hi, takeTerm_eq _ _ (idx_range arg1 hidx).2]
  rfl

set_option maxRecDepth 8192 in
set_option maxHeartbeats 4000000 in
theorem agg_eq (hs : Wp main_v14_1 = val_main_v29 arg2) (ht : Wp main_v15 = val_main_v36 arg0 arg1 arg5 arg6)
    (hsrc : Wp main_v1 = val_main_v1 (F := F) arg1) :
    StableHlo.after hostOps2_1 Wp main_v28 = val_main_v49 arg0 arg1 arg2 arg5 arg6 := by
  after_results_simp
  rw [hs, ht, hsrc]
  rfl

theorem take3_ref (hx : Wp main_v11_2 = val_main_v18 arg0 arg7 arg8) (hi : Wp main_v1 = val_main_v1 (F := F) arg1)
    (hidx : ∀ (a : Fin 2) (e : Fin 320000), 0 ≤ (arg1 (ix2 a e)).toInt ∧ (arg1 (ix2 a e)).toInt < 50000) :
    StableHlo.after hostOps4 Wp main_v39 = val_main_v89 arg0 arg1 arg7 arg8 := by
  rw [after4_v39, hx, hi, takeTerm_eq _ _ (idx_range arg1 hidx).1]
  rfl

theorem take4_ref (hx : Wp main_v11_3 = val_main_v23 arg0 arg9 arg10) (hi : Wp main_v3 = val_main_v3 (F := F) arg1)
    (hidx : ∀ (a : Fin 2) (e : Fin 320000), 0 ≤ (arg1 (ix2 a e)).toInt ∧ (arg1 (ix2 a e)).toInt < 50000) :
    StableHlo.after hostOps4_1 Wp main_v40 = val_main_v97 arg0 arg1 arg9 arg10 := by
  rw [after4_1_v40, hx, hi, takeTerm_eq _ _ (idx_range arg1 hidx).2]
  rfl

end Take

section Real

open scoped BigOperators

theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

theorem real_sum {ι : Type} (S : Finset ι) (f : ι → EReal) (h : ∀ i, ∃ r : ℝ, f i = (r : EReal)) :
    ∃ r : ℝ, ∑ i ∈ S, f i = (r : EReal) := by
  choose g hg using h
  exact ⟨∑ i ∈ S, g i, (Finset.sum_congr rfl fun i _ => hg i).trans (Cert.ERealCoe.coe_sum S g).symm⟩

-- The divisor is at least one, so the ideal quotient is the real quotient.
theorem real_div_max_one {a c : EReal} (ha : ∃ r : ℝ, a = (r : EReal)) (hc : ∃ r : ℝ, c = (r : EReal)) :
    ∃ r : ℝ, Ideal.div a (max c 1) = (r : EReal) := by
  obtain ⟨r, rfl⟩ := ha
  obtain ⟨n, rfl⟩ := hc
  exact ⟨r * (1 / max n 1), by rw [← EReal.coe_one, ← Cert.ERealCoe.coe_max, Cert.ERealCoe.div_coe_max_one]⟩

-- Every entry of an accumulating scatter is the operand's entry plus a finite sum of updates.
theorem scatterAdd_real {s si u : Shape} {w : Nat} (d : ScatterDims s si u) (x : FVec Ideal s .f32) (idx : IVec si w)
    (upd : FVec Ideal u .f32) (hx : ∀ i, ∃ r : ℝ, x i = (r : EReal)) (hu : ∀ j, ∃ r : ℝ, upd j = (r : EReal)) (i : s.Idx) :
    ∃ r : ℝ, Host.scatterAdd d x idx upd i = (r : EReal) :=
  real_add (hx i) (real_sum (Finset.univ.filter fun j => d.resultIdx? j idx = some i) _ hu)

theorem real_zero : ∃ r : ℝ, Ideal.ofBits .f32 0x00000000#32 = (r : EReal) := ⟨0, Ideal.ofBits_zero_f32⟩

theorem real_one : ∃ r : ℝ, Ideal.ofBits .f32 0x3F800000#32 = (r : EReal) := ⟨1, Ideal.ofBits_one_f32⟩

variable (arg0 : (⟨S50000x256, .f32⟩ : BufTy).Contents (Elt Ideal)) (arg1 : IVec S2x320000 32)
  (arg2 : (⟨S320000x256, .f32⟩ : BufTy).Contents (Elt Ideal))
  (arg5 arg7 arg9 : (⟨S256x256, .f32⟩ : BufTy).Contents (Elt Ideal)) (arg6 arg8 arg10 : (⟨S256, .f32⟩ : BufTy).Contents (Elt Ideal))

theorem v89_real (hx : ∀ i, ∃ r : ℝ, val_main_v18 (F := Ideal) arg0 arg7 arg8 i = (r : EReal)) (j : S320000x256.Idx) :
    ∃ r : ℝ, val_main_v89 (F := Ideal) arg0 arg1 arg7 arg8 j = (r : EReal) := hx _

theorem v97_real (hx : ∀ i, ∃ r : ℝ, val_main_v23 (F := Ideal) arg0 arg9 arg10 i = (r : EReal)) (j : S320000x256.Idx) :
    ∃ r : ℝ, val_main_v97 (F := Ideal) arg0 arg1 arg9 arg10 j = (r : EReal) := hx _

-- A finite sum of products of reals, divided by the larger of a count and one.
theorem v49_real (hs : ∀ i, ∃ r : ℝ, val_main_v29 (F := Ideal) arg2 i = (r : EReal))
    (hx : ∀ i, ∃ r : ℝ, val_main_v13 (F := Ideal) arg0 arg5 arg6 i = (r : EReal)) (i : S50000x256.Idx) :
    ∃ r : ℝ, val_main_v49 (F := Ideal) arg0 arg1 arg2 arg5 arg6 i = (r : EReal) := by
  rw [val_main_v49_apply, val_main_v48_apply, val_main_v47_apply, val_main_v46_apply, val_main_v45_apply,
    val_main_cst_5_apply]
  show ∃ r : ℝ, Ideal.div (val_main_v40 (F := Ideal) arg0 arg1 arg2 arg5 arg6 i)
    (max (val_main_v44 (F := Ideal) arg1 _) (Ideal.ofBits .f32 0x3F800000#32)) = (r : EReal)
  rw [Ideal.ofBits_one_f32]
  refine real_div_max_one (scatterAdd_real _ _ _ _ (fun j => ?_) (fun j => ?_) i)
    (scatterAdd_real _ _ _ _ (fun j => ?_) (fun j => ?_) _)
  · rw [val_main_v38_apply, val_main_cst_2_apply]
    exact real_zero
  · rw [val_main_v37_apply]
    exact real_mul (hs j) (hx _)
  · rw [val_main_v42_apply, val_main_cst_4_apply]
    exact real_zero
  · rw [val_main_v41_apply, val_main_cst_3_apply]
    exact real_one

end Real

end Cert.KernelIdeal.HandV

end
-- ==== Proof.KI.Mid.lean ====
import proofs.«413128_j44495861187321_1_alg».proof.Proof.KI.Fold
import proofs.«413128_j44495861187321_1_alg».proof.Proof.Gen.KernelIdeal.Regions
import proofs.«413128_j44495861187321_1_alg».proof.Proof.RefRun

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx Cert.ReferenceIdeal.Read

variable (m : (ℓ : Loc nD τ sig) → Buf (Elt Ideal) ℓ) (c : Dev nD)

section Steps
variable (r : Ref sig .tc)

theorem step2 (h : r ∉ hostOps1_W) : W3 m c r = W2 m c r :=
  StableHlo.after_of_writes_sub hostOps1 _ hostOps1_writes h
theorem step4 (h : r ∉ hostOps2_W) : W5 m c r = W4 m c r :=
  StableHlo.after_of_writes_sub hostOps2 _ hostOps2_writes h
theorem step5 (h : r ∉ hostOps2_1_W) : W6 m c r = W5 m c r :=
  StableHlo.after_of_writes_sub hostOps2_1 _ hostOps2_1_writes h
theorem step7 (h : r ∉ hostOps3_W) : W8 m c r = W7 m c r :=
  StableHlo.after_of_writes_sub hostOps3 _ hostOps3_writes h
theorem step9 (h : r ∉ hostOps4_W) : W10 m c r = W9 m c r :=
  StableHlo.after_of_writes_sub hostOps4 _ hostOps4_writes h
theorem step10 (h : r ∉ hostOps4_1_W) : W11 m c r = W10 m c r :=
  StableHlo.after_of_writes_sub hostOps4_1 _ hostOps4_1_writes h

end Steps

abbrev A (r : Ref sig .tc) : Buf (Elt Ideal) ((c : Thread nD τ).loc r) := m ((c : Thread nD τ).loc r)

/-- Sums of finite reals are finite reals. -/
private theorem real_add {a b : EReal} (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩

section Arrays
variable (V : (c : Dev nD) → (b : Ref sig .tc) → Buf (Elt Ideal) ((c : Thread nD τ).loc b)) (c : Dev nD)

abbrev in2a : Vec Ideal S50000x256 .f32 := V c main_v11_0
abbrev in2b : Vec Ideal S50000x256 .f32 := V c main_v28
abbrev out2h : Vec Ideal S50000x256 .f32 := (dat2 V c).arrAt 2 cfg2.N
abbrev out2s : Vec Ideal S1x256 .f32 := (dat2 V c).arrAt 3 cfg2.N
abbrev out2q : Vec Ideal S1x256 .f32 := (dat2 V c).arrAt 4 cfg2.N
abbrev in4a : Vec Ideal S320000x256 .f32 := V c main_v14_0
abbrev in4b : Vec Ideal S320000x256 .f32 := V c main_v39
abbrev in4c : Vec Ideal S320000x256 .f32 := V c main_v40
abbrev out4h : Vec Ideal S320000x256 .f32 := (dat4 V c).arrAt 3 cfg4.N
abbrev out4s : Vec Ideal S1x256 .f32 := (dat4 V c).arrAt 4 cfg4.N
abbrev out4q : Vec Ideal S1x256 .f32 := (dat4 V c).arrAt 5 cfg4.N

end Arrays

abbrev refX1 : Vec Ideal S50000x256 .f32 := val_main_v8 (A m c main_arg0) (A m c main_arg3) (A m c main_arg4)
abbrev refAgg : Vec Ideal S50000x256 .f32 :=
  val_main_v49 (A m c main_arg0) (A m c main_arg1) (A m c main_arg2) (A m c main_arg5) (A m c main_arg6)
abbrev refH : Vec Ideal S50000x256 .f32 :=
  val_main_v50 (A m c main_arg0) (A m c main_arg1) (A m c main_arg2) (A m c main_arg3) (A m c main_arg4) (A m c main_arg5) (A m c main_arg6)
abbrev kerS : Vec Ideal S1x256 .f32 := W7 m c main_v29_1
abbrev kerQ : Vec Ideal S1x256 .f32 := W7 m c main_v29_2

theorem refH_real (h1 : ∀ i, ∃ r : ℝ, refX1 m c i = (r : EReal)) (h2 : ∀ i, ∃ r : ℝ, refAgg m c i = (r : EReal))
    (i : S50000x256.Idx) : ∃ r : ℝ, refH m c i = (r : EReal) :=
  real_add (h1 i) (h2 i)

section Node

variable
  (x1_eq : W2 m c main_v11_0 = val_main_v8 (A m c main_arg0) (A m c main_arg3) (A m c main_arg4))
  (x2_eq : W2 m c main_v11_1 = val_main_v13 (A m c main_arg0) (A m c main_arg5) (A m c main_arg6))
  (sig_eq : W4 m c main_v14_1 = val_main_v29 (A m c main_arg2))
  (src_eq : W1 m c main_v1 = val_main_v1 (A m c main_arg1))
  (dst_eq : W1 m c main_v3 = val_main_v3 (A m c main_arg1))
  (take2 : ∀ Wp : Valuation τ sig (Elt Ideal),
    Wp main_v11_1 = val_main_v13 (A m c main_arg0) (A m c main_arg5) (A m c main_arg6) →
    Wp main_v3 = val_main_v3 (A m c main_arg1) →
    StableHlo.after hostOps2 Wp main_v15 = val_main_v36 (A m c main_arg0) (A m c main_arg1) (A m c main_arg5) (A m c main_arg6))
  (agg_eq : ∀ Wp : Valuation τ sig (Elt Ideal),
    Wp main_v14_1 = val_main_v29 (A m c main_arg2) →
    Wp main_v15 = val_main_v36 (A m c main_arg0) (A m c main_arg1) (A m c main_arg5) (A m c main_arg6) →
    Wp main_v1 = val_main_v1 (A m c main_arg1) →
    StableHlo.after hostOps2_1 Wp main_v28
      = val_main_v49 (A m c main_arg0) (A m c main_arg1) (A m c main_arg2) (A m c main_arg5) (A m c main_arg6))

include x1_eq x2_eq sig_eq src_eq dst_eq take2 agg_eq

/-- Each input is written by no step from the boundary where it is made up to W6, so the two inputs sum to the reference's array. -/
theorem in2_sum (i : S50000x256.Idx) : in2a (atTc (W6 m)) c i + in2b (atTc (W6 m)) c i = refH m c i := by
  have ea : in2a (atTc (W6 m)) c = refX1 m c := by
    show W6 m c main_v11_0 = _
    rw [step5, step4, W4_of_ne, step2, x1_eq] <;> decide
  have eb : in2b (atTc (W6 m)) c = refAgg m c :=
    agg_eq (W5 m c) (by rw [step4, sig_eq]; decide)
      (take2 (W4 m c) (by rw [W4_of_ne, step2, x2_eq] <;> decide) (by rw [W4_of_ne, step2, W2_of_ne, dst_eq] <;> decide))
      (by rw [step4, W4_of_ne, step2, W2_of_ne, src_eq] <;> decide)
  rw [ea, eb]
  rfl

variable
  (h2_2 : ∀ (V : (c : Dev nD) → (b : Ref sig .tc) → Buf (Elt Ideal) ((c : Thread nD τ).loc b)) (c : Dev nD)
    (i : Fin 50000) (j : Fin 256), out2h V c (ix2 i j) = in2a V c (ix2 i j) + in2b V c (ix2 i j))
  (h2_3 : ∀ (V : (c : Dev nD) → (b : Ref sig .tc) → Buf (Elt Ideal) ((c : Thread nD τ).loc b)) (c : Dev nD)
    (j : Fin 256), out2s V c (ix2 (0 : Fin 1) j) = ∑ i : Fin 50000, (in2a V c (ix2 i j) + in2b V c (ix2 i j)))
  (h2_4 : ∀ (V : (c : Dev nD) → (b : Ref sig .tc) → Buf (Elt Ideal) ((c : Thread nD τ).loc b)) (c : Dev nD)
    (j : Fin 256), out2q V c (ix2 (0 : Fin 1) j)
      = ∑ i : Fin 50000, (in2a V c (ix2 i j) + in2b V c (ix2 i j)) * (in2a V c (ix2 i j) + in2b V c (ix2 i j)))

include h2_2 in
theorem hh : W7 m c main_v29_0 = refH m c :=
  (W7_arr m c 2).trans <| funext fun i => by
    rw [eq_ix2 i]
    exact (h2_2 _ c _ _).trans (in2_sum m c x1_eq x2_eq sig_eq src_eq dst_eq take2 agg_eq _)

include h2_3 in
theorem hs (j : Fin 256) : kerS m c (ix2 (0 : Fin 1) j) = ∑ i : Fin 50000, refH m c (ix2 i j) :=
  (congrFun (W7_arr m c 3) _).trans <| (h2_3 _ c j).trans <|
    Finset.sum_congr rfl fun i _ => in2_sum m c x1_eq x2_eq sig_eq src_eq dst_eq take2 agg_eq _

include h2_4 in
theorem hq (j : Fin 256) :
    kerQ m c (ix2 (0 : Fin 1) j) = ∑ i : Fin 50000, refH m c (ix2 i j) * refH m c (ix2 i j) :=
  (congrFun (W7_arr m c 4) _).trans <| (h2_4 _ c j).trans <|
    Finset.sum_congr rfl fun i _ => by rw [in2_sum m c x1_eq x2_eq sig_eq src_eq dst_eq take2 agg_eq]

end Node

abbrev refW1e : Vec Ideal S320000x256 .f32 := val_main_v82 (A m c main_arg2) (A m c main_arg11) (A m c main_arg12)
abbrev refG3 : Vec Ideal S320000x256 .f32 := val_main_v89 (A m c main_arg0) (A m c main_arg1) (A m c main_arg7) (A m c main_arg8)
abbrev refG4 : Vec Ideal S320000x256 .f32 := val_main_v97 (A m c main_arg0) (A m c main_arg1) (A m c main_arg9) (A m c main_arg10)
abbrev refE : Vec Ideal S320000x256 .f32 :=
  val_main_v98 (A m c main_arg0) (A m c main_arg1) (A m c main_arg2) (A m c main_arg7) (A m c main_arg8) (A m c main_arg9)
    (A m c main_arg10) (A m c main_arg11) (A m c main_arg12)
abbrev kerES : Vec Ideal S1x256 .f32 := W12 m c main_v41_1
abbrev kerEQ : Vec Ideal S1x256 .f32 := W12 m c main_v41_2

theorem refE_real (h1 : ∀ i, ∃ r : ℝ, refW1e m c i = (r : EReal)) (h2 : ∀ i, ∃ r : ℝ, refG3 m c i = (r : EReal))
    (h3 : ∀ i, ∃ r : ℝ, refG4 m c i = (r : EReal)) (i : S320000x256.Idx) : ∃ r : ℝ, refE m c i = (r : EReal) :=
  real_add (real_add (h1 i) (h2 i)) (h3 i)

section Edge

variable
  (x3_eq : W2 m c main_v11_2 = val_main_v18 (A m c main_arg0) (A m c main_arg7) (A m c main_arg8))
  (x4_eq : W2 m c main_v11_3 = val_main_v23 (A m c main_arg0) (A m c main_arg9) (A m c main_arg10))
  (w1e_eq : W4 m c main_v14_0 = val_main_v82 (A m c main_arg2) (A m c main_arg11) (A m c main_arg12))
  (src_eq : W1 m c main_v1 = val_main_v1 (A m c main_arg1))
  (dst_eq : W1 m c main_v3 = val_main_v3 (A m c main_arg1))
  (take3 : ∀ Wp : Valuation τ sig (Elt Ideal),
    Wp main_v11_2 = val_main_v18 (A m c main_arg0) (A m c main_arg7) (A m c main_arg8) →
    Wp main_v1 = val_main_v1 (A m c main_arg1) →
    StableHlo.after hostOps4 Wp main_v39 = val_main_v89 (A m c main_arg0) (A m c main_arg1) (A m c main_arg7) (A m c main_arg8))
  (take4 : ∀ Wp : Valuation τ sig (Elt Ideal),
    Wp main_v11_3 = val_main_v23 (A m c main_arg0) (A m c main_arg9) (A m c main_arg10) →
    Wp main_v3 = val_main_v3 (A m c main_arg1) →
    StableHlo.after hostOps4_1 Wp main_v40 = val_main_v97 (A m c main_arg0) (A m c main_arg1) (A m c main_arg9) (A m c main_arg10))

include x3_eq x4_eq w1e_eq src_eq dst_eq take3 take4

/-- Each input is written by no step from the boundary where it is made up to W11, so the three inputs sum to the reference's array. -/
theorem in4_sum (i : S320000x256.Idx) :
    (in4a (atTc (W11 m)) c i + in4b (atTc (W11 m)) c i) + in4c (atTc (W11 m)) c i = refE m c i := by
  have ea : in4a (atTc (W11 m)) c = refW1e m c := by
    show W11 m c main_v14_0 = _
    rw [step10, step9, W9_of_ne, step7, W7_of_ne, step5, step4, w1e_eq] <;> decide
  have eb : in4b (atTc (W11 m)) c = refG3 m c :=
    (step10 m c main_v39 (by decide)).trans <|
      take3 (W9 m c) (by rw [W9_of_ne, step7, W7_of_ne, step5, step4, W4_of_ne, step2, x3_eq] <;> decide)
        (by rw [W9_of_ne, step7, W7_of_ne, step5, step4, W4_of_ne, step2, W2_of_ne, src_eq] <;> decide)
  have ec : in4c (atTc (W11 m)) c = refG4 m c :=
    take4 (W10 m c) (by rw [step9, W9_of_ne, step7, W7_of_ne, step5, step4, W4_of_ne, step2, x4_eq] <;> decide)
      (by rw [step9, W9_of_ne, step7, W7_of_ne, step5, step4, W4_of_ne, step2, W2_of_ne, dst_eq] <;> decide)
  rw [ea, eb, ec]
  rfl

variable
  (h4_3 : ∀ (V : (c : Dev nD) → (b : Ref sig .tc) → Buf (Elt Ideal) ((c : Thread nD τ).loc b)) (c : Dev nD)
    (e : Fin 320000) (j : Fin 256),
    out4h V c (ix2 e j) = (in4a V c (ix2 e j) + in4b V c (ix2 e j)) + in4c V c (ix2 e j))
  (h4_4 : ∀ (V : (c : Dev nD) → (b : Ref sig .tc) → Buf (Elt Ideal) ((c : Thread nD τ).loc b)) (c : Dev nD)
    (j : Fin 256), out4s V c (ix2 (0 : Fin 1) j)
      = ∑ e : Fin 320000, ((in4a V c (ix2 e j) + in4b V c (ix2 e j)) + in4c V c (ix2 e j)))
  (h4_5 : ∀ (V : (c : Dev nD) → (b : Ref sig .tc) → Buf (Elt Ideal) ((c : Thread nD τ).loc b)) (c : Dev nD)
    (j : Fin 256), out4q V c (ix2 (0 : Fin 1) j)
      = ∑ e : Fin 320000, ((in4a V c (ix2 e j) + in4b V c (ix2 e j)) + in4c V c (ix2 e j))
          * ((in4a V c (ix2 e j) + in4b V c (ix2 e j)) + in4c V c (ix2 e j)))

include h4_3 in
theorem hh' : W12 m c main_v41_0 = refE m c :=
  (W12_arr m c 3).trans <| funext fun i => by
    rw [eq_ix2 i]
    exact (h4_3 _ c _ _).trans (in4_sum m c x3_eq x4_eq w1e_eq src_eq dst_eq take3 take4 _)

include h4_4 in
theorem hs' (j : Fin 256) : kerES m c (ix2 (0 : Fin 1) j) = ∑ e : Fin 320000, refE m c (ix2 e j) :=
  (congrFun (W12_arr m c 4) _).trans <| (h4_4 _ c j).trans <|
    Finset.sum_congr rfl fun e _ => in4_sum m c x3_eq x4_eq w1e_eq src_eq dst_eq take3 take4 _

include h4_5 in
theorem hq' (j : Fin 256) :
    kerEQ m c (ix2 (0 : Fin 1) j) = ∑ e : Fin 320000, refE m c (ix2 e j) * refE m c (ix2 e j) :=
  (congrFun (W12_arr m c 5) _).trans <| (h4_5 _ c j).trans <|
    Finset.sum_congr rfl fun e _ => by rw [in4_sum m c x3_eq x4_eq w1e_eq src_eq dst_eq take3 take4]

end Edge

end Cert.KernelIdeal.HandV

end
-- ==== Proof.KI.BnAlgebra.lean ====
import Idealize.ShloMosaic.PureOps.Ideal
import proofs.«413128_j44495861187321_1_alg».proof.Proof.LibERealCoe
import Mathlib.Data.EReal.Basic
import Mathlib.Data.EReal.Operations
import Mathlib.Data.EReal.Inv
import Mathlib.Analysis.Real.Sqrt
import Mathlib.Algebra.BigOperators.Group.Finset.Basic
import Mathlib.Tactic.Ring
import Mathlib.Tactic.FieldSimp
import Mathlib.Tactic.Linarith

noncomputable section

open scoped BigOperators

namespace Cert.Hand.Bn

open Idealize.ShloMosaic Cert.ERealCoe

section Stmt

variable {M : ℕ} (H : Fin M → EReal) (g b x eps cM : EReal)

def meanK : EReal := Ideal.div (∑ i, H i) cM
def varK : EReal := Ideal.div (∑ i, H i * H i) cM - meanK H cM * meanK H cM
def nK (i : Fin M) : EReal := ((g * (H i - meanK H cM)) * Ideal.rsqrt (varK H cM + eps)) + b
def outK (i : Fin M) : EReal := x + nK H g b eps cM i * Ideal.logistic (nK H g b eps cM i)

def meanR : EReal := Ideal.div (0 + ∑ i, H i) cM
def varR : EReal := Ideal.div (0 + ∑ i, (H i - meanR H cM) * (H i - meanR H cM)) cM
def nR (i : Fin M) : EReal := Ideal.div (g * (H i - meanR H cM)) (Ideal.sqrt (varR H cM + eps)) + b
def outR (i : Fin M) : EReal :=
  x + nR H g b eps cM i * Ideal.div 1 (1 + Ideal.exp (-(nR H g b eps cM i)))

end Stmt

variable {M : ℕ} (h : Fin M → ℝ)

def mu : ℝ := (∑ i, h i) * (1 / M)
def sig : ℝ := (∑ i, (h i - mu h) * (h i - mu h)) * (1 / M)

theorem sig_nonneg : 0 ≤ sig h :=
  mul_nonneg (Finset.sum_nonneg fun i _ => mul_self_nonneg _) (by positivity)

-- Expand (h − μ)², sum, and use Σ h = M·μ.
theorem var_identity (hM : (M : ℝ) ≠ 0) : (∑ i, h i * h i) * (1 / M) - mu h * mu h = sig h := by
  have hS : ∑ i, h i = M * mu h := by unfold mu; field_simp
  unfold sig
  simp only [sub_mul, mul_sub, Finset.sum_sub_distrib, ← Finset.sum_mul, ← Finset.mul_sum,
    Finset.sum_const, Finset.card_univ, Fintype.card_fin, nsmul_eq_mul, hS]
  field_simp
  ring

-- For y > 0 both roots are real, and a / √y = a · (√y)⁻¹.
theorem div_sqrt_eq_mul_rsqrt (a : ℝ) {y : ℝ} (hy : 0 < y) :
    Ideal.div (a : EReal) (Ideal.sqrt (y : EReal)) = (a : EReal) * Ideal.rsqrt (y : EReal) := by
  rw [Ideal.sqrt_coe, Ideal.rsqrt_coe, if_neg (not_lt.mpr hy.le), if_neg (not_lt.mpr hy.le), if_neg hy.ne',
    Ideal.div_coe (Real.sqrt_pos.mpr hy).ne', one_div]

variable (hM : (M : ℝ) ≠ 0)
include hM

theorem meanK_coe : meanK (fun i => (h i : EReal)) (M : ℝ) = (mu h : ℝ) := by
  unfold meanK mu
  rw [← coe_sum, Ideal.div_coe hM, ← EReal.coe_mul]

theorem meanR_coe : meanR (fun i => (h i : EReal)) (M : ℝ) = (mu h : ℝ) := by
  unfold meanR
  rw [zero_add]
  exact meanK_coe h hM

theorem varK_coe : varK (fun i => (h i : EReal)) (M : ℝ) = (sig h : ℝ) := by
  unfold varK
  rw [meanK_coe h hM, ← var_identity h hM]
  simp only [← EReal.coe_mul, ← coe_sum, Ideal.div_coe hM, ← EReal.coe_sub]

theorem varR_coe : varR (fun i => (h i : EReal)) (M : ℝ) = (sig h : ℝ) := by
  unfold varR sig
  rw [meanR_coe h hM, zero_add]
  simp only [← EReal.coe_sub, ← EReal.coe_mul, ← coe_sum, Ideal.div_coe hM]

omit hM

-- On a real column of M > 0 entries, with real scale and ε > 0, the one-pass and the two-pass normalisation agree.
theorem bn_eq (hM : 0 < M) (H : Fin M → EReal) (hH : ∀ i, ∃ r : ℝ, H i = r)
    (g b x eps cM : EReal) (hg : ∃ r : ℝ, g = r) (heps : ∃ e : ℝ, 0 < e ∧ eps = e)
    (hcM : cM = ((M : ℝ) : EReal)) (i : Fin M) :
    outK H g b x eps cM i = outR H g b x eps cM i := by
  choose h hh using hH
  obtain ⟨gr, rfl⟩ := hg
  obtain ⟨e, he, rfl⟩ := heps
  obtain rfl : H = fun i => (h i : EReal) := funext hh
  subst hcM
  have hc : (M : ℝ) ≠ 0 := Nat.cast_ne_zero.mpr hM.ne'
  have hn : nK (fun i => (h i : EReal)) gr b e (M : ℝ) i = nR (fun i => (h i : EReal)) gr b e (M : ℝ) i := by
    unfold nK nR
    rw [varK_coe h hc, varR_coe h hc, meanK_coe h hc, meanR_coe h hc, ← EReal.coe_add, ← EReal.coe_sub,
      ← EReal.coe_mul, div_sqrt_eq_mul_rsqrt _ (add_pos_of_nonneg_of_pos (sig_nonneg h) he)]
  unfold outK outR
  rw [hn]
  rfl

theorem ofBits_50000 : Ideal.ofBits .f32 0x47435000#32 = (((50000 : ℕ) : ℝ) : EReal) := by
  simp [Ideal.ofBits, Ideal.ieee, -EReal.coe_mul]; norm_num

theorem ofBits_320000 : Ideal.ofBits .f32 0x489C4000#32 = (((320000 : ℕ) : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.Hand.Bn

end
-- ==== Proof.KI.BnJoin.lean ====
import proofs.«413128_j44495861187321_1_alg».proof.Proof.KI.Fold
import proofs.«413128_j44495861187321_1_alg».proof.Proof.Gen.KernelIdeal.Regions
import proofs.«413128_j44495861187321_1_alg».proof.Proof.RefRun
import proofs.«413128_j44495861187321_1_alg».proof.Proof.KI.BnAlgebra
import Idealize.ShloMosaic.Lib.StableHlo.Run
import Idealize.ShloMosaic.Lib.IdealHost
import Idealize.ShloMosaic.Lib.ValueIdx
import Idealize.ShloMosaic.Lib.Pipeline.Value

noncomputable section

namespace Cert.KernelIdeal.HandV

open Cert.KernelIdeal Cert.KernelIdeal.Gen Cert.KernelIdeal.Hand Cert.ReferenceIdeal.Read Cert.Hand.Bn
open Idealize.ShloMosaic Idealize.ShloMosaic.TcCoe Idealize.ShloMosaic.ValueIdx

-- A vector laid out as one row holds at (0, j) what the vector holds at j.
theorem row_cast (v : Vec Ideal S256 .f32) (j : Fin 256) :
    shapeCast S1x256 v shapeCasts_S256_S1x256 (ix2 (0 : Fin 1) j) = v (ix1 j) :=
  shapeCast_apply _ shapeCasts_S256_S1x256 (ix2 (0 : Fin 1) j) (ix1 j)
    (by rw [Shape.rowMajor_val_two, Shape.rowMajor_val_one]; show j.val = 0 * 256 + j.val; omega)

theorem idx_vec (z : Fin 1) (j : Fin 256) : idx_main_v54 (ix2 z j) = ix1 j := by
  funext a; match a with | ⟨0, _⟩ => rfl

section Node

variable (m : (ℓ : Loc nD τ sig) → Buf (Elt Ideal) ℓ) (V : (c : Dev nD) → (b : Ref sig .tc) → Buf (Elt Ideal) ((c : Thread nD τ).loc b)) (c : Dev nD)
  (x0 : Vec Ideal S50000x256 .f32) (x1 : Vec Ideal S2x320000 .i32) (x2 : Vec Ideal S320000x256 .f32)
  (x3 : Vec Ideal S256x256 .f32) (x4 : Vec Ideal S256 .f32) (x5 : Vec Ideal S256x256 .f32) (x6 x13 x14 : Vec Ideal S256 .f32)

theorem idx_row (i : Fin 50000) (j : Fin 256) : idx_main_v55 (ix2 i j) = ix2 (0 : Fin 1) j := by
  funext a; match a with | ⟨0, _⟩ => rfl | ⟨1, _⟩ => rfl
theorem idx_col (j : Fin 256) (k : Fin 50000) : idx_main_v51 (ix1 j) k = ix2 k j := by
  funext a; match a with | ⟨0, _⟩ => rfl | ⟨1, _⟩ => rfl

-- The reference's output at (i, j) is the two-pass normalisation of column j of its pre-norm array.
theorem ref_entry (i : Fin 50000) (j : Fin 256) :
    val_main_v77 (F := Ideal) x0 x1 x2 x3 x4 x5 x6 x13 x14 (ix2 i j)
      = outR (fun k : Fin 50000 => val_main_v50 (F := Ideal) x0 x1 x2 x3 x4 x5 x6 (ix2 k j)) (x13 (ix1 j)) (x14 (ix1 j))
          (x0 (ix2 i j)) (Ideal.ofBits .f32 0x3727C5AC#32) (Ideal.ofBits .f32 0x47435000#32) i := by
  simp only [val_main_v77_apply, val_main_v76_apply, val_main_call0_v5_apply, val_main_call0_v4_apply,
    val_main_call0_cst_0_apply, val_main_call0_v3_apply, val_main_call0_v2_apply, val_main_call0_cst_apply,
    val_main_call0_v1_apply, val_main_call0_v0_apply, val_main_v75_apply, val_main_v74_apply, val_main_v73_apply,
    val_main_v72_apply, val_main_v71_apply, val_main_v70_apply, val_main_v69_apply, val_main_v68_apply,
    val_main_v67_apply, val_main_cst_10_apply, val_main_v66_apply, val_main_v65_apply, val_main_v64_apply,
    val_main_v63_apply, val_main_v62_apply, val_main_v61_apply, val_main_v60_apply, val_main_v59_apply,
    val_main_cst_9_apply, val_main_v58_apply, val_main_cst_8_apply, val_main_v57_apply, val_main_v56_apply,
    val_main_v55_apply, val_main_v54_apply, val_main_v53_apply, val_main_v52_apply, val_main_cst_7_apply,
    val_main_v51_apply, val_main_cst_6_apply,
    Ideal.ofBits_def, Ideal.ofBits_zero_f32, Ideal.ofBits_one_f32]
  rw [show idx_main_v62 = idx_main_v55 from rfl,
    show idx_main_v65 = idx_main_v55 from rfl,
    show idx_main_v71 = idx_main_v55 from rfl,
    show idx_main_v74 = idx_main_v55 from rfl,
    show idx_main_v61 = idx_main_v54 from rfl,
    show idx_main_v64 = idx_main_v54 from rfl,
    show idx_main_v70 = idx_main_v54 from rfl,
    show idx_main_v73 = idx_main_v54 from rfl,
    show idx_main_v58 = idx_main_v51 from rfl]
  simp only [idx_row, idx_vec, idx_col]
  rfl

abbrev nX : Vec Ideal S50000x256 .f32 := V c main_arg0
abbrev nH : Vec Ideal S50000x256 .f32 := V c main_v29_0
abbrev nMean : Vec Ideal S1x256 .f32 := V c main_v31
abbrev nVar : Vec Ideal S1x256 .f32 := V c main_v35
abbrev nG : Vec Ideal S1x256 .f32 := V c main_v36
abbrev nB : Vec Ideal S1x256 .f32 := V c main_v37
abbrev nOut : Vec Ideal S50000x256 .f32 := (dat3 V c).arrAt 6 cfg3.N

abbrev nN (i : Fin 50000) (j : Fin 256) : EReal :=
  ((nG V c (ix2 (0 : Fin 1) j) * (nH V c (ix2 i j) - nMean V c (ix2 (0 : Fin 1) j)))
      * Ideal.rsqrt (nVar V c (ix2 (0 : Fin 1) j) + Ideal.ofBits .f32 0x3727C5AC#32)) + nB V c (ix2 (0 : Fin 1) j)

abbrev x7 : Vec Ideal S50000x256 .f32 := W7 m c main_arg0
abbrev h7 : Vec Ideal S50000x256 .f32 := W7 m c main_v29_0
abbrev sum7 : Vec Ideal S1x256 .f32 := W7 m c main_v29_1
abbrev sq7 : Vec Ideal S1x256 .f32 := W7 m c main_v29_2
abbrev g7 : Vec Ideal S256 .f32 := W7 m c main_arg13
abbrev b7 : Vec Ideal S256 .f32 := W7 m c main_arg14
abbrev out9 : Vec Ideal S50000x256 .f32 := W9 m c main_v38

theorem v31_read (j : Fin 256) :
    nMean (atTc (W8 m)) c (ix2 (0 : Fin 1) j) = Ideal.div (sum7 m c (ix2 0 j)) (Ideal.ofBits .f32 0x47435000#32) := by
  show StableHlo.after hostOps3 (W7 m c) (Proc.devRef .tc main_v31) _ = _
  after_results
  rfl

theorem v35_read (j : Fin 256) :
    nVar (atTc (W8 m)) c (ix2 (0 : Fin 1) j)
      = Ideal.div (sq7 m c (ix2 0 j)) (Ideal.ofBits .f32 0x47435000#32)
        - Ideal.div (sum7 m c (ix2 0 j)) (Ideal.ofBits .f32 0x47435000#32)
          * Ideal.div (sum7 m c (ix2 0 j)) (Ideal.ofBits .f32 0x47435000#32) := by
  show StableHlo.after hostOps3 (W7 m c) (Proc.devRef .tc main_v35) _ = _
  after_results
  rfl

theorem v36_read (j : Fin 256) : nG (atTc (W8 m)) c (ix2 (0 : Fin 1) j) = g7 m c (ix1 j) := by
  show StableHlo.after hostOps3 (W7 m c) (Proc.devRef .tc main_v36) _ = _
  after_results
  exact row_cast _ j

theorem v37_read (j : Fin 256) : nB (atTc (W8 m)) c (ix2 (0 : Fin 1) j) = b7 m c (ix1 j) := by
  show StableHlo.after hostOps3 (W7 m c) (Proc.devRef .tc main_v37) _ = _
  after_results
  exact row_cast _ j

theorem arg0_carried : nX (atTc (W8 m)) c = x7 m c :=
  StableHlo.after_of_writes_sub hostOps3 _ hostOps3_writes (by decide)

theorem v29_0_carried : nH (atTc (W8 m)) c = h7 m c :=
  StableHlo.after_of_writes_sub hostOps3 _ hostOps3_writes (by decide)

theorem v38_arr : out9 m c = nOut (atTc (W8 m)) c := by
  unfold out9 W9; exact Pipeline.withArrays_arr spec3 launch3.win.arr_inj c _ _ 6

-- Entry by entry both sides become the two normalisations of one real column, which agree.
theorem xout_eq_of
    (hh : h7 m c = val_main_v50 (F := Ideal) x0 x1 x2 x3 x4 x5 x6)
    (hs : ∀ j : Fin 256, sum7 m c (ix2 (0 : Fin 1) j) = ∑ i : Fin 50000, val_main_v50 (F := Ideal) x0 x1 x2 x3 x4 x5 x6 (ix2 i j))
    (hq : ∀ j : Fin 256, sq7 m c (ix2 (0 : Fin 1) j)
      = ∑ i : Fin 50000, val_main_v50 (F := Ideal) x0 x1 x2 x3 x4 x5 x6 (ix2 i j) * val_main_v50 (F := Ideal) x0 x1 x2 x3 x4 x5 x6 (ix2 i j))
    (h3 : ∀ (V : (c : Dev nD) → (b : Ref sig .tc) → Buf (Elt Ideal) ((c : Thread nD τ).loc b)) (c : Dev nD) (i : Fin 50000) (j : Fin 256),
      nOut V c (ix2 i j) = nX V c (ix2 i j) + nN V c i j * Ideal.logistic (nN V c i j))
    (hx : x7 m c = x0) (hg : g7 m c = x13) (hb : b7 m c = x14)
    (hfin : ∀ i, ∃ r : ℝ, val_main_v50 (F := Ideal) x0 x1 x2 x3 x4 x5 x6 i = r) (hgf : ∀ i, ∃ r : ℝ, x13 i = r) :
    out9 m c = val_main_v77 (F := Ideal) x0 x1 x2 x3 x4 x5 x6 x13 x14 := by
  funext idx
  obtain ⟨i, j, rfl⟩ : ∃ i j, idx = ix2 i j := ⟨idx 0, idx 1, eq_ix2 idx⟩
  rw [ref_entry, v38_arr, h3]
  unfold nN
  rw [arg0_carried, v29_0_carried, v31_read, v35_read, v36_read, v37_read, hx, hh, hs, hq, hg, hb]
  exact bn_eq (M := 50000) (by norm_num) (fun k => val_main_v50 (F := Ideal) x0 x1 x2 x3 x4 x5 x6 (ix2 k j)) (fun k => hfin _) _ _ _ _ _ (hgf _)
    ofBits_eps ofBits_50000 i

end Node

section Edge

variable (m : (ℓ : Loc nD τ sig) → Buf (Elt Ideal) ℓ) (V : (c : Dev nD) → (b : Ref sig .tc) → Buf (Elt Ideal) ((c : Thread nD τ).loc b)) (c : Dev nD)
  (x0 : Vec Ideal S50000x256 .f32) (x1 : Vec Ideal S2x320000 .i32) (x2 : Vec Ideal S320000x256 .f32)
  (x7 : Vec Ideal S256x256 .f32) (x8 : Vec Ideal S256 .f32) (x9 : Vec Ideal S256x256 .f32) (x10 : Vec Ideal S256 .f32)
  (x11 : Vec Ideal S256x256 .f32) (x12 x15 x16 : Vec Ideal S256 .f32)

theorem idx_row_e (i : Fin 320000) (j : Fin 256) : idx_main_v103 (ix2 i j) = ix2 (0 : Fin 1) j := by
  funext a; match a with | ⟨0, _⟩ => rfl | ⟨1, _⟩ => rfl
theorem idx_col_e (j : Fin 256) (k : Fin 320000) : idx_main_v99 (ix1 j) k = ix2 k j := by
  funext a; match a with | ⟨0, _⟩ => rfl | ⟨1, _⟩ => rfl

-- The reference's output at (i, j) is the two-pass normalisation of column j of its pre-norm array.
theorem ref_entry_e (i : Fin 320000) (j : Fin 256) :
    val_main_v125 (F := Ideal) x0 x1 x2 x7 x8 x9 x10 x11 x12 x15 x16 (ix2 i j)
      = outR (fun k : Fin 320000 => val_main_v98 (F := Ideal) x0 x1 x2 x7 x8 x9 x10 x11 x12 (ix2 k j)) (x15 (ix1 j)) (x16 (ix1 j))
          (x2 (ix2 i j)) (Ideal.ofBits .f32 0x3727C5AC#32) (Ideal.ofBits .f32 0x489C4000#32) i := by
  simp only [val_main_v125_apply, val_main_v124_apply, val_main_call1_v5_apply, val_main_call1_v4_apply,
    val_main_call1_cst_0_apply, val_main_call1_v3_apply, val_main_call1_v2_apply, val_main_call1_cst_apply,
    val_main_call1_v1_apply, val_main_call1_v0_apply, val_main_v123_apply, val_main_v122_apply, val_main_v121_apply,
    val_main_v120_apply, val_main_v119_apply, val_main_v118_apply, val_main_v117_apply, val_main_v116_apply,
    val_main_v115_apply, val_main_cst_19_apply, val_main_v114_apply, val_main_v113_apply, val_main_v112_apply,
    val_main_v111_apply, val_main_v110_apply, val_main_v109_apply, val_main_v108_apply, val_main_v107_apply,
    val_main_cst_18_apply, val_main_v106_apply, val_main_cst_17_apply, val_main_v105_apply, val_main_v104_apply,
    val_main_v103_apply, val_main_v102_apply, val_main_v101_apply, val_main_v100_apply, val_main_cst_16_apply,
    val_main_v99_apply, val_main_cst_15_apply,
    Ideal.ofBits_def, Ideal.ofBits_zero_f32, Ideal.ofBits_one_f32]
  rw [show idx_main_v110 = idx_main_v103 from rfl,
    show idx_main_v113 = idx_main_v103 from rfl,
    show idx_main_v119 = idx_main_v103 from rfl,
    show idx_main_v122 = idx_main_v103 from rfl,
    show idx_main_v102 = idx_main_v54 from rfl,
    show idx_main_v109 = idx_main_v54 from rfl,
    show idx_main_v112 = idx_main_v54 from rfl,
    show idx_main_v118 = idx_main_v54 from rfl,
    show idx_main_v121 = idx_main_v54 from rfl,
    show idx_main_v106 = idx_main_v99 from rfl]
  simp only [idx_row_e, idx_vec, idx_col_e]
  rfl

abbrev eX : Vec Ideal S320000x256 .f32 := V c main_arg2
abbrev eH : Vec Ideal S320000x256 .f32 := V c main_v41_0
abbrev eMean : Vec Ideal S1x256 .f32 := V c main_v43
abbrev eVar : Vec Ideal S1x256 .f32 := V c main_v47
abbrev eG : Vec Ideal S1x256 .f32 := V c main_v48
abbrev eB : Vec Ideal S1x256 .f32 := V c main_v49
abbrev eOut : Vec Ideal S320000x256 .f32 := (dat5 V c).arrAt 6 cfg5.N

abbrev eN (i : Fin 320000) (j : Fin 256) : EReal :=
  ((eG V c (ix2 (0 : Fin 1) j) * (eH V c (ix2 i j) - eMean V c (ix2 (0 : Fin 1) j)))
      * Ideal.rsqrt (eVar V c (ix2 (0 : Fin 1) j) + Ideal.ofBits .f32 0x3727C5AC#32)) + eB V c (ix2 (0 : Fin 1) j)

abbrev xe12 : Vec Ideal S320000x256 .f32 := W12 m c main_arg2
abbrev he12 : Vec Ideal S320000x256 .f32 := W12 m c main_v41_0
abbrev sume12 : Vec Ideal S1x256 .f32 := W12 m c main_v41_1
abbrev sqe12 : Vec Ideal S1x256 .f32 := W12 m c main_v41_2
abbrev ge12 : Vec Ideal S256 .f32 := W12 m c main_arg15
abbrev be12 : Vec Ideal S256 .f32 := W12 m c main_arg16
abbrev oute14 : Vec Ideal S320000x256 .f32 := W14 m c main_v50

theorem v43_read (j : Fin 256) :
    eMean (atTc (W13 m)) c (ix2 (0 : Fin 1) j) = Ideal.div (sume12 m c (ix2 0 j)) (Ideal.ofBits .f32 0x489C4000#32) := by
  show StableHlo.after hostOps5 (W12 m c) (Proc.devRef .tc main_v43) _ = _
  after_results
  rfl

theorem v47_read (j : Fin 256) :
    eVar (atTc (W13 m)) c (ix2 (0 : Fin 1) j)
      = Ideal.div (sqe12 m c (ix2 0 j)) (Ideal.ofBits .f32 0x489C4000#32)
        - Ideal.div (sume12 m c (ix2 0 j)) (Ideal.ofBits .f32 0x489C4000#32)
          * Ideal.div (sume12 m c (ix2 0 j)) (Ideal.ofBits .f32 0x489C4000#32) := by
  show StableHlo.after hostOps5 (W12 m c) (Proc.devRef .tc main_v47) _ = _
  after_results
  rfl

theorem v48_read (j : Fin 256) : eG (atTc (W13 m)) c (ix2 (0 : Fin 1) j) = ge12 m c (ix1 j) := by
  show StableHlo.after hostOps5 (W12 m c) (Proc.devRef .tc main_v48) _ = _
  after_results
  exact row_cast _ j

theorem v49_read (j : Fin 256) : eB (atTc (W13 m)) c (ix2 (0 : Fin 1) j) = be12 m c (ix1 j) := by
  show StableHlo.after hostOps5 (W12 m c) (Proc.devRef .tc main_v49) _ = _
  after_results
  exact row_cast _ j

theorem arg2_carried : eX (atTc (W13 m)) c = xe12 m c :=
  StableHlo.after_of_writes_sub hostOps5 _ hostOps5_writes (by decide)

theorem v41_0_carried : eH (atTc (W13 m)) c = he12 m c :=
  StableHlo.after_of_writes_sub hostOps5 _ hostOps5_writes (by decide)

theorem v50_arr : oute14 m c = eOut (atTc (W13 m)) c := by
  unfold oute14 W14; exact Pipeline.withArrays_arr spec5 launch5.win.arr_inj c _ _ 6

-- Entry by entry both sides become the two normalisations of one real column, which agree.
theorem wout_eq_of
    (hh : he12 m c = val_main_v98 (F := Ideal) x0 x1 x2 x7 x8 x9 x10 x11 x12)
    (hs : ∀ j : Fin 256, sume12 m c (ix2 (0 : Fin 1) j) = ∑ i : Fin 320000, val_main_v98 (F := Ideal) x0 x1 x2 x7 x8 x9 x10 x11 x12 (ix2 i j))
    (hq : ∀ j : Fin 256, sqe12 m c (ix2 (0 : Fin 1) j)
      = ∑ i : Fin 320000, val_main_v98 (F := Ideal) x0 x1 x2 x7 x8 x9 x10 x11 x12 (ix2 i j) * val_main_v98 (F := Ideal) x0 x1 x2 x7 x8 x9 x10 x11 x12 (ix2 i j))
    (h3 : ∀ (V : (c : Dev nD) → (b : Ref sig .tc) → Buf (Elt Ideal) ((c : Thread nD τ).loc b)) (c : Dev nD) (i : Fin 320000) (j : Fin 256),
      eOut V c (ix2 i j) = eX V c (ix2 i j) + eN V c i j * Ideal.logistic (eN V c i j))
    (hx : xe12 m c = x2) (hg : ge12 m c = x15) (hb : be12 m c = x16)
    (hfin : ∀ i, ∃ r : ℝ, val_main_v98 (F := Ideal) x0 x1 x2 x7 x8 x9 x10 x11 x12 i = r) (hgf : ∀ i, ∃ r : ℝ, x15 i = r) :
    oute14 m c = val_main_v125 (F := Ideal) x0 x1 x2 x7 x8 x9 x10 x11 x12 x15 x16 := by
  funext idx
  obtain ⟨i, j, rfl⟩ : ∃ i j, idx = ix2 i j := ⟨idx 0, idx 1, eq_ix2 idx⟩
  rw [ref_entry_e, v50_arr, h3]
  unfold eN
  rw [arg2_carried, v41_0_carried, v43_read, v47_read, v48_read, v49_read, hx, hh, hs, hq, hg, hb]
  exact bn_eq (M := 320000) (by norm_num) (fun k => val_main_v98 (F := Ideal) x0 x1 x2 x7 x8 x9 x10 x11 x12 (ix2 k j)) (fun k => hfin _) _ _ _ _ _ (hgf _)
    ofBits_eps ofBits_320000 i

end Edge

end Cert.KernelIdeal.HandV

end
-- ==== Proof.KI.Final.lean ====
import proofs.«413128_j44495861187321_1_alg».proof.Defs
import proofs.«413128_j44495861187321_1_alg».proof.Proof.KI.Frame
import proofs.«413128_j44495861187321_1_alg».proof.Proof.KI.PreFacts
import proofs.«413128_j44495861187321_1_alg».proof.Proof.Gen.ReferenceIdeal.Read
import proofs.«413128_j44495861187321_1_alg».proof.Proof.KI.V0
import proofs.«413128_j44495861187321_1_alg».proof.Proof.KI.V1
import proofs.«413128_j44495861187321_1_alg».proof.Proof.KI.V2
import proofs.«413128_j44495861187321_1_alg».proof.Proof.KI.V3
import proofs.«413128_j44495861187321_1_alg».proof.Proof.KI.V4
import proofs.«413128_j44495861187321_1_alg».proof.Proof.KI.V5
import proofs.«413128_j44495861187321_1_alg».proof.Proof.KI.NodeLin
import proofs.«413128_j44495861187321_1_alg».proof.Proof.KI.EdgeAgg
import proofs.«413128_j44495861187321_1_alg».proof.Proof.KI.Mid
import proofs.«413128_j44495861187321_1_alg».proof.Proof.KI.BnJoin

noncomputable section

namespace Cert.KernelIdeal.HandV

open Cert.KernelIdeal Cert.KernelIdeal.Gen Cert.KernelIdeal.Hand Cert.ReferenceIdeal.Read
open Idealize.ShloMosaic Idealize.ShloMosaic.TcCoe Idealize.SL.Sem Idealize.ShloMosaic.ValueIdx

variable (m : (ℓ : Loc nD τ sig) → Buf (Elt Ideal) ℓ) (ρ : Dev nD → PrngReg)

-- Nothing after call 3 writes the first result.
theorem W14_main_v38 (c : Dev nD) : W14 m c (Proc.devRef .tc main_v38) = W9 m c (Proc.devRef .tc main_v38) :=
  (W14_of_ne m c main_v38 (by decide)).trans <|
    (StableHlo.after_of_writes_sub hostOps5 _ hostOps5_writes (by decide : main_v38 ∉ hostOps5_W)).trans <|
    (W12_of_ne m c main_v38 (by decide)).trans <|
    (StableHlo.after_of_writes_sub hostOps4_1 _ hostOps4_1_writes (by decide : main_v38 ∉ hostOps4_1_W)).trans <|
    StableHlo.after_of_writes_sub hostOps4 _ hostOps4_writes (by decide : main_v38 ∉ hostOps4_W)

-- The pre-norm array and its two column sums are the reference's; on reals the one-pass variance is the reference's.
theorem xout_eq (hpre : Cert.Pre_KernelIdeal m) (c : Dev nD) :
    W9 m c main_v38 = val_main_v77 (A m c main_arg0) (A m c main_arg1) (A m c main_arg2) (A m c main_arg3) (A m c main_arg4) (A m c main_arg5) (A m c main_arg6) (A m c main_arg13) (A m c main_arg14) := by
  obtain ⟨f0, f2, f3, f4, f5, f6, -, -, -, -, -, -, f13, -, -, -, hidx⟩ := Cert.Hand.Pre.facts_of_pre (h := hpre c)
  have hx1 := x1_eq m c Val0.val0_3
  have hx2 := x2_eq m c Val0.val0_4
  have hsig := sig_eq m c val1_4
  have take2 := fun Wp hx hi => take2_ref Wp (A m c main_arg0) (A m c main_arg1) (A m c main_arg5) (A m c main_arg6) hx hi hidx
  have agg := fun Wp => agg_eq Wp (A m c main_arg0) (A m c main_arg1) (A m c main_arg2) (A m c main_arg5) (A m c main_arg6)
  exact xout_eq_of m c _ _ _ _ _ _ _ _ _
    (hh m c hx1 hx2 hsig (src_eq m c) (dst_eq m c) take2 agg Val2.val2_2)
    (hs m c hx1 hx2 hsig (src_eq m c) (dst_eq m c) take2 agg Val2.val2_3)
    (hq m c hx1 hx2 hsig (src_eq m c) (dst_eq m c) take2 agg Val2.val2_4)
    Val3.val3_6 (W7_main_arg0 m c) (W7_main_arg13 m c) (W7_main_arg14 m c)
    (refH_real m c (ref_v8_real _ _ _ f0 f3 f4)
      (v49_real _ _ _ _ _ (ref_v29_real _ f2) (ref_v13_real _ _ _ f0 f5 f6))) f13

-- The same over the edges: the pre-norm array is the edge layer plus the two gathered node layers.
theorem wout_eq (hpre : Cert.Pre_KernelIdeal m) (c : Dev nD) :
    W14 m c main_v50 = val_main_v125 (A m c main_arg0) (A m c main_arg1) (A m c main_arg2) (A m c main_arg7) (A m c main_arg8) (A m c main_arg9) (A m c main_arg10) (A m c main_arg11) (A m c main_arg12) (A m c main_arg15) (A m c main_arg16) := by
  obtain ⟨f0, f2, -, -, -, -, f7, f8, f9, f10, f11, f12, -, -, f15, -, hidx⟩ := Cert.Hand.Pre.facts_of_pre (h := hpre c)
  have hx3 := x3_eq m c Val0.val0_5
  have hx4 := x4_eq m c Val0.val0_6
  have hw1e := w1e_eq m c val1_3
  have take3 := fun Wp hx hi => take3_ref Wp (A m c main_arg0) (A m c main_arg1) (A m c main_arg7) (A m c main_arg8) hx hi hidx
  have take4 := fun Wp hx hi => take4_ref Wp (A m c main_arg0) (A m c main_arg1) (A m c main_arg9) (A m c main_arg10) hx hi hidx
  exact wout_eq_of m c _ _ _ _ _ _ _ _ _ _ _
    (hh' m c hx3 hx4 hw1e (src_eq m c) (dst_eq m c) take3 take4 Val4.val4_3)
    (hs' m c hx3 hx4 hw1e (src_eq m c) (dst_eq m c) take3 take4 Val4.val4_4)
    (hq' m c hx3 hx4 hw1e (src_eq m c) (dst_eq m c) take3 take4 Val4.val4_5)
    Val5.val5_6 (W12_main_arg2 m c) (W12_main_arg15 m c) (W12_main_arg16 m c)
    (refE_real m c (ref_v82_real _ _ _ f2 f11 f12) (v89_real _ _ _ _ (ref_v18_real _ _ _ f0 f7 f8))
      (v97_real _ _ _ _ (ref_v23_real _ _ _ f0 f9 f10))) f15

theorem kernel_values (hpre : Cert.Pre_KernelIdeal m) :
    θ_run (Cert.KernelIdeal.defs (F := Ideal)) (onTc (τ := τ) (main (F := Ideal))) ⟨m, fun _ => 0, ρ⟩ (fun r => ∀ c : Dev nD,
      r.2.mem (c.tc.loc main_v38) = val_main_v77 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg13)) (m (c.tc.loc main_arg14))
      ∧ r.2.mem (c.tc.loc main_v50) = val_main_v125 (F := Ideal) (m (c.tc.loc main_arg0)) (m (c.tc.loc main_arg1)) (m (c.tc.loc main_arg2)) (m (c.tc.loc main_arg7)) (m (c.tc.loc main_arg8)) (m (c.tc.loc main_arg9)) (m (c.tc.loc main_arg10)) (m (c.tc.loc main_arg11)) (m (c.tc.loc main_arg12)) (m (c.tc.loc main_arg15)) (m (c.tc.loc main_arg16))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14)
      ∧ r.2.mem (c.tc.loc main_arg15) = m (c.tc.loc main_arg15)
      ∧ r.2.mem (c.tc.loc main_arg16) = m (c.tc.loc main_arg16)) :=
  (θ_run defs _ _).mono (fun r h c =>
    have at' := fun (b : Ref sig .tc) hb => h c _ (mem_uc b hb)
    ⟨(at' main_v38 (by decide)).trans ((W14_main_v38 m c).trans (xout_eq m hpre c)),
      (at' main_v50 (by decide)).trans (wout_eq m hpre c),
      (at' main_arg0 (by decide)).trans (W14_main_arg0 m c),
      (at' main_arg1 (by decide)).trans (W14_main_arg1 m c),
      (at' main_arg2 (by decide)).trans (W14_main_arg2 m c),
      (at' main_arg3 (by decide)).trans (W14_main_arg3 m c),
      (at' main_arg4 (by decide)).trans (W14_main_arg4 m c),
      (at' main_arg5 (by decide)).trans (W14_main_arg5 m c),
      (at' main_arg6 (by decide)).trans (W14_main_arg6 m c),
      (at' main_arg7 (by decide)).trans (W14_main_arg7 m c),
      (at' main_arg8 (by decide)).trans (W14_main_arg8 m c),
      (at' main_arg9 (by decide)).trans (W14_main_arg9 m c),
      (at' main_arg10 (by decide)).trans (W14_main_arg10 m c),
      (at' main_arg11 (by decide)).trans (W14_main_arg11 m c),
      (at' main_arg12 (by decide)).trans (W14_main_arg12 m c),
      (at' main_arg13 (by decide)).trans (W14_main_arg13 m c),
      (at' main_arg14 (by decide)).trans (W14_main_arg14 m c),
      (at' main_arg15 (by decide)).trans (W14_main_arg15 m c),
      (at' main_arg16 (by decide)).trans (W14_main_arg16 m c)⟩)
    (run_all m ρ)

end Cert.KernelIdeal.HandV

end
-- ==== Proof.lean ====
import proofs.«413128_j44495861187321_1_alg».proof.Defs
import proofs.«413128_j44495861187321_1_alg».proof.Proof.Gen.Kernel
import proofs.«413128_j44495861187321_1_alg».proof.Proof.Gen.KernelIdeal
import proofs.«413128_j44495861187321_1_alg».proof.Proof.Gen.ReferenceIdeal
import proofs.«413128_j44495861187321_1_alg».proof.Proof.Gen.Pre_finite_inputs
import proofs.«413128_j44495861187321_1_alg».proof.Proof.K.Frame
import proofs.«413128_j44495861187321_1_alg».proof.Proof.KI.Frame
import proofs.«413128_j44495861187321_1_alg».proof.Proof.KI.Final
import proofs.«413128_j44495861187321_1_alg».proof.Proof.RefRun

noncomputable section

namespace Cert.Proof

open Idealize.ShloMosaic Idealize.SL.Sem

theorem frame_kernel [Cert.Kernel.Facts] [Cert.Pre_finite_inputs.Facts] : Cert.frame_Kernel :=
  fun m ρ _ => Cert.Kernel.Hand.frame (F := Bits) m ρ

theorem frame_kernelIdeal [Cert.KernelIdeal.Facts] [Cert.Pre_finite_inputs.Facts] : Cert.frame_KernelIdeal :=
  fun m ρ _ => Cert.KernelIdeal.Hand.frame (F := Ideal) m ρ

theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- The kernel's run ends at the reference's own two terms of the arguments, and the reference's run at those terms
    of its own arguments, which are the kernel's. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, _, Cert.KernelIdeal.HandV.kernel_values m ρ hpre, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15, h16⟩ := hagree c
  refine ⟨(h c).1.trans ?_, (h c).2.1.trans ?_, (h c).2.2⟩
  · rw [Cert.ReferenceIdeal.Read.val_main_v77_eq, h0, h1, h2, h3, h4, h5, h6, h13, h14]
  · rw [Cert.ReferenceIdeal.Read.val_main_v125_eq, h0, h1, h2, h7, h8, h9, h10, h11, h12, h15, h16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
